-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v183)) (v1 : (c : Dev Cert.KernelIdeal.nD) → Buf (Elt Ideal) ((c.tc : Thread Cert.KernelIdeal.nD Cert.KernelIdeal.τ).loc Cert.KernelIdeal.main_v190)) (v2 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_v190) = v1 c
          ∧ r.2.mem ((c.tc : Thread Cert.KernelIdeal.nD Cert.KernelIdeal.τ).loc Cert.KernelIdeal.main_v197) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_v283) = v1 c
          ∧ r.2.mem ((c.tc : Thread Cert.ReferenceIdeal.nD Cert.ReferenceIdeal.τ).loc Cert.ReferenceIdeal.main_v290) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S500000 : Shape := ⟨1, ![500000]⟩
abbrev S8192 : Shape := ⟨1, ![8192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S3x64x64 .f32) (main_arg5 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : FVec F S3x64x64 .f32) (main_arg3 : FVec F S3x64 .f32) (main_arg4 : FVec F S3x64x64 .f32) (main_arg5 : FVec F S3x64 .f32) (main_arg6 : IVec S500000 32) (main_arg7 : IVec S500000 32) (main_arg8 : IVec S8192 32) (main_arg9 : IVec S8192 32) (main_arg10 : IVec S8192 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_v13 main_v16
-- ==== Kernel.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S500000 : Shape := ⟨1, ![500000]⟩
abbrev S8192 : Shape := ⟨1, ![8192]⟩
abbrev S_ : Shape := ⟨0, ![]⟩
abbrev S100000 : Shape := ⟨1, ![100000]⟩
abbrev S500000x1 : Shape := ⟨2, ![500000, 1]⟩
abbrev S50000 : Shape := ⟨1, ![50000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S500000x64 : Shape := ⟨2, ![500000, 64]⟩
abbrev S5000x1 : Shape := ⟨2, ![5000, 1]⟩
abbrev S5000 : Shape := ⟨1, ![5000]⟩
abbrev S100000x256 : Shape := ⟨2, ![100000, 256]⟩
abbrev S50000x256 : Shape := ⟨2, ![50000, 256]⟩
abbrev S8192x1 : Shape := ⟨2, ![8192, 1]⟩
abbrev S8192x256 : Shape := ⟨2, ![8192, 256]⟩

abbrev nBuf : Space → Nat
  | .hbm => 256
  | .vmem => 120
  | .smem => 0
  | _ => 0

abbrev hbmTy0_0 (i : Nat) : BufTy := match i % 128 with
  | 0 => ⟨S100000x64, .f32⟩
  | 1 => ⟨S50000x64, .f32⟩
  | 2 => ⟨S3x64x64, .f32⟩
  | 3 => ⟨S3x64, .f32⟩
  | 4 => ⟨S3x64x64, .f32⟩
  | 5 => ⟨S3x64, .f32⟩
  | 6 => ⟨S500000, .i32⟩
  | 7 => ⟨S500000, .i32⟩
  | 8 => ⟨S8192, .i32⟩
  | 9 => ⟨S8192, .i32⟩
  | 10 => ⟨S8192, .i32⟩
  | 11 => ⟨S_, .f32⟩
  | 12 => ⟨S500000, .f32⟩
  | 13 => ⟨S_, .f32⟩
  | 14 => ⟨S100000, .f32⟩
  | 15 => ⟨S500000x1, .i32⟩
  | 16 => ⟨S100000, .f32⟩
  | 17 => ⟨S_, .f32⟩
  | 18 => ⟨S50000, .f32⟩
  | 19 => ⟨S500000x1, .i32⟩
  | 20 => ⟨S50000, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000, .f32⟩
  | 39 => ⟨S500000, .f32⟩
  | 40 => ⟨S_, .f32⟩
  | 41 => ⟨S500000, .f32⟩
  | 42 => ⟨S500000, .f32⟩
  | 43 => ⟨S500000x1, .f32⟩
  | 44 => ⟨S1x64x64, .f32⟩
  | 45 => ⟨S64x64, .f32⟩
  | 46 => ⟨S1x64, .f32⟩
  | 47 => ⟨S64, .f32⟩
  | 48 => ⟨S1x64x64, .f32⟩
  | 49 => ⟨S64x64, .f32⟩
  | 50 => ⟨S1x64, .f32⟩
  | 51 => ⟨S64, .f32⟩
  | 52 => ⟨S1x64, .f32⟩
  | 53 => ⟨S100000x64, .f32⟩
  | 54 => ⟨S1x64, .f32⟩
  | 55 => ⟨S50000x64, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x64, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x64, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x64, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x64, .f32⟩
  | 92 => ⟨S1x64, .f32⟩
  | 93 => ⟨S500000x64, .f32⟩
  | 94 => ⟨S500000x64, .f32⟩
  | 95 => ⟨S_, .f32⟩
  | 96 => ⟨S100000x64, .f32⟩
  | 97 => ⟨S500000x1, .i32⟩
  | 98 => ⟨S100000x64, .f32⟩
  | 99 => ⟨S_, .f32⟩
  | 100 => ⟨S50000x64, .f32⟩
  | 101 => ⟨S500000x1, .i32⟩
  | 102 => ⟨S50000x64, .f32⟩
  | 103 => ⟨S100000x64, .f32⟩
  | 104 => ⟨S50000x64, .f32⟩
  | 105 => ⟨S1x64x64, .f32⟩
  | 106 => ⟨S64x64, .f32⟩
  | 107 => ⟨S1x64, .f32⟩
  | 108 => ⟨S64, .f32⟩
  | 109 => ⟨S1x64x64, .f32⟩
  | 110 => ⟨S64x64, .f32⟩
  | 111 => ⟨S1x64, .f32⟩
  | 112 => ⟨S64, .f32⟩
  | 113 => ⟨S1x64, .f32⟩
  | 114 => ⟨S100000x64, .f32⟩
  | 115 => ⟨S1x64, .f32⟩
  | 116 => ⟨S50000x64, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x64, .f32⟩
  | 126 => ⟨S_, .i32⟩
  | 127 => ⟨S500000, .i32⟩
  | _ => ⟨S100000x64, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x64, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x64, .f32⟩
  | 25 => ⟨S1x64, .f32⟩
  | 26 => ⟨S500000x64, .f32⟩
  | 27 => ⟨S500000x64, .f32⟩
  | 28 => ⟨S_, .f32⟩
  | 29 => ⟨S100000x64, .f32⟩
  | 30 => ⟨S500000x1, .i32⟩
  | 31 => ⟨S100000x64, .f32⟩
  | 32 => ⟨S_, .f32⟩
  | 33 => ⟨S50000x64, .f32⟩
  | 34 => ⟨S500000x1, .i32⟩
  | 35 => ⟨S50000x64, .f32⟩
  | 36 => ⟨S100000x64, .f32⟩
  | 37 => ⟨S50000x64, .f32⟩
  | 38 => ⟨S1x64x64, .f32⟩
  | 39 => ⟨S64x64, .f32⟩
  | 40 => ⟨S1x64, .f32⟩
  | 41 => ⟨S64, .f32⟩
  | 42 => ⟨S1x64x64, .f32⟩
  | 43 => ⟨S64x64, .f32⟩
  | 44 => ⟨S1x64, .f32⟩
  | 45 => ⟨S64, .f32⟩
  | 46 => ⟨S1x64, .f32⟩
  | 47 => ⟨S100000x64, .f32⟩
  | 48 => ⟨S1x64, .f32⟩
  | 49 => ⟨S50000x64, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x64, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x64, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x64, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000x64, .f32⟩
  | 86 => ⟨S1x64, .f32⟩
  | 87 => ⟨S500000x64, .f32⟩
  | 88 => ⟨S500000x64, .f32⟩
  | 89 => ⟨S_, .f32⟩
  | 90 => ⟨S100000x64, .f32⟩
  | 91 => ⟨S500000x1, .i32⟩
  | 92 => ⟨S100000x64, .f32⟩
  | 93 => ⟨S_, .f32⟩
  | 94 => ⟨S50000x64, .f32⟩
  | 95 => ⟨S500000x1, .i32⟩
  | 96 => ⟨S50000x64, .f32⟩
  | 97 => ⟨S100000x64, .f32⟩
  | 98 => ⟨S50000x64, .f32⟩
  | 99 => ⟨S100000x256, .f32⟩
  | 100 => ⟨S50000x256, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S8192x256, .f32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S8192x256, .f32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S8192x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x1, .f32⟩
  | .local _ .vmem, ⟨61, _⟩ => ⟨S5000x1, .f32⟩
  | .local _ .vmem, ⟨62, _⟩ => ⟨S64x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S64x64, .f32⟩
  | .local _ .vmem, ⟨83, _⟩ => ⟨S1x64, .f32⟩
  | .local _ .vmem, ⟨84, _⟩ => ⟨S5000x64, .f32⟩
  | .local _ .vmem, ⟨85, _⟩ => ⟨S5000x64, .f32⟩
  | .local _ .vmem, ⟨86, _⟩ => ⟨S5000x64, .f32⟩
  | .local _ .vmem, ⟨87, _⟩ => ⟨S5000x64, .f32⟩
  | .local _ .vmem, ⟨88, _⟩ => ⟨S64x64, .f32⟩
  | .local _ .vmem, ⟨89, _⟩ => ⟨S1x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S5000x64, .f32⟩
  | .local _ .vmem, ⟨94, _⟩ => ⟨S5000x64, .f32⟩
  | .local _ .vmem, ⟨95, _⟩ => ⟨S5000x64, .f32⟩
  | .local _ .vmem, ⟨96, _⟩ => ⟨S5000x64, .f32⟩
  | .local _ .vmem, ⟨97, _⟩ => ⟨S5000x64, .f32⟩
  | .local _ .vmem, ⟨98, _⟩ => ⟨S5000x64, .f32⟩
  | .local _ .vmem, ⟨99, _⟩ => ⟨S5000x64, .f32⟩
  | .local _ .vmem, ⟨100, _⟩ => ⟨S5000x1, .f32⟩
  | .local _ .vmem, ⟨101, _⟩ => ⟨S5000x1, .f32⟩
  | .local _ .vmem, ⟨102, _⟩ => ⟨S64x64, .f32⟩
  | .local _ .vmem, ⟨103, _⟩ => ⟨S1x64, .f32⟩
  | .local _ .vmem, ⟨104, _⟩ => ⟨S5000x64, .f32⟩
  | .local _ .vmem, ⟨105, _⟩ => ⟨S5000x64, .f32⟩
  | .local _ .vmem, ⟨106, _⟩ => ⟨S5000x64, .f32⟩
  | .local _ .vmem, ⟨107, _⟩ => ⟨S5000x64, .f32⟩
  | .local _ .vmem, ⟨108, _⟩ => ⟨S5000x64, .f32⟩
  | .local _ .vmem, ⟨109, _⟩ => ⟨S5000x64, .f32⟩
  | .local _ .vmem, ⟨110, _⟩ => ⟨S5000x64, .f32⟩
  | .local _ .vmem, ⟨111, _⟩ => ⟨S5000x64, .f32⟩
  | .local _ .vmem, ⟨112, _⟩ => ⟨S5000x64, .f32⟩
  | .local _ .vmem, ⟨113, _⟩ => ⟨S5000x64, .f32⟩
  | .local _ .vmem, ⟨114, _⟩ => ⟨S5000x64, .f32⟩
  | .local _ .vmem, ⟨115, _⟩ => ⟨S5000x64, .f32⟩
  | .local _ .vmem, ⟨116, _⟩ => ⟨S5000x64, .f32⟩
  | .local _ .vmem, ⟨117, _⟩ => ⟨S5000x64, .f32⟩
  | .local _ .vmem, ⟨118, _⟩ => ⟨S5000x64, .f32⟩
  | .local _ .vmem, ⟨119, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_16 : Ref sig .tc := ⟨.hbm, 117, rfl⟩
abbrev main_v87 : Ref sig .tc := ⟨.hbm, 118, rfl⟩
abbrev main_v88 : Ref sig .tc := ⟨.hbm, 119, rfl⟩
abbrev main_c_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_18 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_20 : Ref sig .tc := ⟨.hbm, 135, rfl⟩
abbrev main_v101 : Ref sig .tc := ⟨.hbm, 136, rfl⟩
abbrev main_v102 : Ref sig .tc := ⟨.hbm, 137, rfl⟩
abbrev main_c_21 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_22 : Ref sig .tc := ⟨.hbm, 144, rfl⟩
abbrev main_v108 : Ref sig .tc := ⟨.hbm, 145, rfl⟩
abbrev main_v109 : Ref sig .tc := ⟨.hbm, 146, rfl⟩
abbrev main_c_23 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116_0 : Ref sig .tc := ⟨.hbm, 154, rfl⟩
abbrev main_v116_1 : Ref sig .tc := ⟨.hbm, 155, rfl⟩
abbrev main_cst_24 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_25 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_c_26 : Ref sig .tc := ⟨.hbm, 178, rfl⟩
abbrev main_v137 : Ref sig .tc := ⟨.hbm, 179, rfl⟩
abbrev main_v138 : Ref sig .tc := ⟨.hbm, 180, rfl⟩
abbrev main_c_27 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_c_28 : Ref sig .tc := ⟨.hbm, 187, rfl⟩
abbrev main_v144 : Ref sig .tc := ⟨.hbm, 188, rfl⟩
abbrev main_v145 : Ref sig .tc := ⟨.hbm, 189, rfl⟩
abbrev main_c_29 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_30 : Ref sig .tc := ⟨.hbm, 196, rfl⟩
abbrev main_v151 : Ref sig .tc := ⟨.hbm, 197, rfl⟩
abbrev main_v152 : Ref sig .tc := ⟨.hbm, 198, rfl⟩
abbrev main_c_31 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_c_32 : Ref sig .tc := ⟨.hbm, 205, rfl⟩
abbrev main_v158 : Ref sig .tc := ⟨.hbm, 206, rfl⟩
abbrev main_v159 : Ref sig .tc := ⟨.hbm, 207, rfl⟩
abbrev main_c_33 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166_0 : Ref sig .tc := ⟨.hbm, 215, rfl⟩
abbrev main_v166_1 : Ref sig .tc := ⟨.hbm, 216, rfl⟩
abbrev main_cst_34 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_35 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_c_36 : Ref sig .tc := ⟨.hbm, 229, rfl⟩
abbrev main_v177 : Ref sig .tc := ⟨.hbm, 230, rfl⟩
abbrev main_v178 : Ref sig .tc := ⟨.hbm, 231, rfl⟩
abbrev main_c_37 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_38 : Ref sig .tc := ⟨.hbm, 238, rfl⟩
abbrev main_v184 : Ref sig .tc := ⟨.hbm, 239, rfl⟩
abbrev main_v185 : Ref sig .tc := ⟨.hbm, 240, rfl⟩
abbrev main_c_39 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_c_40 : Ref sig .tc := ⟨.hbm, 247, rfl⟩
abbrev main_v191 : Ref sig .tc := ⟨.hbm, 248, rfl⟩
abbrev main_v192 : Ref sig .tc := ⟨.hbm, 249, rfl⟩
abbrev main_c_41 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc7_stg7_0 : Ref sig .tc := ⟨.vmem, 64, rfl⟩
abbrev cc7_stg7_1 : Ref sig .tc := ⟨.vmem, 65, rfl⟩
abbrev cc7_stg8_0 : Ref sig .tc := ⟨.vmem, 66, rfl⟩
abbrev cc7_stg8_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg2_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg3_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg2_0 : Ref sig .tc := ⟨.vmem, 89, rfl⟩
abbrev cc11_stg3_0 : Ref sig .tc := ⟨.vmem, 90, rfl⟩
abbrev cc11_stg3_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg2_1 : Ref sig .tc := ⟨.vmem, 97, rfl⟩
abbrev cc12_stg3_0 : Ref sig .tc := ⟨.vmem, 98, rfl⟩
abbrev cc12_stg3_1 : Ref sig .tc := ⟨.vmem, 99, rfl⟩
abbrev cc12_stg4_0 : Ref sig .tc := ⟨.vmem, 100, rfl⟩
abbrev cc12_stg4_1 : Ref sig .tc := ⟨.vmem, 101, rfl⟩
abbrev cc12_stg5_0 : Ref sig .tc := ⟨.vmem, 102, rfl⟩
abbrev cc12_stg6_0 : Ref sig .tc := ⟨.vmem, 103, rfl⟩
abbrev cc12_stg7_0 : Ref sig .tc := ⟨.vmem, 104, rfl⟩
abbrev cc12_stg7_1 : Ref sig .tc := ⟨.vmem, 105, rfl⟩
abbrev cc12_stg8_0 : Ref sig .tc := ⟨.vmem, 106, rfl⟩
abbrev cc12_stg8_1 : Ref sig .tc := ⟨.vmem, 107, rfl⟩
abbrev cc13_stg0_0 : Ref sig .tc := ⟨.vmem, 108, rfl⟩
abbrev cc13_stg0_1 : Ref sig .tc := ⟨.vmem, 109, rfl⟩
abbrev cc13_stg1_0 : Ref sig .tc := ⟨.vmem, 110, rfl⟩
abbrev cc13_stg1_1 : Ref sig .tc := ⟨.vmem, 111, rfl⟩
abbrev cc13_stg2_0 : Ref sig .tc := ⟨.vmem, 112, rfl⟩
abbrev cc13_stg2_1 : Ref sig .tc := ⟨.vmem, 113, rfl⟩
abbrev cc14_stg0_0 : Ref sig .tc := ⟨.vmem, 114, rfl⟩
abbrev cc14_stg0_1 : Ref sig .tc := ⟨.vmem, 115, rfl⟩
abbrev cc14_stg1_0 : Ref sig .tc := ⟨.vmem, 116, rfl⟩
abbrev cc14_stg1_1 : Ref sig .tc := ⟨.vmem, 117, rfl⟩
abbrev cc14_stg2_0 : Ref sig .tc := ⟨.vmem, 118, rfl⟩
abbrev cc14_stg2_1 : Ref sig .tc := ⟨.vmem, 119, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem6_0 : DmaSem sig := 23
abbrev cc2_sem7_0 : DmaSem sig := 24
abbrev cc2_sem7_1 : DmaSem sig := 25
abbrev cc2_sem8_0 : DmaSem sig := 26
abbrev cc2_sem8_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc7_sem4_0 : DmaSem sig := 60
abbrev cc7_sem4_1 : DmaSem sig := 61
abbrev cc7_sem5_0 : DmaSem sig := 62
abbrev cc7_sem6_0 : DmaSem sig := 63
abbrev cc7_sem7_0 : DmaSem sig := 64
abbrev cc7_sem7_1 : DmaSem sig := 65
abbrev cc7_sem8_0 : DmaSem sig := 66
abbrev cc7_sem8_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem2_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem3_1 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem3_0 : DmaSem sig := 90
abbrev cc11_sem3_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem2_1 : DmaSem sig := 97
abbrev cc12_sem3_0 : DmaSem sig := 98
abbrev cc12_sem3_1 : DmaSem sig := 99
abbrev cc12_sem4_0 : DmaSem sig := 100
abbrev cc12_sem4_1 : DmaSem sig := 101
abbrev cc12_sem5_0 : DmaSem sig := 102
abbrev cc12_sem6_0 : DmaSem sig := 103
abbrev cc12_sem7_0 : DmaSem sig := 104
abbrev cc12_sem7_1 : DmaSem sig := 105
abbrev cc12_sem8_0 : DmaSem sig := 106
abbrev cc12_sem8_1 : DmaSem sig := 107
abbrev cc13_sem0_0 : DmaSem sig := 108
abbrev cc13_sem0_1 : DmaSem sig := 109
abbrev cc13_sem1_0 : DmaSem sig := 110
abbrev cc13_sem1_1 : DmaSem sig := 111
abbrev cc13_sem2_0 : DmaSem sig := 112
abbrev cc13_sem2_1 : DmaSem sig := 113
abbrev cc14_sem0_0 : DmaSem sig := 114
abbrev cc14_sem0_1 : DmaSem sig := 115
abbrev cc14_sem1_0 : DmaSem sig := 116
abbrev cc14_sem1_1 : DmaSem sig := 117
abbrev cc14_sem2_0 : DmaSem sig := 118
abbrev cc14_sem2_1 : DmaSem sig := 119

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S5000x64 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S5000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S5000x1 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S64x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S5000x64 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 2 → Memref sig .tc .vmem S5000x64 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S_S50000 : S_.BroadcastsInDim S50000 (![] : Fin 0 → Fin S50000.rank)
  shapeCasts_S500000_S500000x1 : S500000.ShapeCasts S500000x1
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  bcast_S_S50000x64 : S_.BroadcastsInDim S50000x64 (![] : Fin 0 → Fin S50000x64.rank)
  reduces_S5000x64_S5000 : S5000x64.Reduces [1] S5000
  shapeCasts_S5000_S5000x1 : S5000.ShapeCasts S5000x1
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  concatenates_S50000x64_S50000x64_S50000x64_S50000x64_S50000x256_d1 : Shape.Concatenates [S50000x64, S50000x64, S50000x64, S50000x64] S50000x256 1
  bcast_S_S8192 : S_.BroadcastsInDim S8192 (![] : Fin 0 → Fin S8192.rank)
  bcast_S8192_S8192x1_0 : S8192.BroadcastsInDim S8192x1 (![0] : Fin 1 → Fin S8192x1.rank)
  scatter_S100000_S500000x1_S500000_n_0_0_1_wf : ScatterDims.WF S100000 S500000x1 S500000 [] [0] [0] 1
  scatter_S50000_S500000x1_S500000_n_0_0_1_wf : ScatterDims.WF S50000 S500000x1 S500000 [] [0] [0] 1
  gather_S100000_S500000x1_S500000_n_0_n_n_0_1_1_wf : GatherDims.WF S100000 S500000x1 S500000 [] [0] [] [0] [] 1 ![1]
  gather_S50000_S500000x1_S500000_n_0_n_n_0_1_1_wf : GatherDims.WF S50000 S500000x1 S500000 [] [0] [] [0] [] 1 ![1]
  dot_S5000x64_S64x64_S5000x64_1_0_0_1_n_n_wf : DotDims.WF S5000x64 S64x64 S5000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  scatter_S100000x64_S500000x1_S500000x64_1_0_0_1_wf : ScatterDims.WF S100000x64 S500000x1 S500000x64 [1] [0] [0] 1
  scatter_S50000x64_S500000x1_S500000x64_1_0_0_1_wf : ScatterDims.WF S50000x64 S500000x1 S500000x64 [1] [0] [0] 1
  gather_S100000x256_S8192x1_S8192x256_1_0_n_n_0_1_1256_wf : GatherDims.WF S100000x256 S8192x1 S8192x256 [1] [0] [] [0] [] 1 ![1, 256]
  gather_S50000x256_S8192x1_S8192x256_1_0_n_n_0_1_1256_wf : GatherDims.WF S50000x256 S8192x1 S8192x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S500000x64.size a
  hwx2_0 : ∀ i : grid2.Coords, EltTy.bits .f32 = 32 ∨ (Rect.block (s := S500000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S500000x64.size a
  hwx2_1 : ∀ i : grid2.Coords, EltTy.bits .f32 = 32 ∨ (Rect.block (s := S500000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S500000x64.size a
  hwx2_2 : ∀ i : grid2.Coords, EltTy.bits .f32 = 32 ∨ (Rect.block (s := S500000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S500000x64.size a
  hwx2_3 : ∀ i : grid2.Coords, EltTy.bits .f32 = 32 ∨ (Rect.block (s := S500000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S500000x1.size a
  hwx2_4 : ∀ i : grid2.Coords, EltTy.bits .f32 = 32 ∨ (Rect.block (s := S500000x1) S5000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S500000x64.size a
  hwx2_7 : ∀ i : grid2.Coords, EltTy.bits .f32 = 32 ∨ (Rect.block (s := S500000x64) S5000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S500000x64.size a
  hwx2_8 : ∀ i : grid2.Coords, EltTy.bits .f32 = 32 ∨ (Rect.block (s := S500000x64) S5000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S500000x64.size a
  hwx7_0 : ∀ i : grid7.Coords, EltTy.bits .f32 = 32 ∨ (Rect.block (s := S500000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S500000x64.size a
  hwx7_1 : ∀ i : grid7.Coords, EltTy.bits .f32 = 32 ∨ (Rect.block (s := S500000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S500000x64.size a
  hwx7_2 : ∀ i : grid7.Coords, EltTy.bits .f32 = 32 ∨ (Rect.block (s := S500000x64) S5000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S500000x64.size a
  hwx7_3 : ∀ i : grid7.Coords, EltTy.bits .f32 = 32 ∨ (Rect.block (s := S500000x64) S5000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x1.size a ≤ S500000x1.size a
  hwx7_4 : ∀ i : grid7.Coords, EltTy.bits .f32 = 32 ∨ (Rect.block (s := S500000x1) S5000x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x64.size a ≤ S500000x64.size a
  hwx7_7 : ∀ i : grid7.Coords, EltTy.bits .f32 = 32 ∨ (Rect.block (s := S500000x64) S5000x64.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x64.size a ≤ S500000x64.size a
  hwx7_8 : ∀ i : grid7.Coords, EltTy.bits .f32 = 32 ∨ (Rect.block (s := S500000x64) S5000x64.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S50000x64.size a
  hwx9_1 : ∀ i : grid9.Coords, EltTy.bits .f32 = 32 ∨ (Rect.block (s := S50000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x64.size a ≤ S100000x64.size a
  hwx10_3 : ∀ i : grid10.Coords, EltTy.bits .f32 = 32 ∨ (Rect.block (s := S100000x64) S5000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S50000x64.size a
  hwx11_3 : ∀ i : grid11.Coords, EltTy.bits .f32 = 32 ∨ (Rect.block (s := S50000x64) S5000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S500000x64.size a
  hwx12_0 : ∀ i : grid12.Coords, EltTy.bits .f32 = 32 ∨ (Rect.block (s := S500000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S500000x64.size a
  hwx12_1 : ∀ i : grid12.Coords, EltTy.bits .f32 = 32 ∨ (Rect.block (s := S500000x64) S5000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S500000x64.size a
  hwx12_2 : ∀ i : grid12.Coords, EltTy.bits .f32 = 32 ∨ (Rect.block (s := S500000x64) S5000x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x64.size a ≤ S500000x64.size a
  hwx12_3 : ∀ i : grid12.Coords, EltTy.bits .f32 = 32 ∨ (Rect.block (s := S500000x64) S5000x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x1.size a ≤ S500000x1.size a
  hwx12_4 : ∀ i : grid12.Coords, EltTy.bits .f32 = 32 ∨ (Rect.block (s := S500000x1) S5000x1.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64x64.size a ≤ S64x64.size a
  hwx12_5 : ∀ i : grid12.Coords, EltTy.bits .f32 = 32 ∨ (Rect.block (s := S64x64) S64x64.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x64.size a ≤ S1x64.size a
  hwx12_6 : ∀ i : grid12.Coords, EltTy.bits .f32 = 32 ∨ (Rect.block (s := S1x64) S1x64.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S5000x64.size a ≤ S500000x64.size a
  hwx12_7 : ∀ i : grid12.Coords, EltTy.bits .f32 = 32 ∨ (Rect.block (s := S500000x64) S5000x64.size (cc12_transform_7 i) (hinb12_7 i)).WholeWords (EltTy.packing .f32)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S5000x64.size a ≤ S500000x64.size a
  hwx12_8 : ∀ i : grid12.Coords, EltTy.bits .f32 = 32 ∨ (Rect.block (s := S500000x64) S5000x64.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S100000x64.size a
  hwx13_1 : ∀ i : grid13.Coords, EltTy.bits .f32 = 32 ∨ (Rect.block (s := S100000x64) S5000x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x64.size a ≤ S100000x64.size a
  hwx13_2 : ∀ i : grid13.Coords, EltTy.bits .f32 = 32 ∨ (Rect.block (s := S100000x64) S5000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x64.size a ≤ S50000x64.size a
  hwx14_1 : ∀ i : grid14.Coords, EltTy.bits .f32 = 32 ∨ (Rect.block (s := S50000x64) S5000x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x64.size a ≤ S50000x64.size a
  hwx14_2 : ∀ i : grid14.Coords, EltTy.bits .f32 = 32 ∨ (Rect.block (s := S50000x64) S5000x64.size (cc14_transform_2 i) (hinb14_2 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66_0) S5000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v66_1) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v34) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v74) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v93) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v107) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v114) S5000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v24) S5000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v80) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v115) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v116_0) S5000x64.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v116_1) S5000x64.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v84) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v123) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v86) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v122) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v124) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v123) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v126) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v133) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v134) S5000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v124) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v135) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v136) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v143) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v150) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v157) S5000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v164) S5000x64.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v24) S5000x1.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v130) S64x64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v165) S1x64.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v166_0) S5000x64.size cc12_transform_7 reads12_7 true false 2 stage12_7 sem12_7
    hrank12 hreads12_7 hinb12_7 nbuf12_7 (Memref.isWhole_whole _) hwx12_7 hstage12_7

abbrev win12_8 : Pipeline.Window sig grid12 :=
  Pipeline.Window.ofSpec (Memref.whole main_v166_1) S5000x64.size cc12_transform_8 reads12_8 true false 2 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev win13_0 : Pipeline.Window sig grid13 :=
  Pipeline.Window.ofSpec (Memref.whole main_v134) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v169) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v173) S5000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v136) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v172) S5000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v174) S5000x64.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S500000 : Shape := ⟨1, ![500000]⟩
abbrev S8192 : Shape := ⟨1, ![8192]⟩
abbrev S_ : Shape := ⟨0, ![]⟩
abbrev S100000 : Shape := ⟨1, ![100000]⟩
abbrev S500000x1 : Shape := ⟨2, ![500000, 1]⟩
abbrev S50000 : Shape := ⟨1, ![50000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S500000x64 : Shape := ⟨2, ![500000, 64]⟩
abbrev S100000x1 : Shape := ⟨2, ![100000, 1]⟩
abbrev S50000x1 : Shape := ⟨2, ![50000, 1]⟩
abbrev S100000x256 : Shape := ⟨2, ![100000, 256]⟩
abbrev S50000x256 : Shape := ⟨2, ![50000, 256]⟩
abbrev S8192x1 : Shape := ⟨2, ![8192, 1]⟩
abbrev S8192x256 : Shape := ⟨2, ![8192, 256]⟩

abbrev nBuf : Space → Nat
  | .hbm => 400
  | .vmem => 0
  | .smem => 0
  | _ => 0

abbrev hbmTy0_0 (i : Nat) : BufTy := match i % 128 with
  | 0 => ⟨S100000x64, .f32⟩
  | 1 => ⟨S50000x64, .f32⟩
  | 2 => ⟨S3x64x64, .f32⟩
  | 3 => ⟨S3x64, .f32⟩
  | 4 => ⟨S3x64x64, .f32⟩
  | 5 => ⟨S3x64, .f32⟩
  | 6 => ⟨S500000, .i32⟩
  | 7 => ⟨S500000, .i32⟩
  | 8 => ⟨S8192, .i32⟩
  | 9 => ⟨S8192, .i32⟩
  | 10 => ⟨S8192, .i32⟩
  | 11 => ⟨S_, .f32⟩
  | 12 => ⟨S500000, .f32⟩
  | 13 => ⟨S_, .f32⟩
  | 14 => ⟨S100000, .f32⟩
  | 15 => ⟨S500000x1, .i32⟩
  | 16 => ⟨S100000, .f32⟩
  | 17 => ⟨S_, .f32⟩
  | 18 => ⟨S50000, .f32⟩
  | 19 => ⟨S500000x1, .i32⟩
  | 20 => ⟨S50000, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000, .f32⟩
  | 39 => ⟨S500000, .f32⟩
  | 40 => ⟨S_, .f32⟩
  | 41 => ⟨S500000, .f32⟩
  | 42 => ⟨S500000, .f32⟩
  | 43 => ⟨S500000x1, .f32⟩
  | 44 => ⟨S1x64x64, .f32⟩
  | 45 => ⟨S64x64, .f32⟩
  | 46 => ⟨S1x64, .f32⟩
  | 47 => ⟨S64, .f32⟩
  | 48 => ⟨S1x64x64, .f32⟩
  | 49 => ⟨S64x64, .f32⟩
  | 50 => ⟨S1x64, .f32⟩
  | 51 => ⟨S64, .f32⟩
  | 52 => ⟨S100000x64, .f32⟩
  | 53 => ⟨S1x64, .f32⟩
  | 54 => ⟨S100000x64, .f32⟩
  | 55 => ⟨S100000x64, .f32⟩
  | 56 => ⟨S50000x64, .f32⟩
  | 57 => ⟨S1x64, .f32⟩
  | 58 => ⟨S50000x64, .f32⟩
  | 59 => ⟨S50000x64, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x64, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x64, .f32⟩
  | 78 => ⟨S500000x64, .f32⟩
  | 79 => ⟨S500000x64, .f32⟩
  | 80 => ⟨S1x64, .f32⟩
  | 81 => ⟨S500000x64, .f32⟩
  | 82 => ⟨S500000x64, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x64, .f32⟩
  | 92 => ⟨S500000x64, .f32⟩
  | 93 => ⟨S500000x64, .f32⟩
  | 94 => ⟨S500000x64, .f32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000x64, .f32⟩
  | 104 => ⟨S500000x64, .f32⟩
  | 105 => ⟨S500000x64, .f32⟩
  | 106 => ⟨S500000x64, .f32⟩
  | 107 => ⟨S_, .f32⟩
  | 108 => ⟨S100000x64, .f32⟩
  | 109 => ⟨S500000x1, .i32⟩
  | 110 => ⟨S100000x64, .f32⟩
  | 111 => ⟨S100000x64, .f32⟩
  | 112 => ⟨S_, .f32⟩
  | 113 => ⟨S50000x64, .f32⟩
  | 114 => ⟨S500000x1, .i32⟩
  | 115 => ⟨S50000x64, .f32⟩
  | 116 => ⟨S50000x64, .f32⟩
  | 117 => ⟨S_, .f32⟩
  | 118 => ⟨S_, .f32⟩
  | 119 => ⟨S100000x64, .f32⟩
  | 120 => ⟨S100000x64, .i1⟩
  | 121 => ⟨S_, .f32⟩
  | 122 => ⟨S100000x64, .f32⟩
  | 123 => ⟨S100000x64, .f32⟩
  | 124 => ⟨S100000x64, .f32⟩
  | 125 => ⟨S100000x64, .f32⟩
  | 126 => ⟨S_, .f32⟩
  | 127 => ⟨S100000, .f32⟩
  | _ => ⟨S100000x64, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | 5 => ⟨S100000x64, .f32⟩
  | 6 => ⟨S100000x64, .f32⟩
  | 7 => ⟨S_, .f32⟩
  | 8 => ⟨S_, .f32⟩
  | 9 => ⟨S50000x64, .f32⟩
  | 10 => ⟨S50000x64, .i1⟩
  | 11 => ⟨S_, .f32⟩
  | 12 => ⟨S50000x64, .f32⟩
  | 13 => ⟨S50000x64, .f32⟩
  | 14 => ⟨S50000x64, .f32⟩
  | 15 => ⟨S50000x64, .f32⟩
  | 16 => ⟨S_, .f32⟩
  | 17 => ⟨S50000, .f32⟩
  | 18 => ⟨S50000x1, .f32⟩
  | 19 => ⟨S50000x1, .f32⟩
  | 20 => ⟨S_, .f32⟩
  | 21 => ⟨S50000x1, .f32⟩
  | 22 => ⟨S50000x1, .f32⟩
  | 23 => ⟨S50000x64, .f32⟩
  | 24 => ⟨S50000x64, .f32⟩
  | 25 => ⟨S1x64x64, .f32⟩
  | 26 => ⟨S64x64, .f32⟩
  | 27 => ⟨S1x64, .f32⟩
  | 28 => ⟨S64, .f32⟩
  | 29 => ⟨S1x64x64, .f32⟩
  | 30 => ⟨S64x64, .f32⟩
  | 31 => ⟨S1x64, .f32⟩
  | 32 => ⟨S64, .f32⟩
  | 33 => ⟨S100000x64, .f32⟩
  | 34 => ⟨S1x64, .f32⟩
  | 35 => ⟨S100000x64, .f32⟩
  | 36 => ⟨S100000x64, .f32⟩
  | 37 => ⟨S50000x64, .f32⟩
  | 38 => ⟨S1x64, .f32⟩
  | 39 => ⟨S50000x64, .f32⟩
  | 40 => ⟨S50000x64, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x64, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x64, .f32⟩
  | 59 => ⟨S500000x64, .f32⟩
  | 60 => ⟨S500000x64, .f32⟩
  | 61 => ⟨S1x64, .f32⟩
  | 62 => ⟨S500000x64, .f32⟩
  | 63 => ⟨S500000x64, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x64, .f32⟩
  | 73 => ⟨S500000x64, .f32⟩
  | 74 => ⟨S500000x64, .f32⟩
  | 75 => ⟨S500000x64, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x64, .f32⟩
  | 85 => ⟨S500000x64, .f32⟩
  | 86 => ⟨S500000x64, .f32⟩
  | 87 => ⟨S500000x64, .f32⟩
  | 88 => ⟨S_, .f32⟩
  | 89 => ⟨S100000x64, .f32⟩
  | 90 => ⟨S500000x1, .i32⟩
  | 91 => ⟨S100000x64, .f32⟩
  | 92 => ⟨S100000x64, .f32⟩
  | 93 => ⟨S_, .f32⟩
  | 94 => ⟨S50000x64, .f32⟩
  | 95 => ⟨S500000x1, .i32⟩
  | 96 => ⟨S50000x64, .f32⟩
  | 97 => ⟨S50000x64, .f32⟩
  | 98 => ⟨S_, .f32⟩
  | 99 => ⟨S_, .f32⟩
  | 100 => ⟨S100000x64, .f32⟩
  | 101 => ⟨S100000x64, .i1⟩
  | 102 => ⟨S_, .f32⟩
  | 103 => ⟨S100000x64, .f32⟩
  | 104 => ⟨S100000x64, .f32⟩
  | 105 => ⟨S100000x64, .f32⟩
  | 106 => ⟨S100000x64, .f32⟩
  | 107 => ⟨S_, .f32⟩
  | 108 => ⟨S100000, .f32⟩
  | 109 => ⟨S100000x1, .f32⟩
  | 110 => ⟨S100000x1, .f32⟩
  | 111 => ⟨S_, .f32⟩
  | 112 => ⟨S100000x1, .f32⟩
  | 113 => ⟨S100000x1, .f32⟩
  | 114 => ⟨S100000x64, .f32⟩
  | 115 => ⟨S100000x64, .f32⟩
  | 116 => ⟨S_, .f32⟩
  | 117 => ⟨S_, .f32⟩
  | 118 => ⟨S50000x64, .f32⟩
  | 119 => ⟨S50000x64, .i1⟩
  | 120 => ⟨S_, .f32⟩
  | 121 => ⟨S50000x64, .f32⟩
  | 122 => ⟨S50000x64, .f32⟩
  | 123 => ⟨S50000x64, .f32⟩
  | 124 => ⟨S50000x64, .f32⟩
  | 125 => ⟨S_, .f32⟩
  | 126 => ⟨S50000, .f32⟩
  | 127 => ⟨S50000x1, .f32⟩
  | _ => ⟨S100000x64, .f32⟩

abbrev hbmTy0_2 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x64, .f32⟩
  | 5 => ⟨S50000x64, .f32⟩
  | 6 => ⟨S1x64x64, .f32⟩
  | 7 => ⟨S64x64, .f32⟩
  | 8 => ⟨S1x64, .f32⟩
  | 9 => ⟨S64, .f32⟩
  | 10 => ⟨S1x64x64, .f32⟩
  | 11 => ⟨S64x64, .f32⟩
  | 12 => ⟨S1x64, .f32⟩
  | 13 => ⟨S64, .f32⟩
  | 14 => ⟨S100000x64, .f32⟩
  | 15 => ⟨S1x64, .f32⟩
  | 16 => ⟨S100000x64, .f32⟩
  | 17 => ⟨S100000x64, .f32⟩
  | 18 => ⟨S50000x64, .f32⟩
  | 19 => ⟨S1x64, .f32⟩
  | 20 => ⟨S50000x64, .f32⟩
  | 21 => ⟨S50000x64, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x64, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x64, .f32⟩
  | 40 => ⟨S500000x64, .f32⟩
  | 41 => ⟨S500000x64, .f32⟩
  | 42 => ⟨S1x64, .f32⟩
  | 43 => ⟨S500000x64, .f32⟩
  | 44 => ⟨S500000x64, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x64, .f32⟩
  | 54 => ⟨S500000x64, .f32⟩
  | 55 => ⟨S500000x64, .f32⟩
  | 56 => ⟨S500000x64, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x64, .f32⟩
  | 66 => ⟨S500000x64, .f32⟩
  | 67 => ⟨S500000x64, .f32⟩
  | 68 => ⟨S500000x64, .f32⟩
  | 69 => ⟨S_, .f32⟩
  | 70 => ⟨S100000x64, .f32⟩
  | 71 => ⟨S500000x1, .i32⟩
  | 72 => ⟨S100000x64, .f32⟩
  | 73 => ⟨S100000x64, .f32⟩
  | 74 => ⟨S_, .f32⟩
  | 75 => ⟨S50000x64, .f32⟩
  | 76 => ⟨S500000x1, .i32⟩
  | 77 => ⟨S50000x64, .f32⟩
  | 78 => ⟨S50000x64, .f32⟩
  | 79 => ⟨S_, .f32⟩
  | 80 => ⟨S_, .f32⟩
  | 81 => ⟨S100000x64, .f32⟩
  | 82 => ⟨S100000x64, .i1⟩
  | 83 => ⟨S_, .f32⟩
  | 84 => ⟨S100000x64, .f32⟩
  | 85 => ⟨S100000x64, .f32⟩
  | 86 => ⟨S100000x64, .f32⟩
  | 87 => ⟨S100000x64, .f32⟩
  | 88 => ⟨S_, .f32⟩
  | 89 => ⟨S100000, .f32⟩
  | 90 => ⟨S100000x1, .f32⟩
  | 91 => ⟨S100000x1, .f32⟩
  | 92 => ⟨S_, .f32⟩
  | 93 => ⟨S100000x1, .f32⟩
  | 94 => ⟨S100000x1, .f32⟩
  | 95 => ⟨S100000x64, .f32⟩
  | 96 => ⟨S100000x64, .f32⟩
  | 97 => ⟨S_, .f32⟩
  | 98 => ⟨S_, .f32⟩
  | 99 => ⟨S50000x64, .f32⟩
  | 100 => ⟨S50000x64, .i1⟩
  | 101 => ⟨S_, .f32⟩
  | 102 => ⟨S50000x64, .f32⟩
  | 103 => ⟨S50000x64, .f32⟩
  | 104 => ⟨S50000x64, .f32⟩
  | 105 => ⟨S50000x64, .f32⟩
  | 106 => ⟨S_, .f32⟩
  | 107 => ⟨S50000, .f32⟩
  | 108 => ⟨S50000x1, .f32⟩
  | 109 => ⟨S50000x1, .f32⟩
  | 110 => ⟨S_, .f32⟩
  | 111 => ⟨S50000x1, .f32⟩
  | 112 => ⟨S50000x1, .f32⟩
  | 113 => ⟨S50000x64, .f32⟩
  | 114 => ⟨S50000x64, .f32⟩
  | 115 => ⟨S100000x256, .f32⟩
  | 116 => ⟨S50000x256, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x256, .f32⟩
  | 126 => ⟨S_, .i32⟩
  | 127 => ⟨S8192, .i32⟩
  | _ => ⟨S100000x64, .f32⟩

abbrev hbmTy0_3 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x256, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x256, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_call0_cst : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_v88 : Ref sig .tc := ⟨.hbm, 124, rfl⟩
abbrev main_v89 : Ref sig .tc := ⟨.hbm, 125, rfl⟩
abbrev main_cst_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_19 : Ref sig .tc := ⟨.hbm, 135, rfl⟩
abbrev main_call1_cst : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_21 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_22 : Ref sig .tc := ⟨.hbm, 169, rfl⟩
abbrev main_v122 : Ref sig .tc := ⟨.hbm, 170, rfl⟩
abbrev main_v123 : Ref sig .tc := ⟨.hbm, 171, rfl⟩
abbrev main_c_23 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_c_24 : Ref sig .tc := ⟨.hbm, 178, rfl⟩
abbrev main_v129 : Ref sig .tc := ⟨.hbm, 179, rfl⟩
abbrev main_v130 : Ref sig .tc := ⟨.hbm, 180, rfl⟩
abbrev main_c_25 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_c_26 : Ref sig .tc := ⟨.hbm, 192, rfl⟩
abbrev main_v141 : Ref sig .tc := ⟨.hbm, 193, rfl⟩
abbrev main_v142 : Ref sig .tc := ⟨.hbm, 194, rfl⟩
abbrev main_c_27 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_c_28 : Ref sig .tc := ⟨.hbm, 204, rfl⟩
abbrev main_v151 : Ref sig .tc := ⟨.hbm, 205, rfl⟩
abbrev main_v152 : Ref sig .tc := ⟨.hbm, 206, rfl⟩
abbrev main_c_29 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_30 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_cst_31 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_32 : Ref sig .tc := ⟨.hbm, 226, rfl⟩
abbrev main_call2_cst : Ref sig .tc := ⟨.hbm, 227, rfl⟩
abbrev main_call2_v0 : Ref sig .tc := ⟨.hbm, 228, rfl⟩
abbrev main_call2_v1 : Ref sig .tc := ⟨.hbm, 229, rfl⟩
abbrev main_call2_v2 : Ref sig .tc := ⟨.hbm, 230, rfl⟩
abbrev main_call2_v3 : Ref sig .tc := ⟨.hbm, 231, rfl⟩
abbrev main_call2_v4 : Ref sig .tc := ⟨.hbm, 232, rfl⟩
abbrev main_v169 : Ref sig .tc := ⟨.hbm, 233, rfl⟩
abbrev main_v170 : Ref sig .tc := ⟨.hbm, 234, rfl⟩
abbrev main_cst_33 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_34 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_35 : Ref sig .tc := ⟨.hbm, 244, rfl⟩
abbrev main_call3_cst : Ref sig .tc := ⟨.hbm, 245, rfl⟩
abbrev main_call3_v0 : Ref sig .tc := ⟨.hbm, 246, rfl⟩
abbrev main_call3_v1 : Ref sig .tc := ⟨.hbm, 247, rfl⟩
abbrev main_call3_v2 : Ref sig .tc := ⟨.hbm, 248, rfl⟩
abbrev main_call3_v3 : Ref sig .tc := ⟨.hbm, 249, rfl⟩
abbrev main_call3_v4 : Ref sig .tc := ⟨.hbm, 250, rfl⟩
abbrev main_v178 : Ref sig .tc := ⟨.hbm, 251, rfl⟩
abbrev main_v179 : Ref sig .tc := ⟨.hbm, 252, rfl⟩
abbrev main_cst_36 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_cst_37 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_c_38 : Ref sig .tc := ⟨.hbm, 278, rfl⟩
abbrev main_v203 : Ref sig .tc := ⟨.hbm, 279, rfl⟩
abbrev main_v204 : Ref sig .tc := ⟨.hbm, 280, rfl⟩
abbrev main_c_39 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_c_40 : Ref sig .tc := ⟨.hbm, 287, rfl⟩
abbrev main_v210 : Ref sig .tc := ⟨.hbm, 288, rfl⟩
abbrev main_v211 : Ref sig .tc := ⟨.hbm, 289, rfl⟩
abbrev main_c_41 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_c_42 : Ref sig .tc := ⟨.hbm, 301, rfl⟩
abbrev main_v222 : Ref sig .tc := ⟨.hbm, 302, rfl⟩
abbrev main_v223 : Ref sig .tc := ⟨.hbm, 303, rfl⟩
abbrev main_c_43 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_c_44 : Ref sig .tc := ⟨.hbm, 313, rfl⟩
abbrev main_v232 : Ref sig .tc := ⟨.hbm, 314, rfl⟩
abbrev main_v233 : Ref sig .tc := ⟨.hbm, 315, rfl⟩
abbrev main_c_45 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_cst_46 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_cst_47 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_cst_48 : Ref sig .tc := ⟨.hbm, 335, rfl⟩
abbrev main_call4_cst : Ref sig .tc := ⟨.hbm, 336, rfl⟩
abbrev main_call4_v0 : Ref sig .tc := ⟨.hbm, 337, rfl⟩
abbrev main_call4_v1 : Ref sig .tc := ⟨.hbm, 338, rfl⟩
abbrev main_call4_v2 : Ref sig .tc := ⟨.hbm, 339, rfl⟩
abbrev main_call4_v3 : Ref sig .tc := ⟨.hbm, 340, rfl⟩
abbrev main_call4_v4 : Ref sig .tc := ⟨.hbm, 341, rfl⟩
abbrev main_v250 : Ref sig .tc := ⟨.hbm, 342, rfl⟩
abbrev main_v251 : Ref sig .tc := ⟨.hbm, 343, rfl⟩
abbrev main_cst_49 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_cst_50 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_cst_51 : Ref sig .tc := ⟨.hbm, 353, rfl⟩
abbrev main_call5_cst : Ref sig .tc := ⟨.hbm, 354, rfl⟩
abbrev main_call5_v0 : Ref sig .tc := ⟨.hbm, 355, rfl⟩
abbrev main_call5_v1 : Ref sig .tc := ⟨.hbm, 356, rfl⟩
abbrev main_call5_v2 : Ref sig .tc := ⟨.hbm, 357, rfl⟩
abbrev main_call5_v3 : Ref sig .tc := ⟨.hbm, 358, rfl⟩
abbrev main_call5_v4 : Ref sig .tc := ⟨.hbm, 359, rfl⟩
abbrev main_v259 : Ref sig .tc := ⟨.hbm, 360, rfl⟩
abbrev main_v260 : Ref sig .tc := ⟨.hbm, 361, rfl⟩
abbrev main_cst_52 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_cst_53 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_c_54 : Ref sig .tc := ⟨.hbm, 373, rfl⟩
abbrev main_v270 : Ref sig .tc := ⟨.hbm, 374, rfl⟩
abbrev main_v271 : Ref sig .tc := ⟨.hbm, 375, rfl⟩
abbrev main_c_55 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_c_56 : Ref sig .tc := ⟨.hbm, 382, rfl⟩
abbrev main_v277 : Ref sig .tc := ⟨.hbm, 383, rfl⟩
abbrev main_v278 : Ref sig .tc := ⟨.hbm, 384, rfl⟩
abbrev main_c_57 : Ref sig .tc := ⟨.hbm, 385, rfl⟩
abbrev main_v279 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_v283 : Ref sig .tc := ⟨.hbm, 390, rfl⟩
abbrev main_c_58 : Ref sig .tc := ⟨.hbm, 391, rfl⟩
abbrev main_v284 : Ref sig .tc := ⟨.hbm, 392, rfl⟩
abbrev main_v285 : Ref sig .tc := ⟨.hbm, 393, rfl⟩
abbrev main_c_59 : Ref sig .tc := ⟨.hbm, 394, rfl⟩
abbrev main_v286 : Ref sig .tc := ⟨.hbm, 395, rfl⟩
abbrev main_v287 : Ref sig .tc := ⟨.hbm, 396, rfl⟩
abbrev main_v288 : Ref sig .tc := ⟨.hbm, 397, rfl⟩
abbrev main_v289 : Ref sig .tc := ⟨.hbm, 398, rfl⟩
abbrev main_v290 : Ref sig .tc := ⟨.hbm, 399, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S_S50000 : S_.BroadcastsInDim S50000 (![] : Fin 0 → Fin S50000.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S50000x64_0_1 : S1x64.BroadcastsInDim S50000x64 (![0, 1] : Fin 2 → Fin S50000x64.rank)
  bcast_S1x64_S500000x64_0_1 : S1x64.BroadcastsInDim S500000x64 (![0, 1] : Fin 2 → Fin S500000x64.rank)
  bcast_S500000x1_S500000x64_0_1 : S500000x1.BroadcastsInDim S500000x64 (![0, 1] : Fin 2 → Fin S500000x64.rank)
  bcast_S_S100000x64 : S_.BroadcastsInDim S100000x64 (![] : Fin 0 → Fin S100000x64.rank)
  bcast_S_S50000x64 : S_.BroadcastsInDim S50000x64 (![] : Fin 0 → Fin S50000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x64_S100000x256_d1 : Shape.Concatenates [S100000x64, S100000x64, S100000x64, S100000x64] S100000x256 1
  concatenates_S50000x64_S50000x64_S50000x64_S50000x64_S50000x256_d1 : Shape.Concatenates [S50000x64, S50000x64, S50000x64, S50000x64] S50000x256 1
  bcast_S_S8192 : S_.BroadcastsInDim S8192 (![] : Fin 0 → Fin S8192.rank)
  bcast_S8192_S8192x1_0 : S8192.BroadcastsInDim S8192x1 (![0] : Fin 1 → Fin S8192x1.rank)
  scatter_S100000_S500000x1_S500000_n_0_0_1_wf : ScatterDims.WF S100000 S500000x1 S500000 [] [0] [0] 1
  scatter_S50000_S500000x1_S500000_n_0_0_1_wf : ScatterDims.WF S50000 S500000x1 S500000 [] [0] [0] 1
  gather_S100000_S500000x1_S500000_n_0_n_n_0_1_1_wf : GatherDims.WF S100000 S500000x1 S500000 [] [0] [] [0] [] 1 ![1]
  gather_S50000_S500000x1_S500000_n_0_n_n_0_1_1_wf : GatherDims.WF S50000 S500000x1 S500000 [] [0] [] [0] [] 1 ![1]
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  dot_S500000x64_S64x64_S500000x64_1_0_0_1_n_n_wf : DotDims.WF S500000x64 S64x64 S500000x64 [1] [0] [0] [1] [] []
  scatter_S100000x64_S500000x1_S500000x64_1_0_0_1_wf : ScatterDims.WF S100000x64 S500000x1 S500000x64 [1] [0] [0] 1
  scatter_S50000x64_S500000x1_S500000x64_1_0_0_1_wf : ScatterDims.WF S50000x64 S500000x1 S500000x64 [1] [0] [0] 1
  gather_S100000x256_S8192x1_S8192x256_1_0_n_n_0_1_1256_wf : GatherDims.WF S100000x256 S8192x1 S8192x256 [1] [0] [] [0] [] 1 ![1, 256]
  gather_S50000x256_S8192x1_S8192x256_1_0_n_n_0_1_1256_wf : GatherDims.WF S50000x256 S8192x1 S8192x256 [1] [0] [] [0] [] 1 ![1, 256]

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf

class Facts : Prop extends Facts₀ where

variable [Facts]
-- ==== Proof.K.R0.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rT0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_3 (x0 : Vec F S5000x64 .f32) (x1 : Vec F S64x64 .f32) (x2 : Vec F S1x64 .f32) : Vec F S5000x64 .f32 :=
  View.canon [⟨rT0, k0_pay1 (View.ld x0 rT0) (View.ld x1 rW0) (View.ld x2 rB0)⟩]

theorem cover0_3 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

/-- Each input is at its block (`before0_w`), so `sound_kernel0` applies; everything else is framed. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_3 (x0 : Vec F S5000x64 .f32) (x1 : Vec F S64x64 .f32) (x2 : Vec F S1x64 .f32) : Vec F S5000x64 .f32 :=
  View.canon [⟨rT1, k1_pay1 (View.ld x0 rT1) (View.ld x1 rW1) (View.ld x2 rB1)⟩]

theorem cover1_3 (p0 : Vec F S5000x64 .f32) (y : S5000x64.Idx) :
    ∃ pc ∈ ([⟨rT1, p0⟩] : List (View.Piece (Elt F) S5000x64 .f32)), y ∈ pc.1.set :=
  View.cover_of_tiled [⟨rT1, p0⟩] S5000x64.size (by rfl) y

set_option maxHeartbeats 1000000 in
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

/-- Each input is at its block (`before1_w`), so `sound_kernel1` applies; everything else is framed. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S5000x64 : Rect S5000x64 := Rect.unit (s := S5000x64) ![0, 0] S5000x64.size inb_S5000x64_S5000x64_0_0
abbrev r2_S5000x1 : Rect S5000x1 := Rect.unit (s := S5000x1) ![0, 0] S5000x1.size inb_S5000x1_S5000x1_0_0
abbrev r2_S64x64 : Rect S64x64 := Rect.unit (s := S64x64) ![0, 0] S64x64.size inb_S64x64_S64x64_0_0
abbrev r2_S1x64 : Rect S1x64 := Rect.unit (s := S1x64) ![0, 0] S1x64.size inb_S1x64_S1x64_0_0

def out2_7 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r2_S5000x64, k2_pay3 (View.ld x0 r2_S5000x64) (View.ld x1 r2_S5000x64) (View.ld x5 r2_S64x64) (View.ld x6 r2_S1x64) (View.ld x4 r2_S5000x1) (View.ld x2 r2_S5000x64)⟩]

theorem cover2_7 (p0 : Vec F S5000x64 .f32) (y : S5000x64.Idx) :
    ∃ pc ∈ ([⟨r2_S5000x64, p0⟩] : List (View.Piece (Elt F) S5000x64 .f32)), y ∈ pc.1.set :=
  View.cover_of_tiled [⟨r2_S5000x64, p0⟩] S5000x64.size (by rfl) y

def out2_8 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r2_S5000x64, k2_pay4 (View.ld x0 r2_S5000x64) (View.ld x1 r2_S5000x64) (View.ld x5 r2_S64x64) (View.ld x6 r2_S1x64) (View.ld x4 r2_S5000x1) (View.ld x3 r2_S5000x64)⟩]

theorem cover2_8 (p0 : Vec F S5000x64 .f32) (y : S5000x64.Idx) :
    ∃ pc ∈ ([⟨r2_S5000x64, p0⟩] : List (View.Piece (Elt F) S5000x64 .f32)), y ∈ pc.1.set :=
  View.cover_of_tiled [⟨r2_S5000x64, p0⟩] S5000x64.size (by rfl) y

set_option maxHeartbeats 4000000 in
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__message_kernel i arg1 harg1 arg2 harg2 arg3 harg3 arg4 harg4 arg5 harg5 arg6 harg6 arg7 harg7 arg8 harg8 arg9 harg9) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

/-- Each input is at its block (`before2_w`), so `sound_kernel2` applies; everything else is framed. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ owns (c : Thread nD τ) (st2_6 t) fullShare ((dat2 V c).after 6 t)
        ∗ owns (c : Thread nD τ) (st2_7 t) fullShare ((dat2 V c).after 7 t)
        ∗ owns (c : Thread nD τ) (st2_8 t) fullShare ((dat2 V c).after 8 t))) := by
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  isplitl [H8]; · iexists _; iexact H8
  iintro ⟨H0, H1, H2, H3, H4, H5, H6, H7, H8⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S5000x64 : Rect S5000x64 := Rect.unit (s := S5000x64) ![0, 0] S5000x64.size inb_S5000x64_S5000x64_0_0

def out3_2 (x0 : Vec F S5000x64 .f32) (x1 : Vec F S5000x64 .f32) : Vec F S5000x64 .f32 :=
  View.canon [⟨r3_S5000x64, k3_pay1 (View.ld x0 r3_S5000x64) (View.ld x1 r3_S5000x64)⟩]

theorem cover3_2 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

set_option maxHeartbeats 4000000 in
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__finalize_kernel i arg1 harg1 arg2 harg2 arg3 harg3) K := by
  simp only [cc3__finalize_kernel_eq_skeleton]; unfold cc3__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- Each input is at its block (`before3_w`), so `sound_kernel3` applies; everything else is framed. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t))) := by
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S5000x64 : Rect S5000x64 := Rect.unit (s := S5000x64) ![0, 0] S5000x64.size inb_S5000x64_S5000x64_0_0

def out4_2 (x0 : Vec F S5000x64 .f32) (x1 : Vec F S5000x64 .f32) : Vec F S5000x64 .f32 :=
  View.canon [⟨r4_S5000x64, k4_pay1 (View.ld x0 r4_S5000x64) (View.ld x1 r4_S5000x64)⟩]

theorem cover4_2 (p0 : Vec F S5000x64 .f32) (y : S5000x64.Idx) :
    ∃ pc ∈ ([⟨r4_S5000x64, p0⟩] : List (View.Piece (Elt F) S5000x64 .f32)), y ∈ pc.1.set :=
  View.cover_of_tiled [⟨r4_S5000x64, p0⟩] S5000x64.size (by rfl) y

set_option maxHeartbeats 4000000 in
theorem sound_kernel4 (c : Dev nD) (E : Set ℕ) (i : grid4.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__finalize_kernel i arg1 harg1 arg2 harg2 arg3 harg3) K := by
  simp only [cc4__finalize_kernel_eq_skeleton]; unfold cc4__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

/-- Each input is at its block (`before4_w`), so `sound_kernel4` applies; everything else is framed. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t))) := by
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rT5 : Rect S5000x64 := Rect.unit (s := S5000x64) ![0, 0] S5000x64.size inb_S5000x64_S5000x64_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0

def out5_3 (x0 : Vec F S5000x64 .f32) (x1 : Vec F S64x64 .f32) (x2 : Vec F S1x64 .f32) : Vec F S5000x64 .f32 :=
  View.canon [⟨rT5, k5_pay1 (View.ld x0 rT5) (View.ld x1 rW5) (View.ld x2 rB5)⟩]

theorem cover5_3 (p0 : Vec F S5000x64 .f32) (y : S5000x64.Idx) :
    ∃ pc ∈ ([⟨rT5, p0⟩] : List (View.Piece (Elt F) S5000x64 .f32)), y ∈ pc.1.set :=
  View.cover_of_tiled [⟨rT5, p0⟩] S5000x64.size (by rfl) y

set_option maxHeartbeats 1000000 in
theorem sound_kernel5 (c : Dev nD) (E : Set ℕ) (i : grid5.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

/-- Each input is at its block (`before5_w`), so `sound_kernel5` applies; everything else is framed. -/
theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)
        ∗ owns (c : Thread nD τ) (st5_3 t) fullShare ((dat5 V c).after 3 t))) := by
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  iframe H0 H1 H2
  isplitl [H3]; · iexists _; iexact H3
  iintro ⟨H0, H1, H2, H3⟩
  iframe

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rT6 : Rect S5000x64 := Rect.unit (s := S5000x64) ![0, 0] S5000x64.size inb_S5000x64_S5000x64_0_0
abbrev rW6 : Rect S64x64 := Rect.unit (s := S64x64) ![0, 0] S64x64.size inb_S64x64_S64x64_0_0
abbrev rB6 : Rect S1x64 := Rect.unit (s := S1x64) ![0, 0] S1x64.size inb_S1x64_S1x64_0_0

def out6_3 (x0 : Vec F S5000x64 .f32) (x1 : Vec F S64x64 .f32) (x2 : Vec F S1x64 .f32) : Vec F S5000x64 .f32 :=
  View.canon [⟨rT6, k6_pay1 (View.ld x0 rT6) (View.ld x1 rW6) (View.ld x2 rB6)⟩]

theorem cover6_3 (p0 : Vec F S5000x64 .f32) (y : S5000x64.Idx) :
    ∃ pc ∈ ([⟨rT6, p0⟩] : List (View.Piece (Elt F) S5000x64 .f32)), y ∈ pc.1.set :=
  View.cover_of_tiled [⟨rT6, p0⟩] S5000x64.size (by rfl) y

set_option maxHeartbeats 1000000 in
theorem sound_kernel6 (c : Dev nD) (E : Set ℕ) (i : grid6.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

/-- Each input is at its block (`before6_w`), so `sound_kernel6` applies; everything else is framed. -/
theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
    ⊢ wp frame (wpE (defs₀ (F := F)) Variants.none c none) Set.univ (bodyAt6 t) (fun _ =>
      iprop((dat6 V c).Φ t.succ ∗ (dat6 V c).owesAt () t.succ
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t)
        ∗ owns (c : Thread nD τ) (st6_3 t) fullShare ((dat6 V c).after 3 t))) := by
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  iframe H0 H1 H2
  isplitl [H3]; · iexists _; iexact H3
  iintro ⟨H0, H1, H2, H3⟩
  iframe

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_S5000x64 : Rect S5000x64 := Rect.unit (s := S5000x64) ![0, 0] S5000x64.size inb_S5000x64_S5000x64_0_0
abbrev r7_S5000x1 : Rect S5000x1 := Rect.unit (s := S5000x1) ![0, 0] S5000x1.size inb_S5000x1_S5000x1_0_0
abbrev r7_S64x64 : Rect S64x64 := Rect.unit (s := S64x64) ![0, 0] S64x64.size inb_S64x64_S64x64_0_0
abbrev r7_S1x64 : Rect S1x64 := Rect.unit (s := S1x64) ![0, 0] S1x64.size inb_S1x64_S1x64_0_0

def out7_7 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r7_S5000x64, k7_pay3 (View.ld x0 r7_S5000x64) (View.ld x1 r7_S5000x64) (View.ld x5 r7_S64x64) (View.ld x6 r7_S1x64) (View.ld x4 r7_S5000x1) (View.ld x2 r7_S5000x64)⟩]

theorem cover7_7 (p0 : Vec F S5000x64 .f32) (y : S5000x64.Idx) :
    ∃ pc ∈ ([⟨r7_S5000x64, p0⟩] : List (View.Piece (Elt F) S5000x64 .f32)), y ∈ pc.1.set :=
  View.cover_of_tiled [⟨r7_S5000x64, p0⟩] S5000x64.size (by rfl) y

def out7_8 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r7_S5000x64, k7_pay4 (View.ld x0 r7_S5000x64) (View.ld x1 r7_S5000x64) (View.ld x5 r7_S64x64) (View.ld x6 r7_S1x64) (View.ld x4 r7_S5000x1) (View.ld x3 r7_S5000x64)⟩]

theorem cover7_8 (p0 : Vec F S5000x64 .f32) (y : S5000x64.Idx) :
    ∃ pc ∈ ([⟨r7_S5000x64, p0⟩] : List (View.Piece (Elt F) S5000x64 .f32)), y ∈ pc.1.set :=
  View.cover_of_tiled [⟨r7_S5000x64, p0⟩] S5000x64.size (by rfl) y

set_option maxHeartbeats 4000000 in
theorem sound_kernel7 (c : Dev nD) (E : Set ℕ) (i : grid7.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7_7 x0 x1 x2 x3 x4 x5 x6) ∗ owns (c : Thread nD τ) arg9 fullShare (out7_8 x0 x1 x2 x3 x4 x5 x6)) -∗ K ⟨⟩))
      ⊢ wp frame (wpE (defs₀ (F := F)) Variants.none c none) E (cc7__message_kernel i arg1 harg1 arg2 harg2 arg3 harg3 arg4 harg4 arg5 harg5 arg6 harg6 arg7 harg7 arg8 harg8 arg9 harg9) K := by
  simp only [cc7__message_kernel_eq_skeleton]; unfold cc7__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7_7 _)
  iexists _; isplitr
  swap; · iexact H8
  ipureintro
  exact View.read_writes_eq_canon _ _ _ (cover7_8 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
    | ⟨8, _⟩ => out7_8 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) :
    (dat7 V c).after 7 t = out7_7 (iblk7 V c 0 t) (iblk7 V c 1 t) (iblk7 V c 2 t) (iblk7 V c 3 t) (iblk7 V c 4 t) (iblk7 V c 5 t) (iblk7 V c 6 t) := by dsimp only [dat7]
theorem after7_8 (c : Dev nD) (t : Fin cfg7.N) :
    (dat7 V c).after 8 t = out7_8 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d
theorem before7_5 (c : Dev nD) (t : Fin cfg7.N) (d) : (dat7 V c).before 5 t d = iblk7 V c 5 t :=
  (dat7 V c).before_in_eq_fetched 5 rfl (fun _ => rfl) (fun _ _ _ => rfl) (fun _ => rfl) t d
theorem before7_6 (c : Dev nD) (t : Fin cfg7.N) (d) : (dat7 V c).before 6 t d = iblk7 V c 6 t :=
  (dat7 V c).before_in_eq_fetched 6 rfl (fun _ => rfl) (fun _ _ _ => rfl) (fun _ => rfl) t d

/-- Each input is at its block (`before7_w`), so `sound_kernel7` applies; everything else is framed. -/
theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d))
      ∗ (∃ d, owns (c : Thread nD τ) (st7_6 t) fullShare ((dat7 V c).before 6 t d))
      ∗ (∃ d, owns (c : Thread nD τ) (st7_7 t) fullShare ((dat7 V c).before 7 t d))
      ∗ (∃ d, owns (c : Thread nD τ) (st7_8 t) fullShare ((dat7 V c).before 8 t d)))
    ⊢ wp frame (wpE (defs₀ (F := F)) Variants.none c none) Set.univ (bodyAt7 t) (fun _ =>
      iprop((dat7 V c).Φ t.succ ∗ (dat7 V c).owesAt () t.succ
        ∗ owns (c : Thread nD τ) (st7_0 t) fullShare ((dat7 V c).after 0 t)
        ∗ owns (c : Thread nD τ) (st7_1 t) fullShare ((dat7 V c).after 1 t)
        ∗ owns (c : Thread nD τ) (st7_2 t) fullShare ((dat7 V c).after 2 t)
        ∗ owns (c : Thread nD τ) (st7_3 t) fullShare ((dat7 V c).after 3 t)
        ∗ owns (c : Thread nD τ) (st7_4 t) fullShare ((dat7 V c).after 4 t)
        ∗ owns (c : Thread nD τ) (st7_5 t) fullShare ((dat7 V c).after 5 t)
        ∗ owns (c : Thread nD τ) (st7_6 t) fullShare ((dat7 V c).after 6 t)
        ∗ owns (c : Thread nD τ) (st7_7 t) fullShare ((dat7 V c).after 7 t)
        ∗ owns (c : Thread nD τ) (st7_8 t) fullShare ((dat7 V c).after 8 t))) := by
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  iframe H0 H1 H2 H3 H4 H5 H6
  isplitl [H7]; · iexists _; iexact H7
  isplitl [H8]; · iexists _; iexact H8
  iintro ⟨H0, H1, H2, H3, H4, H5, H6, H7, H8⟩
  iframe

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_S5000x64 : Rect S5000x64 := Rect.unit (s := S5000x64) ![0, 0] S5000x64.size inb_S5000x64_S5000x64_0_0

def out8_2 (x0 : Vec F S5000x64 .f32) (x1 : Vec F S5000x64 .f32) : Vec F S5000x64 .f32 :=
  View.canon [⟨r8_S5000x64, k8_pay1 (View.ld x0 r8_S5000x64) (View.ld x1 r8_S5000x64)⟩]

theorem cover8_2 (p0 : Vec F S5000x64 .f32) (y : S5000x64.Idx) :
    ∃ pc ∈ ([⟨r8_S5000x64, p0⟩] : List (View.Piece (Elt F) S5000x64 .f32)), y ∈ pc.1.set :=
  View.cover_of_tiled [⟨r8_S5000x64, p0⟩] S5000x64.size (by rfl) y

set_option maxHeartbeats 4000000 in
theorem sound_kernel8 (c : Dev nD) (E : Set ℕ) (i : grid8.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__finalize_kernel i arg1 harg1 arg2 harg2 arg3 harg3) K := by
  simp only [cc8__finalize_kernel_eq_skeleton]; unfold cc8__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (iblk8 V c 0 t) (iblk8 V c 1 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

/-- Each input is at its block (`before8_w`), so `sound_kernel8` applies; everything else is framed. -/
theorem sound_body8 (c : Dev nD) (t : Fin cfg8.N) :
    iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ owns (c : Thread nD τ) (st8_0 t) fullShare ((dat8 V c).after 0 t)
        ∗ owns (c : Thread nD τ) (st8_1 t) fullShare ((dat8 V c).after 1 t)
        ∗ owns (c : Thread nD τ) (st8_2 t) fullShare ((dat8 V c).after 2 t))) := by
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  iframe H0 H1
  isplitl [H2]; · iexists _; iexact H2
  iintro ⟨H0, H1, H2⟩
  iframe

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_S5000x64 : Rect S5000x64 := Rect.unit (s := S5000x64) ![0, 0] S5000x64.size inb_S5000x64_S5000x64_0_0

def out9_2 (x0 : Vec F S5000x64 .f32) (x1 : Vec F S5000x64 .f32) : Vec F S5000x64 .f32 :=
  View.canon [⟨r9_S5000x64, k9_pay1 (View.ld x0 r9_S5000x64) (View.ld x1 r9_S5000x64)⟩]

theorem cover9_2 (p0 : Vec F S5000x64 .f32) (y : S5000x64.Idx) :
    ∃ pc ∈ ([⟨r9_S5000x64, p0⟩] : List (View.Piece (Elt F) S5000x64 .f32)), y ∈ pc.1.set :=
  View.cover_of_tiled [⟨r9_S5000x64, p0⟩] S5000x64.size (by rfl) y

set_option maxHeartbeats 4000000 in
theorem sound_kernel9 (c : Dev nD) (E : Set ℕ) (i : grid9.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__finalize_kernel i arg1 harg1 arg2 harg2 arg3 harg3) K := by
  simp only [cc9__finalize_kernel_eq_skeleton]; unfold cc9__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

/-- Each input is at its block (`before9_w`), so `sound_kernel9` applies; everything else is framed. -/
theorem sound_body9 (c : Dev nD) (t : Fin cfg9.N) :
    iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d)))
    ⊢ wp frame (wpE (defs₀ (F := F)) Variants.none c none) Set.univ (bodyAt9 t) (fun _ =>
      iprop((dat9 V c).Φ t.succ ∗ (dat9 V c).owesAt () t.succ
        ∗ owns (c : Thread nD τ) (st9_0 t) fullShare ((dat9 V c).after 0 t)
        ∗ owns (c : Thread nD τ) (st9_1 t) fullShare ((dat9 V c).after 1 t)
        ∗ owns (c : Thread nD τ) (st9_2 t) fullShare ((dat9 V c).after 2 t))) := by
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  iframe H0 H1
  isplitl [H2]; · iexists _; iexact H2
  iintro ⟨H0, H1, H2⟩
  iframe

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rT10 : Rect S5000x64 := Rect.unit (s := S5000x64) ![0, 0] S5000x64.size inb_S5000x64_S5000x64_0_0
abbrev rW10 : Rect S64x64 := Rect.unit (s := S64x64) ![0, 0] S64x64.size inb_S64x64_S64x64_0_0
abbrev rB10 : Rect S1x64 := Rect.unit (s := S1x64) ![0, 0] S1x64.size inb_S1x64_S1x64_0_0

def out10_3 (x0 : Vec F S5000x64 .f32) (x1 : Vec F S64x64 .f32) (x2 : Vec F S1x64 .f32) : Vec F S5000x64 .f32 :=
  View.canon [⟨rT10, k10_pay1 (View.ld x0 rT10) (View.ld x1 rW10) (View.ld x2 rB10)⟩]

theorem cover10_3 (p0 : Vec F S5000x64 .f32) (y : S5000x64.Idx) :
    ∃ pc ∈ ([⟨rT10, p0⟩] : List (View.Piece (Elt F) S5000x64 .f32)), y ∈ pc.1.set :=
  View.cover_of_tiled [⟨rT10, p0⟩] S5000x64.size (by rfl) y

set_option maxHeartbeats 1000000 in
theorem sound_kernel10 (c : Dev nD) (E : Set ℕ) (i : grid10.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d

/-- Each input is at its block (`before10_w`), so `sound_kernel10` applies; everything else is framed. -/
theorem sound_body10 (c : Dev nD) (t : Fin cfg10.N) :
    iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d))
      ∗ (∃ d, owns (c : Thread nD τ) (st10_3 t) fullShare ((dat10 V c).before 3 t d)))
    ⊢ wp frame (wpE (defs₀ (F := F)) Variants.none c none) Set.univ (bodyAt10 t) (fun _ =>
      iprop((dat10 V c).Φ t.succ ∗ (dat10 V c).owesAt () t.succ
        ∗ owns (c : Thread nD τ) (st10_0 t) fullShare ((dat10 V c).after 0 t)
        ∗ owns (c : Thread nD τ) (st10_1 t) fullShare ((dat10 V c).after 1 t)
        ∗ owns (c : Thread nD τ) (st10_2 t) fullShare ((dat10 V c).after 2 t)
        ∗ owns (c : Thread nD τ) (st10_3 t) fullShare ((dat10 V c).after 3 t))) := by
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  iframe H0 H1 H2
  isplitl [H3]; · iexists _; iexact H3
  iintro ⟨H0, H1, H2, H3⟩
  iframe

theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev rT11 : Rect S5000x64 := Rect.unit (s := S5000x64) ![0, 0] S5000x64.size inb_S5000x64_S5000x64_0_0
abbrev rW11 : Rect S64x64 := Rect.unit (s := S64x64) ![0, 0] S64x64.size inb_S64x64_S64x64_0_0
abbrev rB11 : Rect S1x64 := Rect.unit (s := S1x64) ![0, 0] S1x64.size inb_S1x64_S1x64_0_0

def out11_3 (x0 : Vec F S5000x64 .f32) (x1 : Vec F S64x64 .f32) (x2 : Vec F S1x64 .f32) : Vec F S5000x64 .f32 :=
  View.canon [⟨rT11, k11_pay1 (View.ld x0 rT11) (View.ld x1 rW11) (View.ld x2 rB11)⟩]

theorem cover11_3 (p0 : Vec F S5000x64 .f32) (y : S5000x64.Idx) :
    ∃ pc ∈ ([⟨rT11, p0⟩] : List (View.Piece (Elt F) S5000x64 .f32)), y ∈ pc.1.set :=
  View.cover_of_tiled [⟨rT11, p0⟩] S5000x64.size (by rfl) y

set_option maxHeartbeats 1000000 in
theorem sound_kernel11 (c : Dev nD) (E : Set ℕ) (i : grid11.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_kernel i arg1 harg1 arg2 harg2 arg3 harg3 arg4 harg4) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d

/-- Each input is at its block (`before11_w`), so `sound_kernel11` applies; everything else is framed. -/
theorem sound_body11 (c : Dev nD) (t : Fin cfg11.N) :
    iprop((dat11 V c).Φ t.castSucc ∗ (dat11 V c).owesAt () t.castSucc
      ∗ (∃ d, owns (c : Thread nD τ) (st11_0 t) fullShare ((dat11 V c).before 0 t d))
      ∗ (∃ d, owns (c : Thread nD τ) (st11_1 t) fullShare ((dat11 V c).before 1 t d))
      ∗ (∃ d, owns (c : Thread nD τ) (st11_2 t) fullShare ((dat11 V c).before 2 t d))
      ∗ (∃ d, owns (c : Thread nD τ) (st11_3 t) fullShare ((dat11 V c).before 3 t d)))
    ⊢ wp frame (wpE (defs₀ (F := F)) Variants.none c none) Set.univ (bodyAt11 t) (fun _ =>
      iprop((dat11 V c).Φ t.succ ∗ (dat11 V c).owesAt () t.succ
        ∗ owns (c : Thread nD τ) (st11_0 t) fullShare ((dat11 V c).after 0 t)
        ∗ owns (c : Thread nD τ) (st11_1 t) fullShare ((dat11 V c).after 1 t)
        ∗ owns (c : Thread nD τ) (st11_2 t) fullShare ((dat11 V c).after 2 t)
        ∗ owns (c : Thread nD τ) (st11_3 t) fullShare ((dat11 V c).after 3 t))) := by
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  iframe H0 H1 H2
  isplitl [H3]; · iexists _; iexact H3
  iintro ⟨H0, H1, H2, H3⟩
  iframe

theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.R12.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_S5000x64 : Rect S5000x64 := Rect.unit (s := S5000x64) ![0, 0] S5000x64.size inb_S5000x64_S5000x64_0_0
abbrev r12_S5000x1 : Rect S5000x1 := Rect.unit (s := S5000x1) ![0, 0] S5000x1.size inb_S5000x1_S5000x1_0_0
abbrev r12_S64x64 : Rect S64x64 := Rect.unit (s := S64x64) ![0, 0] S64x64.size inb_S64x64_S64x64_0_0
abbrev r12_S1x64 : Rect S1x64 := Rect.unit (s := S1x64) ![0, 0] S1x64.size inb_S1x64_S1x64_0_0

def out12_7 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r12_S5000x64, k12_pay3 (View.ld x0 r12_S5000x64) (View.ld x1 r12_S5000x64) (View.ld x5 r12_S64x64) (View.ld x6 r12_S1x64) (View.ld x4 r12_S5000x1) (View.ld x2 r12_S5000x64)⟩]

theorem cover12_7 (p0 : Vec F S5000x64 .f32) (y : S5000x64.Idx) :
    ∃ pc ∈ ([⟨r12_S5000x64, p0⟩] : List (View.Piece (Elt F) S5000x64 .f32)), y ∈ pc.1.set :=
  View.cover_of_tiled [⟨r12_S5000x64, p0⟩] S5000x64.size (by rfl) y

def out12_8 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r12_S5000x64, k12_pay4 (View.ld x0 r12_S5000x64) (View.ld x1 r12_S5000x64) (View.ld x5 r12_S64x64) (View.ld x6 r12_S1x64) (View.ld x4 r12_S5000x1) (View.ld x3 r12_S5000x64)⟩]

theorem cover12_8 (p0 : Vec F S5000x64 .f32) (y : S5000x64.Idx) :
    ∃ pc ∈ ([⟨r12_S5000x64, p0⟩] : List (View.Piece (Elt F) S5000x64 .f32)), y ∈ pc.1.set :=
  View.cover_of_tiled [⟨r12_S5000x64, p0⟩] S5000x64.size (by rfl) y

set_option maxHeartbeats 4000000 in
theorem sound_kernel12 (c : Dev nD) (E : Set ℕ) (i : grid12.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out12_7 x0 x1 x2 x3 x4 x5 x6) ∗ owns (c : Thread nD τ) arg9 fullShare (out12_8 x0 x1 x2 x3 x4 x5 x6)) -∗ K ⟨⟩))
      ⊢ wp frame (wpE (defs₀ (F := F)) Variants.none c none) E (cc12__message_kernel i arg1 harg1 arg2 harg2 arg3 harg3 arg4 harg4 arg5 harg5 arg6 harg6 arg7 harg7 arg8 harg8 arg9 harg9) K := by
  simp only [cc12__message_kernel_eq_skeleton]; unfold cc12__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover12_7 _)
  iexists _; isplitr
  swap; · iexact H8
  ipureintro
  exact View.read_writes_eq_canon _ _ _ (cover12_8 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
    | ⟨8, _⟩ => out12_8 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) :
    (dat12 V c).after 7 t = out12_7 (iblk12 V c 0 t) (iblk12 V c 1 t) (iblk12 V c 2 t) (iblk12 V c 3 t) (iblk12 V c 4 t) (iblk12 V c 5 t) (iblk12 V c 6 t) := by dsimp only [dat12]
theorem after12_8 (c : Dev nD) (t : Fin cfg12.N) :
    (dat12 V c).after 8 t = out12_8 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d
theorem before12_2 (c : Dev nD) (t : Fin cfg12.N) (d) : (dat12 V c).before 2 t d = iblk12 V c 2 t :=
  (dat12 V c).before_in_eq_fetched 2 rfl (fun _ => rfl) (fun _ _ _ => rfl) (fun _ => rfl) t d
theorem before12_3 (c : Dev nD) (t : Fin cfg12.N) (d) : (dat12 V c).before 3 t d = iblk12 V c 3 t :=
  (dat12 V c).before_in_eq_fetched 3 rfl (fun _ => rfl) (fun _ _ _ => rfl) (fun _ => rfl) t d
theorem before12_4 (c : Dev nD) (t : Fin cfg12.N) (d) : (dat12 V c).before 4 t d = iblk12 V c 4 t :=
  (dat12 V c).before_in_eq_fetched 4 rfl (fun _ => rfl) (fun _ _ _ => rfl) (fun _ => rfl) t d
theorem before12_5 (c : Dev nD) (t : Fin cfg12.N) (d) : (dat12 V c).before 5 t d = iblk12 V c 5 t :=
  (dat12 V c).before_in_eq_fetched 5 rfl (fun _ => rfl) (fun _ _ _ => rfl) (fun _ => rfl) t d
theorem before12_6 (c : Dev nD) (t : Fin cfg12.N) (d) : (dat12 V c).before 6 t d = iblk12 V c 6 t :=
  (dat12 V c).before_in_eq_fetched 6 rfl (fun _ => rfl) (fun _ _ _ => rfl) (fun _ => rfl) t d

/-- Each input is at its block (`before12_w`), so `sound_kernel12` applies; everything else is framed. -/
theorem sound_body12 (c : Dev nD) (t : Fin cfg12.N) :
    iprop((dat12 V c).Φ t.castSucc ∗ (dat12 V c).owesAt () t.castSucc
      ∗ (∃ d, owns (c : Thread nD τ) (st12_0 t) fullShare ((dat12 V c).before 0 t d))
      ∗ (∃ d, owns (c : Thread nD τ) (st12_1 t) fullShare ((dat12 V c).before 1 t d))
      ∗ (∃ d, owns (c : Thread nD τ) (st12_2 t) fullShare ((dat12 V c).before 2 t d))
      ∗ (∃ d, owns (c : Thread nD τ) (st12_3 t) fullShare ((dat12 V c).before 3 t d))
      ∗ (∃ d, owns (c : Thread nD τ) (st12_4 t) fullShare ((dat12 V c).before 4 t d))
      ∗ (∃ d, owns (c : Thread nD τ) (st12_5 t) fullShare ((dat12 V c).before 5 t d))
      ∗ (∃ d, owns (c : Thread nD τ) (st12_6 t) fullShare ((dat12 V c).before 6 t d))
      ∗ (∃ d, owns (c : Thread nD τ) (st12_7 t) fullShare ((dat12 V c).before 7 t d))
      ∗ (∃ d, owns (c : Thread nD τ) (st12_8 t) fullShare ((dat12 V c).before 8 t d)))
    ⊢ wp frame (wpE (defs₀ (F := F)) Variants.none c none) Set.univ (bodyAt12 t) (fun _ =>
      iprop((dat12 V c).Φ t.succ ∗ (dat12 V c).owesAt () t.succ
        ∗ owns (c : Thread nD τ) (st12_0 t) fullShare ((dat12 V c).after 0 t)
        ∗ owns (c : Thread nD τ) (st12_1 t) fullShare ((dat12 V c).after 1 t)
        ∗ owns (c : Thread nD τ) (st12_2 t) fullShare ((dat12 V c).after 2 t)
        ∗ owns (c : Thread nD τ) (st12_3 t) fullShare ((dat12 V c).after 3 t)
        ∗ owns (c : Thread nD τ) (st12_4 t) fullShare ((dat12 V c).after 4 t)
        ∗ owns (c : Thread nD τ) (st12_5 t) fullShare ((dat12 V c).after 5 t)
        ∗ owns (c : Thread nD τ) (st12_6 t) fullShare ((dat12 V c).after 6 t)
        ∗ owns (c : Thread nD τ) (st12_7 t) fullShare ((dat12 V c).after 7 t)
        ∗ owns (c : Thread nD τ) (st12_8 t) fullShare ((dat12 V c).after 8 t))) := by
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel12 c Set.univ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  iframe H0 H1 H2 H3 H4 H5 H6
  isplitl [H7]; · iexists _; iexact H7
  isplitl [H8]; · iexists _; iexact H8
  iintro ⟨H0, H1, H2, H3, H4, H5, H6, H7, H8⟩
  iframe

theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.R13.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_S5000x64 : Rect S5000x64 := Rect.unit (s := S5000x64) ![0, 0] S5000x64.size inb_S5000x64_S5000x64_0_0

def out13_2 (x0 : Vec F S5000x64 .f32) (x1 : Vec F S5000x64 .f32) : Vec F S5000x64 .f32 :=
  View.canon [⟨r13_S5000x64, k13_pay1 (View.ld x0 r13_S5000x64) (View.ld x1 r13_S5000x64)⟩]

theorem cover13_2 (p0 : Vec F S5000x64 .f32) (y : S5000x64.Idx) :
    ∃ pc ∈ ([⟨r13_S5000x64, p0⟩] : List (View.Piece (Elt F) S5000x64 .f32)), y ∈ pc.1.set :=
  View.cover_of_tiled [⟨r13_S5000x64, p0⟩] S5000x64.size (by rfl) y

set_option maxHeartbeats 4000000 in
theorem sound_kernel13 (c : Dev nD) (E : Set ℕ) (i : grid13.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out13_2 x0 x1)) -∗ K ⟨⟩))
      ⊢ wp frame (wpE (defs₀ (F := F)) Variants.none c none) E (cc13__finalize_kernel i arg1 harg1 arg2 harg2 arg3 harg3) K := by
  simp only [cc13__finalize_kernel_eq_skeleton]; unfold cc13__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) :
    (dat13 V c).after 2 t = out13_2 (iblk13 V c 0 t) (iblk13 V c 1 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d

/-- Each input is at its block (`before13_w`), so `sound_kernel13` applies; everything else is framed. -/
theorem sound_body13 (c : Dev nD) (t : Fin cfg13.N) :
    iprop((dat13 V c).Φ t.castSucc ∗ (dat13 V c).owesAt () t.castSucc
      ∗ (∃ d, owns (c : Thread nD τ) (st13_0 t) fullShare ((dat13 V c).before 0 t d))
      ∗ (∃ d, owns (c : Thread nD τ) (st13_1 t) fullShare ((dat13 V c).before 1 t d))
      ∗ (∃ d, owns (c : Thread nD τ) (st13_2 t) fullShare ((dat13 V c).before 2 t d)))
    ⊢ wp frame (wpE (defs₀ (F := F)) Variants.none c none) Set.univ (bodyAt13 t) (fun _ =>
      iprop((dat13 V c).Φ t.succ ∗ (dat13 V c).owesAt () t.succ
        ∗ owns (c : Thread nD τ) (st13_0 t) fullShare ((dat13 V c).after 0 t)
        ∗ owns (c : Thread nD τ) (st13_1 t) fullShare ((dat13 V c).after 1 t)
        ∗ owns (c : Thread nD τ) (st13_2 t) fullShare ((dat13 V c).after 2 t))) := by
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  iframe H0 H1
  isplitl [H2]; · iexists _; iexact H2
  iintro ⟨H0, H1, H2⟩
  iframe

theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.R14.lean ====
import proofs.«431207_j9844065042802_4_alg».proof.Proof.Gen.Kernel.Launch
import proofs.«431207_j9844065042802_4_alg».proof.Proof.Gen.Kernel.Skeleton
import proofs.«431207_j9844065042802_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

abbrev r14_S5000x64 : Rect S5000x64 := Rect.unit (s := S5000x64) ![0, 0] S5000x64.size inb_S5000x64_S5000x64_0_0

def out14_2 (x0 : Vec F S5000x64 .f32) (x1 : Vec F S5000x64 .f32) : Vec F S5000x64 .f32 :=
  View.canon [⟨r14_S5000x64, k14_pay1 (View.ld x0 r14_S5000x64) (View.ld x1 r14_S5000x64)⟩]

theorem cover14_2 (p0 : Vec F S5000x64 .f32) (y : S5000x64.Idx) :
    ∃ pc ∈ ([⟨r14_S5000x64, p0⟩] : List (View.Piece (Elt F) S5000x64 .f32)), y ∈ pc.1.set :=
  View.cover_of_tiled [⟨r14_S5000x64, p0⟩] S5000x64.size (by rfl) y

set_option maxHeartbeats 4000000 in
theorem sound_kernel14 (c : Dev nD) (E : Set ℕ) (i : grid14.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out14_2 x0 x1)) -∗ K ⟨⟩))
      ⊢ wp frame (wpE (defs₀ (F := F)) Variants.none c none) E (cc14__finalize_kernel i arg1 harg1 arg2 harg2 arg3 harg3) K := by
  simp only [cc14__finalize_kernel_eq_skeleton]; unfold cc14__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) :
    (dat14 V c).after 2 t = out14_2 (iblk14 V c 0 t) (iblk14 V c 1 t) := by dsimp only [dat14]

theorem before14_0 (c : Dev nD) (t : Fin cfg14.N) (d) : (dat14 V c).before 0 t d = iblk14 V c 0 t :=
  (dat14 V c).before_in_eq_fetched 0 rfl (fun _ => rfl) (fun _ _ _ => rfl) (fun _ => rfl) t d
theorem before14_1 (c : Dev nD) (t : Fin cfg14.N) (d) : (dat14 V c).before 1 t d = iblk14 V c 1 t :=
  (dat14 V c).before_in_eq_fetched 1 rfl (fun _ => rfl) (fun _ _ _ => rfl) (fun _ => rfl) t d

/-- Each input is at its block (`before14_w`), so `sound_kernel14` applies; everything else is framed. -/
theorem sound_body14 (c : Dev nD) (t : Fin cfg14.N) :
    iprop((dat14 V c).Φ t.castSucc ∗ (dat14 V c).owesAt () t.castSucc
      ∗ (∃ d, owns (c : Thread nD τ) (st14_0 t) fullShare ((dat14 V c).before 0 t d))
      ∗ (∃ d, owns (c : Thread nD τ) (st14_1 t) fullShare ((dat14 V c).before 1 t d))
      ∗ (∃ d, owns (c : Thread nD τ) (st14_2 t) fullShare ((dat14 V c).before 2 t d)))
    ⊢ wp frame (wpE (defs₀ (F := F)) Variants.none c none) Set.univ (bodyAt14 t) (fun _ =>
      iprop((dat14 V c).Φ t.succ ∗ (dat14 V c).owesAt () t.succ
        ∗ owns (c : Thread nD τ) (st14_0 t) fullShare ((dat14 V c).after 0 t)
        ∗ owns (c : Thread nD τ) (st14_1 t) fullShare ((dat14 V c).after 1 t)
        ∗ owns (c : Thread nD τ) (st14_2 t) fullShare ((dat14 V c).after 2 t))) := by
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  iframe H0 H1
  isplitl [H2]; · iexists _; iexact H2
  iintro ⟨H0, H1, H2⟩
  iframe

theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Chain.lean ====
import proofs.«431207_j9844065042802_4_alg».proof.Proof.K.R0
import proofs.«431207_j9844065042802_4_alg».proof.Proof.K.R1
import proofs.«431207_j9844065042802_4_alg».proof.Proof.K.R2
import proofs.«431207_j9844065042802_4_alg».proof.Proof.K.R3
import proofs.«431207_j9844065042802_4_alg».proof.Proof.K.R4
import proofs.«431207_j9844065042802_4_alg».proof.Proof.K.R5
import proofs.«431207_j9844065042802_4_alg».proof.Proof.K.R6
import proofs.«431207_j9844065042802_4_alg».proof.Proof.K.R7
import proofs.«431207_j9844065042802_4_alg».proof.Proof.K.R8
import proofs.«431207_j9844065042802_4_alg».proof.Proof.K.R9
import proofs.«431207_j9844065042802_4_alg».proof.Proof.K.R10
import proofs.«431207_j9844065042802_4_alg».proof.Proof.K.R11
import proofs.«431207_j9844065042802_4_alg».proof.Proof.K.R12
import proofs.«431207_j9844065042802_4_alg».proof.Proof.K.R13
import proofs.«431207_j9844065042802_4_alg».proof.Proof.K.R14
import proofs.«431207_j9844065042802_4_alg».proof.Proof.Gen.Kernel.Regions

noncomputable section

namespace Cert.Kernel.Hand

open Idealize.ShloMosaic Idealize.ShloMosaic.TcCoe
open Idealize.SL Idealize.SL.RA
open Idealize.ShloMosaic.Pipeline (Dat)
open Cert.Kernel Cert.Kernel.Gen

section Upd

variable {ι α : Type} [DecidableEq α] {β : α → Type} (ref : ι → α) (val : ∀ o, β (ref o))

/-- `X` overwritten at `ref o` by `val o` for every `o` of the list, the list's head last. -/
def updAt (os : List ι) (X : ∀ a, β a) : ∀ a, β a := os.foldr (fun o Y => Function.update Y (ref o) (val o)) X

-- away from the list's references nothing is overwritten
theorem updAt_of_ne {X : ∀ a, β a} {b : α} : ∀ {os : List ι}, (∀ o ∈ os, b ≠ ref o) → updAt ref val os X b = X b
  | [], _ => rfl
  | o :: _, h => (Function.update_of_ne (h o List.mem_cons_self) _ _).trans
      (updAt_of_ne fun o' ho' => h o' (List.mem_cons_of_mem _ ho'))

-- distinct indices name distinct references, so a later overwrite leaves an earlier one alone
theorem updAt_of_mem (hinj : Function.Injective ref) {X : ∀ a, β a} {o : ι} :
    ∀ {os : List ι}, o ∈ os → updAt ref val os X (ref o) = val o
  | o' :: os, h => by
    by_cases e : o = o'
    · subst e; exact Function.update_self ..
    · exact (Function.update_of_ne (hinj.ne e) _ _).trans (updAt_of_mem hinj ((List.mem_cons.1 h).resolve_left e))

-- refilling the overwritten references from the overwritten function itself gives that function back
theorem update_refill {X Y X' : ∀ a, β a} {r : α} {v : β r} (h : Y = X) (hX' : X' = Function.update X r v) :
    Function.update Y r (X' r) = X' := by
  subst h hX'; rw [Function.update_self]

theorem update_refill₂ {X Y X' : ∀ a, β a} {r₁ r₂ : α} {v₁ : β r₁} {v₂ : β r₂} (h : Y = X)
    (hX' : X' = Function.update (Function.update X r₁ v₁) r₂ v₂) (hne : r₁ ≠ r₂) :
    Function.update (Function.update Y r₁ (X' r₁)) r₂ (X' r₂) = X' := by
  subst h hX'; rw [Function.update_self, Function.update_of_ne hne, Function.update_self]

end Upd

variable {F : FTy → Type} [FloatOps F]

section Exit

variable (cfg : Pipeline.Cfg sig Λ₀)

/-- Window `w`'s array, as a device buffer. -/
abbrev arrDev (w : Fin cfg.W) : DevRef τ sig := Proc.devRef .tc (Pipeline.arrRef cfg.spec w)

variable {cfg} {c : Dev nD} (dat : Dat τ (Elt F) Unit ℕ (UR sig nD τ) ℕ cfg c) (os : List (Fin cfg.W)) (X : Valuation τ sig (Elt F))

/-- The buffers after a launch entered at `X`: as `X`, but the arrays of the windows `os` at their final contents. -/
def exitOf : Valuation τ sig (Elt F) := updAt (arrDev cfg) (fun w => dat.arrAt w cfg.N) os X

-- an input window's array keeps its entry contents and is no result's array; a result's array is the one overwritten
theorem arrAt_eq_exitOf (hA : ∀ w, dat.A w = X (arrDev cfg w)) (hin : ∀ w, w ∉ os → (cfg.win w).isOut = false)
    (hinj : Function.Injective (Pipeline.arrRef cfg.spec)) (w : Fin cfg.W) : dat.arrAt w cfg.N = exitOf dat os X (arrDev cfg w) := by
  by_cases h : w ∈ os
  · exact (updAt_of_mem (β := fun b : DevRef τ sig => b.ty.Contents (Elt F)) (arrDev cfg) (fun w => dat.arrAt w cfg.N)
      ((Proc.devRef_injective .tc).comp hinj) h).symm
  · exact ((dat.arrAt_in w (hin w h) _).trans (hA w)).trans
      (updAt_of_ne _ _ fun o ho => StableHlo.devRef_ne_of_ne (hinj.ne (ne_of_mem_of_not_mem ho h).symm)).symm

theorem exitOf_rest (b : Ref sig .tc) (hb : b ∉ Finset.univ.image (Pipeline.arrRef cfg.spec)) : exitOf dat os X b = X b :=
  updAt_of_ne _ _ fun o _ => StableHlo.devRef_ne_of_ne fun e => hb (Finset.mem_image.mpr ⟨o, Finset.mem_univ _, e.symm⟩)

end Exit

variable (m : (ℓ : Loc nD τ sig) → Buf (Elt F) ℓ)

abbrev atTc (X : Dev nD → Valuation τ sig (Elt F)) : (c : Dev nD) → (b : Ref sig .tc) → Buf (Elt F) ((c : Thread nD τ).loc b) :=
  fun c b => X c b

def X1 (c : Dev nD) : Valuation τ sig (Elt F) := StableHlo.after hostOps0 (V0 m c)
def X2 (c : Dev nD) : Valuation τ sig (Elt F) :=
  Function.update (X1 m c) main_v34 ((dat0 (atTc (X1 m)) c).arrAt 3 cfg0.N)
def X3 (c : Dev nD) : Valuation τ sig (Elt F) := StableHlo.after hostOps1 (X2 m c)
def X4 (c : Dev nD) : Valuation τ sig (Elt F) :=
  Function.update (X3 m c) main_v36 ((dat1 (atTc (X3 m)) c).arrAt 3 cfg1.N)
def X5 (c : Dev nD) : Valuation τ sig (Elt F) := StableHlo.after hostOps2 (X4 m c)
def X6 (c : Dev nD) : Valuation τ sig (Elt F) :=
  Function.update (Function.update (X5 m c) main_v66_0 ((dat2 (atTc (X5 m)) c).arrAt 7 cfg2.N)) main_v66_1 ((dat2 (atTc (X5 m)) c).arrAt 8 cfg2.N)
def X7 (c : Dev nD) : Valuation τ sig (Elt F) := StableHlo.after hostOps3 (X6 m c)
def X8 (c : Dev nD) : Valuation τ sig (Elt F) :=
  Function.update (X7 m c) main_v73 ((dat3 (atTc (X7 m)) c).arrAt 2 cfg3.N)
def X9 (c : Dev nD) : Valuation τ sig (Elt F) :=
  Function.update (X8 m c) main_v74 ((dat4 (atTc (X8 m)) c).arrAt 2 cfg4.N)
def X10 (c : Dev nD) : Valuation τ sig (Elt F) := StableHlo.after hostOps5 (X9 m c)
def X11 (c : Dev nD) : Valuation τ sig (Elt F) :=
  Function.update (X10 m c) main_v84 ((dat5 (atTc (X10 m)) c).arrAt 3 cfg5.N)
def X12 (c : Dev nD) : Valuation τ sig (Elt F) := StableHlo.after hostOps6 (X11 m c)
def X13 (c : Dev nD) : Valuation τ sig (Elt F) :=
  Function.update (X12 m c) main_v86 ((dat6 (atTc (X12 m)) c).arrAt 3 cfg6.N)
def X14 (c : Dev nD) : Valuation τ sig (Elt F) := StableHlo.after hostOps7 (X13 m c)
def X15 (c : Dev nD) : Valuation τ sig (Elt F) :=
  Function.update (Function.update (X14 m c) main_v116_0 ((dat7 (atTc (X14 m)) c).arrAt 7 cfg7.N)) main_v116_1 ((dat7 (atTc (X14 m)) c).arrAt 8 cfg7.N)
def X16 (c : Dev nD) : Valuation τ sig (Elt F) := StableHlo.after hostOps8 (X15 m c)
def X17 (c : Dev nD) : Valuation τ sig (Elt F) :=
  Function.update (X16 m c) main_v123 ((dat8 (atTc (X16 m)) c).arrAt 2 cfg8.N)
def X18 (c : Dev nD) : Valuation τ sig (Elt F) :=
  Function.update (X17 m c) main_v124 ((dat9 (atTc (X17 m)) c).arrAt 2 cfg9.N)
def X19 (c : Dev nD) : Valuation τ sig (Elt F) := StableHlo.after hostOps10 (X18 m c)
def X20 (c : Dev nD) : Valuation τ sig (Elt F) :=
  Function.update (X19 m c) main_v134 ((dat10 (atTc (X19 m)) c).arrAt 3 cfg10.N)
def X21 (c : Dev nD) : Valuation τ sig (Elt F) := StableHlo.after hostOps11 (X20 m c)
def X22 (c : Dev nD) : Valuation τ sig (Elt F) :=
  Function.update (X21 m c) main_v136 ((dat11 (atTc (X21 m)) c).arrAt 3 cfg11.N)
def X23 (c : Dev nD) : Valuation τ sig (Elt F) := StableHlo.after hostOps12 (X22 m c)
def X24 (c : Dev nD) : Valuation τ sig (Elt F) :=
  Function.update (Function.update (X23 m c) main_v166_0 ((dat12 (atTc (X23 m)) c).arrAt 7 cfg12.N)) main_v166_1 ((dat12 (atTc (X23 m)) c).arrAt 8 cfg12.N)
def X25 (c : Dev nD) : Valuation τ sig (Elt F) := StableHlo.after hostOps13 (X24 m c)
def X26 (c : Dev nD) : Valuation τ sig (Elt F) :=
  Function.update (X25 m c) main_v173 ((dat13 (atTc (X25 m)) c).arrAt 2 cfg13.N)
def X27 (c : Dev nD) : Valuation τ sig (Elt F) :=
  Function.update (X26 m c) main_v174 ((dat14 (atTc (X26 m)) c).arrAt 2 cfg14.N)
def X28 (c : Dev nD) : Valuation τ sig (Elt F) := StableHlo.after hostOps15 (X27 m c)

def outs : Outs (F := F) := fun J r c => match J with
  | 2 => X2 m c r
  | 4 => X4 m c r
  | 6 => X6 m c r
  | 8 => X8 m c r
  | 9 => X9 m c r
  | 11 => X11 m c r
  | 13 => X13 m c r
  | 15 => X15 m c r
  | 17 => X17 m c r
  | 18 => X18 m c r
  | 20 => X20 m c r
  | 22 => X22 m c r
  | 24 => X24 m c r
  | 26 => X26 m c r
  | 27 => X27 m c r
  | _ => V0 m c r

theorem V1_eq (c : Dev nD) : V1 m c = X1 m c := rfl
theorem V2_eq (c : Dev nD) : V2 m (outs m) c = X2 m c := update_refill (X' := X2 m c) (V1_eq m c) rfl
theorem V3_eq (c : Dev nD) : V3 m (outs m) c = X3 m c := congrArg (StableHlo.after hostOps1) (V2_eq m c)
theorem V4_eq (c : Dev nD) : V4 m (outs m) c = X4 m c := update_refill (X' := X4 m c) (V3_eq m c) rfl
theorem V5_eq (c : Dev nD) : V5 m (outs m) c = X5 m c := congrArg (StableHlo.after hostOps2) (V4_eq m c)
theorem V6_eq (c : Dev nD) : V6 m (outs m) c = X6 m c := update_refill₂ (X' := X6 m c) (V5_eq m c) rfl (StableHlo.devRef_ne_of_ne (by decide))
theorem V7_eq (c : Dev nD) : V7 m (outs m) c = X7 m c := congrArg (StableHlo.after hostOps3) (V6_eq m c)
theorem V8_eq (c : Dev nD) : V8 m (outs m) c = X8 m c := update_refill (X' := X8 m c) (V7_eq m c) rfl
theorem V9_eq (c : Dev nD) : V9 m (outs m) c = X9 m c := update_refill (X' := X9 m c) (V8_eq m c) rfl
theorem V10_eq (c : Dev nD) : V10 m (outs m) c = X10 m c := congrArg (StableHlo.after hostOps5) (V9_eq m c)
theorem V11_eq (c : Dev nD) : V11 m (outs m) c = X11 m c := update_refill (X' := X11 m c) (V10_eq m c) rfl
theorem V12_eq (c : Dev nD) : V12 m (outs m) c = X12 m c := congrArg (StableHlo.after hostOps6) (V11_eq m c)
theorem V13_eq (c : Dev nD) : V13 m (outs m) c = X13 m c := update_refill (X' := X13 m c) (V12_eq m c) rfl
theorem V14_eq (c : Dev nD) : V14 m (outs m) c = X14 m c := congrArg (StableHlo.after hostOps7) (V13_eq m c)
theorem V15_eq (c : Dev nD) : V15 m (outs m) c = X15 m c := update_refill₂ (X' := X15 m c) (V14_eq m c) rfl (StableHlo.devRef_ne_of_ne (by decide))
theorem V16_eq (c : Dev nD) : V16 m (outs m) c = X16 m c := congrArg (StableHlo.after hostOps8) (V15_eq m c)
theorem V17_eq (c : Dev nD) : V17 m (outs m) c = X17 m c := update_refill (X' := X17 m c) (V16_eq m c) rfl
theorem V18_eq (c : Dev nD) : V18 m (outs m) c = X18 m c := update_refill (X' := X18 m c) (V17_eq m c) rfl
theorem V19_eq (c : Dev nD) : V19 m (outs m) c = X19 m c := congrArg (StableHlo.after hostOps10) (V18_eq m c)
theorem V20_eq (c : Dev nD) : V20 m (outs m) c = X20 m c := update_refill (X' := X20 m c) (V19_eq m c) rfl
theorem V21_eq (c : Dev nD) : V21 m (outs m) c = X21 m c := congrArg (StableHlo.after hostOps11) (V20_eq m c)
theorem V22_eq (c : Dev nD) : V22 m (outs m) c = X22 m c := update_refill (X' := X22 m c) (V21_eq m c) rfl
theorem V23_eq (c : Dev nD) : V23 m (outs m) c = X23 m c := congrArg (StableHlo.after hostOps12) (V22_eq m c)
theorem V24_eq (c : Dev nD) : V24 m (outs m) c = X24 m c := update_refill₂ (X' := X24 m c) (V23_eq m c) rfl (StableHlo.devRef_ne_of_ne (by decide))
theorem V25_eq (c : Dev nD) : V25 m (outs m) c = X25 m c := congrArg (StableHlo.after hostOps13) (V24_eq m c)
theorem V26_eq (c : Dev nD) : V26 m (outs m) c = X26 m c := update_refill (X' := X26 m c) (V25_eq m c) rfl
theorem V27_eq (c : Dev nD) : V27 m (outs m) c = X27 m c := update_refill (X' := X27 m c) (V26_eq m c) rfl
theorem V28_eq (c : Dev nD) : V28 m (outs m) c = X28 m c := congrArg (StableHlo.after hostOps15) (V27_eq m c)

theorem hF0 (c : Dev nD) : ∀ w : Fin 4, (dat0 (atTc (X1 m)) c).arrAt w cfg0.N = atTc (X2 m) c (Pipeline.arrRef spec0 w) :=
  arrAt_eq_exitOf (dat0 (atTc (X1 m)) c) [3] (X1 m c) (A_eq0 _ c)
    (show ∀ w : Fin 4, w ∉ [3] → (spec0 w).isOut = false by decide) winFacts0.arr_inj
theorem hrest0 (c : Dev nD) : ∀ b, b ∉ Finset.univ.image (Pipeline.arrRef spec0) → atTc (X2 m) c b = atTc (X1 m) c b :=
  exitOf_rest (dat0 (atTc (X1 m)) c) [3] (X1 m c)
theorem hF1 (c : Dev nD) : ∀ w : Fin 4, (dat1 (atTc (X3 m)) c).arrAt w cfg1.N = atTc (X4 m) c (Pipeline.arrRef spec1 w) :=
  arrAt_eq_exitOf (dat1 (atTc (X3 m)) c) [3] (X3 m c) (A_eq1 _ c)
    (show ∀ w : Fin 4, w ∉ [3] → (spec1 w).isOut = false by decide) winFacts1.arr_inj
theorem hrest1 (c : Dev nD) : ∀ b, b ∉ Finset.univ.image (Pipeline.arrRef spec1) → atTc (X4 m) c b = atTc (X3 m) c b :=
  exitOf_rest (dat1 (atTc (X3 m)) c) [3] (X3 m c)
theorem hF2 (c : Dev nD) : ∀ w : Fin 9, (dat2 (atTc (X5 m)) c).arrAt w cfg2.N = atTc (X6 m) c (Pipeline.arrRef spec2 w) :=
  arrAt_eq_exitOf (dat2 (atTc (X5 m)) c) [8, 7] (X5 m c) (A_eq2 _ c)
    (show ∀ w : Fin 9, w ∉ [8, 7] → (spec2 w).isOut = false by decide) winFacts2.arr_inj
theorem hrest2 (c : Dev nD) : ∀ b, b ∉ Finset.univ.image (Pipeline.arrRef spec2) → atTc (X6 m) c b = atTc (X5 m) c b :=
  exitOf_rest (dat2 (atTc (X5 m)) c) [8, 7] (X5 m c)
theorem hF3 (c : Dev nD) : ∀ w : Fin 3, (dat3 (atTc (X7 m)) c).arrAt w cfg3.N = atTc (X8 m) c (Pipeline.arrRef spec3 w) :=
  arrAt_eq_exitOf (dat3 (atTc (X7 m)) c) [2] (X7 m c) (A_eq3 _ c)
    (show ∀ w : Fin 3, w ∉ [2] → (spec3 w).isOut = false by decide) winFacts3.arr_inj
theorem hrest3 (c : Dev nD) : ∀ b, b ∉ Finset.univ.image (Pipeline.arrRef spec3) → atTc (X8 m) c b = atTc (X7 m) c b :=
  exitOf_rest (dat3 (atTc (X7 m)) c) [2] (X7 m c)
theorem hF4 (c : Dev nD) : ∀ w : Fin 3, (dat4 (atTc (X8 m)) c).arrAt w cfg4.N = atTc (X9 m) c (Pipeline.arrRef spec4 w) :=
  arrAt_eq_exitOf (dat4 (atTc (X8 m)) c) [2] (X8 m c) (A_eq4 _ c)
    (show ∀ w : Fin 3, w ∉ [2] → (spec4 w).isOut = false by decide) winFacts4.arr_inj
theorem hrest4 (c : Dev nD) : ∀ b, b ∉ Finset.univ.image (Pipeline.arrRef spec4) → atTc (X9 m) c b = atTc (X8 m) c b :=
  exitOf_rest (dat4 (atTc (X8 m)) c) [2] (X8 m c)
theorem hF5 (c : Dev nD) : ∀ w : Fin 4, (dat5 (atTc (X10 m)) c).arrAt w cfg5.N = atTc (X11 m) c (Pipeline.arrRef spec5 w) :=
  arrAt_eq_exitOf (dat5 (atTc (X10 m)) c) [3] (X10 m c) (A_eq5 _ c)
    (show ∀ w : Fin 4, w ∉ [3] → (spec5 w).isOut = false by decide) winFacts5.arr_inj
theorem hrest5 (c : Dev nD) : ∀ b, b ∉ Finset.univ.image (Pipeline.arrRef spec5) → atTc (X11 m) c b = atTc (X10 m) c b :=
  exitOf_rest (dat5 (atTc (X10 m)) c) [3] (X10 m c)
theorem hF6 (c : Dev nD) : ∀ w : Fin 4, (dat6 (atTc (X12 m)) c).arrAt w cfg6.N = atTc (X13 m) c (Pipeline.arrRef spec6 w) :=
  arrAt_eq_exitOf (dat6 (atTc (X12 m)) c) [3] (X12 m c) (A_eq6 _ c)
    (show ∀ w : Fin 4, w ∉ [3] → (spec6 w).isOut = false by decide) winFacts6.arr_inj
theorem hrest6 (c : Dev nD) : ∀ b, b ∉ Finset.univ.image (Pipeline.arrRef spec6) → atTc (X13 m) c b = atTc (X12 m) c b :=
  exitOf_rest (dat6 (atTc (X12 m)) c) [3] (X12 m c)
theorem hF7 (c : Dev nD) : ∀ w : Fin 9, (dat7 (atTc (X14 m)) c).arrAt w cfg7.N = atTc (X15 m) c (Pipeline.arrRef spec7 w) :=
  arrAt_eq_exitOf (dat7 (atTc (X14 m)) c) [8, 7] (X14 m c) (A_eq7 _ c)
    (show ∀ w : Fin 9, w ∉ [8, 7] → (spec7 w).isOut = false by decide) winFacts7.arr_inj
theorem hrest7 (c : Dev nD) : ∀ b, b ∉ Finset.univ.image (Pipeline.arrRef spec7) → atTc (X15 m) c b = atTc (X14 m) c b :=
  exitOf_rest (dat7 (atTc (X14 m)) c) [8, 7] (X14 m c)
theorem hF8 (c : Dev nD) : ∀ w : Fin 3, (dat8 (atTc (X16 m)) c).arrAt w cfg8.N = atTc (X17 m) c (Pipeline.arrRef spec8 w) :=
  arrAt_eq_exitOf (dat8 (atTc (X16 m)) c) [2] (X16 m c) (A_eq8 _ c)
    (show ∀ w : Fin 3, w ∉ [2] → (spec8 w).isOut = false by decide) winFacts8.arr_inj
theorem hrest8 (c : Dev nD) : ∀ b, b ∉ Finset.univ.image (Pipeline.arrRef spec8) → atTc (X17 m) c b = atTc (X16 m) c b :=
  exitOf_rest (dat8 (atTc (X16 m)) c) [2] (X16 m c)
theorem hF9 (c : Dev nD) : ∀ w : Fin 3, (dat9 (atTc (X17 m)) c).arrAt w cfg9.N = atTc (X18 m) c (Pipeline.arrRef spec9 w) :=
  arrAt_eq_exitOf (dat9 (atTc (X17 m)) c) [2] (X17 m c) (A_eq9 _ c)
    (show ∀ w : Fin 3, w ∉ [2] → (spec9 w).isOut = false by decide) winFacts9.arr_inj
theorem hrest9 (c : Dev nD) : ∀ b, b ∉ Finset.univ.image (Pipeline.arrRef spec9) → atTc (X18 m) c b = atTc (X17 m) c b :=
  exitOf_rest (dat9 (atTc (X17 m)) c) [2] (X17 m c)
theorem hF10 (c : Dev nD) : ∀ w : Fin 4, (dat10 (atTc (X19 m)) c).arrAt w cfg10.N = atTc (X20 m) c (Pipeline.arrRef spec10 w) :=
  arrAt_eq_exitOf (dat10 (atTc (X19 m)) c) [3] (X19 m c) (A_eq10 _ c)
    (show ∀ w : Fin 4, w ∉ [3] → (spec10 w).isOut = false by decide) winFacts10.arr_inj
theorem hrest10 (c : Dev nD) : ∀ b, b ∉ Finset.univ.image (Pipeline.arrRef spec10) → atTc (X20 m) c b = atTc (X19 m) c b :=
  exitOf_rest (dat10 (atTc (X19 m)) c) [3] (X19 m c)
theorem hF11 (c : Dev nD) : ∀ w : Fin 4, (dat11 (atTc (X21 m)) c).arrAt w cfg11.N = atTc (X22 m) c (Pipeline.arrRef spec11 w) :=
  arrAt_eq_exitOf (dat11 (atTc (X21 m)) c) [3] (X21 m c) (A_eq11 _ c)
    (show ∀ w : Fin 4, w ∉ [3] → (spec11 w).isOut = false by decide) winFacts11.arr_inj
theorem hrest11 (c : Dev nD) : ∀ b, b ∉ Finset.univ.image (Pipeline.arrRef spec11) → atTc (X22 m) c b = atTc (X21 m) c b :=
  exitOf_rest (dat11 (atTc (X21 m)) c) [3] (X21 m c)
theorem hF12 (c : Dev nD) : ∀ w : Fin 9, (dat12 (atTc (X23 m)) c).arrAt w cfg12.N = atTc (X24 m) c (Pipeline.arrRef spec12 w) :=
  arrAt_eq_exitOf (dat12 (atTc (X23 m)) c) [8, 7] (X23 m c) (A_eq12 _ c)
    (show ∀ w : Fin 9, w ∉ [8, 7] → (spec12 w).isOut = false by decide) winFacts12.arr_inj
theorem hrest12 (c : Dev nD) : ∀ b, b ∉ Finset.univ.image (Pipeline.arrRef spec12) → atTc (X24 m) c b = atTc (X23 m) c b :=
  exitOf_rest (dat12 (atTc (X23 m)) c) [8, 7] (X23 m c)
theorem hF13 (c : Dev nD) : ∀ w : Fin 3, (dat13 (atTc (X25 m)) c).arrAt w cfg13.N = atTc (X26 m) c (Pipeline.arrRef spec13 w) :=
  arrAt_eq_exitOf (dat13 (atTc (X25 m)) c) [2] (X25 m c) (A_eq13 _ c)
    (show ∀ w : Fin 3, w ∉ [2] → (spec13 w).isOut = false by decide) winFacts13.arr_inj
theorem hrest13 (c : Dev nD) : ∀ b, b ∉ Finset.univ.image (Pipeline.arrRef spec13) → atTc (X26 m) c b = atTc (X25 m) c b :=
  exitOf_rest (dat13 (atTc (X25 m)) c) [2] (X25 m c)
theorem hF14 (c : Dev nD) : ∀ w : Fin 3, (dat14 (atTc (X26 m)) c).arrAt w cfg14.N = atTc (X27 m) c (Pipeline.arrRef spec14 w) :=
  arrAt_eq_exitOf (dat14 (atTc (X26 m)) c) [2] (X26 m c) (A_eq14 _ c)
    (show ∀ w : Fin 3, w ∉ [2] → (spec14 w).isOut = false by decide) winFacts14.arr_inj
theorem hrest14 (c : Dev nD) : ∀ b, b ∉ Finset.univ.image (Pipeline.arrRef spec14) → atTc (X27 m) c b = atTc (X26 m) c b :=
  exitOf_rest (dat14 (atTc (X26 m)) c) [2] (X26 m c)

def pdats : (p : Fin 15) → (c : Dev nD) → Dat τ (Elt F) Unit ℕ (UR sig nD τ) ℕ (cfgs p) c
  | ⟨0, _⟩ => fun c => dat0 (atTc (X1 m)) c
  | ⟨1, _⟩ => fun c => dat1 (atTc (X3 m)) c
  | ⟨2, _⟩ => fun c => dat2 (atTc (X5 m)) c
  | ⟨3, _⟩ => fun c => dat3 (atTc (X7 m)) c
  | ⟨4, _⟩ => fun c => dat4 (atTc (X8 m)) c
  | ⟨5, _⟩ => fun c => dat5 (atTc (X10 m)) c
  | ⟨6, _⟩ => fun c => dat6 (atTc (X12 m)) c
  | ⟨7, _⟩ => fun c => dat7 (atTc (X14 m)) c
  | ⟨8, _⟩ => fun c => dat8 (atTc (X16 m)) c
  | ⟨9, _⟩ => fun c => dat9 (atTc (X17 m)) c
  | ⟨10, _⟩ => fun c => dat10 (atTc (X19 m)) c
  | ⟨11, _⟩ => fun c => dat11 (atTc (X21 m)) c
  | ⟨12, _⟩ => fun c => dat12 (atTc (X23 m)) c
  | ⟨13, _⟩ => fun c => dat13 (atTc (X25 m)) c
  | ⟨14, _⟩ => fun c => dat14 (atTc (X26 m)) c

end Cert.Kernel.Hand

end
-- ==== Proof.K.Rest.lean ====
import proofs.«431207_j9844065042802_4_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱n : Variants := Variants.none
abbrev Ln : GSem nD τ sig → Finset Unit := fun _ => ∅
abbrev lvn : GSem nD τ sig → Unit → ℕ := fun _ _ => 0
abbrev Rest (c : Dev nD) : sProp 𝕄 := iprop((∃ r, prngReg c r) ∗ ∃ W, owes (c : Thread nD τ) (0 : CellTallies nD τ sig Unit) W)

end Cert.Kernel.Hand

end
-- ==== Proof.K.Segs.lean ====
import proofs.«431207_j9844065042802_4_alg».proof.Proof.K.Rest

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

-- A launch owing nothing, as a segment: its arrays are split off the held buffers at entry and put back updated at exit.
def regOf (D : (p : Fin 15) → (c : Dev nD) → Dat τ (Elt F) Unit ℕ (UR sig nD τ) ℕ (cfgs p) c) (p : Fin 15)
    (kit : Pipeline.LaunchFacts (nD := nD) (τ := τ) cfgs p) (V V' : Dev nD → Valuation τ sig (Elt F))
    (hbody : ∀ c, BodyObligation (D p c) (defs₀ (F := F)) Variants.none () Set.univ)
    (hD : ∀ c, D p c = ⟨fun w => atTc V c (Pipeline.arrRef (cfgs p).spec w), (D p c).after,
      fun _ => Pipeline.ΦA (cfgs p).spec c, fun _ => fullShare, fun _ => 0, fun _ => Set.univ⟩)
    (hF : ∀ c w, (D p c).arrAt w (cfgs p).N = atTc V' c (Pipeline.arrRef (cfgs p).spec w))
    (hrest : ∀ c b, b ∉ Finset.univ.image (Pipeline.arrRef (cfgs p).spec) → atTc V' c b = atTc V c b) :
    RegionSeg (pcfgs (F := F)) adm D () defs₀ 𝒱n Ln lvn p :=
  have hq : ∀ c w, (D p c).share w = fullShare := fun c => (D p c).share_full fun w => congrArg (·.q w) (hD c)
  have howed : ∀ c t, (D p c).owed t = 0 := fun c t => congrArg (·.owed t) (hD c)
  have hrec : ∀ c t, (D p c).recorded t = Set.univ := fun c t => congrArg (·.recorded t) (hD c)
  have hΦ : ∀ c t, (D p c).Φ t = Pipeline.ΦA (cfgs p).spec c := fun c t => congrArg (·.Φ t) (hD c)
  { win := kit.win.to₀
    block_pos := kit.block_pos
    stage_whole := kit.stage_whole
    K := PEmpty
    osem := fun k => k.elim
    ho := Pipeline.OwnSemFacts.none _
    hbody := fun c => (hbody c).loose
    hwaits := Pipeline.hwaits_of_owed_zero _ _ _ _ Ln lvn p howed
    pre := fun c => iprop(StableHlo.held (c : Thread nD τ) (Pipeline.ucRefs τ sig) (V c) ∗ Rest c)
    post := fun c => iprop(StableHlo.held (c : Thread nD τ) (Pipeline.ucRefs τ sig) (V' c) ∗ Rest c)
    X := fun c => iprop(∃ r, prngReg c r)
    Y := fun c => iprop(∃ r, prngReg c r)
    Z := fun c => Pipeline.unscopedRest (Ix := Unit) (Name := ℕ) (U := UR sig nD τ) (Lvl := ℕ) (cfgs p).spec c (atTc V c)
    hentry := fun c => by
      have hsplit := Pipeline.arrays_of_unscopedBufs (p := p) (pcfgs (F := F)) adm D kit.win kit.arr_whole c (hq c) (atTc V c)
        fun w => congrArg (·.A w) (hD c)
      rw [Pipeline.unscopedBufs_held] at hsplit
      iintro ⟨⟨Hub, Hp, HO⟩, -, -⟩
      ihave H := hsplit $$ Hub
      icases H with ⟨Ha, Hrest⟩
      imodintro
      isplitl [Ha]; · iexact Ha
      isplitr; · unfold Pipeline.prefHeld; rw [show (Finset.univ : Finset (Fin 0)) = ∅ from rfl, BI.bigSep_empty]; iempintro
      isplitl [HO]
      · unfold Pipeline.Dat.owesAt Pipeline.owesWithin Pipeline.Dat.bound; rw [howed c, hrec c]
        icases HO with ⟨%W, HO⟩; iexists W; isplitr; · ipureintro; exact fun _ _ => Or.inl trivial
        iexact HO
      isplitl [Hp] <;> iassumption
    hin := fun c => by
      rw [hΦ c]; unfold Pipeline.ΦA
      iintro ⟨Hp, -, Hr⟩
      isplitl [Hr] <;> iassumption
    hout := fun c => by
      rw [Pipeline.ownSems0_none, hΦ c]; unfold Pipeline.ΦA
      iintro ⟨Hr, Hp⟩
      isplitl [Hp]; · iexact Hp
      isplitr; · iempintro
      iexact Hr
    hexit := fun c => by
      have hjoin := Pipeline.unscopedBufs_of_arrays (p := p) (pcfgs (F := F)) adm (Ix := Unit) (Name := ℕ) (U := UR sig nD τ) (Lvl := ℕ)
        kit.win kit.arr_whole c D (hq c) (atTc V c) (atTc V' c) ((D p c).arrAt · (cfgs p).N) (hF c) (hrest c)
      rw [Pipeline.unscopedBufs_held] at hjoin
      iintro ⟨Ha, HO, HY, Hrest⟩
      imodintro
      isplitl [Ha Hrest]
      · iapply hjoin; isplitl [Ha] <;> iassumption
      isplitl [HY]; · iexact HY
      unfold Pipeline.Dat.owesAt Pipeline.owesWithin; rw [howed c]
      icases HO with ⟨%W, -, HO⟩; iexists W; iexact HO }

variable (m : (ℓ : Loc nD τ sig) → Buf (Elt F) ℓ)

def reg0 : RegionSeg (pcfgs (F := F)) adm (pdats m) () defs₀ 𝒱n Ln lvn 0 :=
  regOf (pdats m) 0 launch0 (X1 m) (X2 m) (body_obligation0 _) (fun _ => rfl) (hF0 m) (hrest0 m)
def reg1 : RegionSeg (pcfgs (F := F)) adm (pdats m) () defs₀ 𝒱n Ln lvn 1 :=
  regOf (pdats m) 1 launch1 (X3 m) (X4 m) (body_obligation1 _) (fun _ => rfl) (hF1 m) (hrest1 m)
def reg2 : RegionSeg (pcfgs (F := F)) adm (pdats m) () defs₀ 𝒱n Ln lvn 2 :=
  regOf (pdats m) 2 launch2 (X5 m) (X6 m) (body_obligation2 _) (fun _ => rfl) (hF2 m) (hrest2 m)
def reg3 : RegionSeg (pcfgs (F := F)) adm (pdats m) () defs₀ 𝒱n Ln lvn 3 :=
  regOf (pdats m) 3 launch3 (X7 m) (X8 m) (body_obligation3 _) (fun _ => rfl) (hF3 m) (hrest3 m)
def reg4 : RegionSeg (pcfgs (F := F)) adm (pdats m) () defs₀ 𝒱n Ln lvn 4 :=
  regOf (pdats m) 4 launch4 (X8 m) (X9 m) (body_obligation4 _) (fun _ => rfl) (hF4 m) (hrest4 m)
def reg5 : RegionSeg (pcfgs (F := F)) adm (pdats m) () defs₀ 𝒱n Ln lvn 5 :=
  regOf (pdats m) 5 launch5 (X10 m) (X11 m) (body_obligation5 _) (fun _ => rfl) (hF5 m) (hrest5 m)
def reg6 : RegionSeg (pcfgs (F := F)) adm (pdats m) () defs₀ 𝒱n Ln lvn 6 :=
  regOf (pdats m) 6 launch6 (X12 m) (X13 m) (body_obligation6 _) (fun _ => rfl) (hF6 m) (hrest6 m)
def reg7 : RegionSeg (pcfgs (F := F)) adm (pdats m) () defs₀ 𝒱n Ln lvn 7 :=
  regOf (pdats m) 7 launch7 (X14 m) (X15 m) (body_obligation7 _) (fun _ => rfl) (hF7 m) (hrest7 m)
def reg8 : RegionSeg (pcfgs (F := F)) adm (pdats m) () defs₀ 𝒱n Ln lvn 8 :=
  regOf (pdats m) 8 launch8 (X16 m) (X17 m) (body_obligation8 _) (fun _ => rfl) (hF8 m) (hrest8 m)
def reg9 : RegionSeg (pcfgs (F := F)) adm (pdats m) () defs₀ 𝒱n Ln lvn 9 :=
  regOf (pdats m) 9 launch9 (X17 m) (X18 m) (body_obligation9 _) (fun _ => rfl) (hF9 m) (hrest9 m)
def reg10 : RegionSeg (pcfgs (F := F)) adm (pdats m) () defs₀ 𝒱n Ln lvn 10 :=
  regOf (pdats m) 10 launch10 (X19 m) (X20 m) (body_obligation10 _) (fun _ => rfl) (hF10 m) (hrest10 m)
def reg11 : RegionSeg (pcfgs (F := F)) adm (pdats m) () defs₀ 𝒱n Ln lvn 11 :=
  regOf (pdats m) 11 launch11 (X21 m) (X22 m) (body_obligation11 _) (fun _ => rfl) (hF11 m) (hrest11 m)
def reg12 : RegionSeg (pcfgs (F := F)) adm (pdats m) () defs₀ 𝒱n Ln lvn 12 :=
  regOf (pdats m) 12 launch12 (X23 m) (X24 m) (body_obligation12 _) (fun _ => rfl) (hF12 m) (hrest12 m)
def reg13 : RegionSeg (pcfgs (F := F)) adm (pdats m) () defs₀ 𝒱n Ln lvn 13 :=
  regOf (pdats m) 13 launch13 (X25 m) (X26 m) (body_obligation13 _) (fun _ => rfl) (hF13 m) (hrest13 m)
def reg14 : RegionSeg (pcfgs (F := F)) adm (pdats m) () defs₀ 𝒱n Ln lvn 14 :=
  regOf (pdats m) 14 launch14 (X26 m) (X27 m) (body_obligation14 _) (fun _ => rfl) (hF14 m) (hrest14 m)

end Cert.Kernel.Hand

end
-- ==== Proof.K.Frame.lean ====
import proofs.«431207_j9844065042802_4_alg».proof.Proof.K.Segs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Rests : Fin 16 → Dev nD → sProp 𝕄 := fun _ c => Rest (F := F) c

theorem launch_dues :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_core (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (Rest (F := F) c : sProp 𝕄) := by
  unfold Rest
  iintro ⟨-, HO, -, Hp, -⟩
  isplitl [Hp]; · iexists _; iexact Hp
  iexists ∅; iexact HO

theorem rest_first :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Ln lvn)
      ⊢ (|={Set.univ}=> bigSep Finset.univ (Rests (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Rests (F := F) 0) : sProp 𝕄) :=
    bigSep_mono fun c _ => rest_core (F := F) ρ c
  iintro ⟨H, -⟩
  imodintro
  iapply hmono
  iexact H

theorem rest_last (c : Dev nD) :
    Rests (F := F) 15 c ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (F := F) m emb₁ () 𝒱n Ln lvn (fun _ _ => rfl) ρ (outs m) (pdats m) 0 (fun _ => iprop(emp))
    (initOf (Pipeline.cells cfgs cellOf_inj) (Pipeline.launchToks cfgs cellOf_inj)) launch_dues (Rests (F := F)) (rest_first ρ) rest_last
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V12_eq]; exact .rfl) (fun c => by rw [V13_eq]; exact .rfl)
    (reg7 m) (fun c => by rw [V14_eq]; exact .rfl) (fun c => by rw [V15_eq]; exact .rfl)
    (reg8 m) (fun c => by rw [V16_eq]; exact .rfl) (fun c => by rw [V17_eq]; exact .rfl)
    (reg9 m) (fun c => by rw [V17_eq]; exact .rfl) (fun c => by rw [V18_eq]; exact .rfl)
    (reg10 m) (fun c => by rw [V19_eq]; exact .rfl) (fun c => by rw [V20_eq]; exact .rfl)
    (reg11 m) (fun c => by rw [V21_eq]; exact .rfl) (fun c => by rw [V22_eq]; exact .rfl)
    (reg12 m) (fun c => by rw [V23_eq]; exact .rfl) (fun c => by rw [V24_eq]; exact .rfl)
    (reg13 m) (fun c => by rw [V25_eq]; exact .rfl) (fun c => by rw [V26_eq]; exact .rfl)
    (reg14 m) (fun c => by rw [V26_eq]; exact .rfl) (fun c => by rw [V27_eq]; exact .rfl)

end Cert.Kernel.Hand

end
-- ==== Proof.KI.R0.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rT0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

def out0_3 (x0 : Vec F S5000x64 .f32) (x1 : Vec F S64x64 .f32) (x2 : Vec F S1x64 .f32) : Vec F S5000x64 .f32 :=
  View.canon [⟨rT0, k0_pay1 (View.ld x0 rT0) (View.ld x1 rW0) (View.ld x2 rB0)⟩]

theorem cover0_3 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

/-- Each input is at its block (`before0_w`), so `sound_kernel0` applies; everything else is framed. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

def out1_3 (x0 : Vec F S5000x64 .f32) (x1 : Vec F S64x64 .f32) (x2 : Vec F S1x64 .f32) : Vec F S5000x64 .f32 :=
  View.canon [⟨rT1, k1_pay1 (View.ld x0 rT1) (View.ld x1 rW1) (View.ld x2 rB1)⟩]

theorem cover1_3 (p0 : Vec F S5000x64 .f32) (y : S5000x64.Idx) :
    ∃ pc ∈ ([⟨rT1, p0⟩] : List (View.Piece (Elt F) S5000x64 .f32)), y ∈ pc.1.set :=
  View.cover_of_tiled [⟨rT1, p0⟩] S5000x64.size (by rfl) y

set_option maxHeartbeats 1000000 in
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

/-- Each input is at its block (`before1_w`), so `sound_kernel1` applies; everything else is framed. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S5000x64 : Rect S5000x64 := Rect.unit (s := S5000x64) ![0, 0] S5000x64.size inb_S5000x64_S5000x64_0_0
abbrev r2_S5000x1 : Rect S5000x1 := Rect.unit (s := S5000x1) ![0, 0] S5000x1.size inb_S5000x1_S5000x1_0_0
abbrev r2_S64x64 : Rect S64x64 := Rect.unit (s := S64x64) ![0, 0] S64x64.size inb_S64x64_S64x64_0_0
abbrev r2_S1x64 : Rect S1x64 := Rect.unit (s := S1x64) ![0, 0] S1x64.size inb_S1x64_S1x64_0_0

def out2_7 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r2_S5000x64, k2_pay3 (View.ld x0 r2_S5000x64) (View.ld x1 r2_S5000x64) (View.ld x5 r2_S64x64) (View.ld x6 r2_S1x64) (View.ld x4 r2_S5000x1) (View.ld x2 r2_S5000x64)⟩]

theorem cover2_7 (p0 : Vec F S5000x64 .f32) (y : S5000x64.Idx) :
    ∃ pc ∈ ([⟨r2_S5000x64, p0⟩] : List (View.Piece (Elt F) S5000x64 .f32)), y ∈ pc.1.set :=
  View.cover_of_tiled [⟨r2_S5000x64, p0⟩] S5000x64.size (by rfl) y

def out2_8 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r2_S5000x64, k2_pay4 (View.ld x0 r2_S5000x64) (View.ld x1 r2_S5000x64) (View.ld x5 r2_S64x64) (View.ld x6 r2_S1x64) (View.ld x4 r2_S5000x1) (View.ld x3 r2_S5000x64)⟩]

theorem cover2_8 (p0 : Vec F S5000x64 .f32) (y : S5000x64.Idx) :
    ∃ pc ∈ ([⟨r2_S5000x64, p0⟩] : List (View.Piece (Elt F) S5000x64 .f32)), y ∈ pc.1.set :=
  View.cover_of_tiled [⟨r2_S5000x64, p0⟩] S5000x64.size (by rfl) y

set_option maxHeartbeats 4000000 in
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__message_kernel i arg1 harg1 arg2 harg2 arg3 harg3 arg4 harg4 arg5 harg5 arg6 harg6 arg7 harg7 arg8 harg8 arg9 harg9) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

/-- Each input is at its block (`before2_w`), so `sound_kernel2` applies; everything else is framed. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t)
        ∗ owns (c : Thread nD τ) (st2_6 t) fullShare ((dat2 V c).after 6 t)
        ∗ owns (c : Thread nD τ) (st2_7 t) fullShare ((dat2 V c).after 7 t)
        ∗ owns (c : Thread nD τ) (st2_8 t) fullShare ((dat2 V c).after 8 t))) := by
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  isplitl [H8]; · iexists _; iexact H8
  iintro ⟨H0, H1, H2, H3, H4, H5, H6, H7, H8⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S5000x64 : Rect S5000x64 := Rect.unit (s := S5000x64) ![0, 0] S5000x64.size inb_S5000x64_S5000x64_0_0

def out3_2 (x0 : Vec F S5000x64 .f32) (x1 : Vec F S5000x64 .f32) : Vec F S5000x64 .f32 :=
  View.canon [⟨r3_S5000x64, k3_pay1 (View.ld x0 r3_S5000x64) (View.ld x1 r3_S5000x64)⟩]

theorem cover3_2 (p0 : Vec F S5000x64 .f32) (y : S5000x64.Idx) :
    ∃ pc ∈ ([⟨r3_S5000x64, p0⟩] : List (View.Piece (Elt F) S5000x64 .f32)), y ∈ pc.1.set :=
  View.cover_of_tiled [⟨r3_S5000x64, p0⟩] S5000x64.size (by rfl) y

set_option maxHeartbeats 4000000 in
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__finalize_kernel i arg1 harg1 arg2 harg2 arg3 harg3) K := by
  simp only [cc3__finalize_kernel_eq_skeleton]; unfold cc3__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- Each input is at its block (`before3_w`), so `sound_kernel3` applies; everything else is framed. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t))) := by
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S5000x64 : Rect S5000x64 := Rect.unit (s := S5000x64) ![0, 0] S5000x64.size inb_S5000x64_S5000x64_0_0

def out4_2 (x0 : Vec F S5000x64 .f32) (x1 : Vec F S5000x64 .f32) : Vec F S5000x64 .f32 :=
  View.canon [⟨r4_S5000x64, k4_pay1 (View.ld x0 r4_S5000x64) (View.ld x1 r4_S5000x64)⟩]

theorem cover4_2 (p0 : Vec F S5000x64 .f32) (y : S5000x64.Idx) :
    ∃ pc ∈ ([⟨r4_S5000x64, p0⟩] : List (View.Piece (Elt F) S5000x64 .f32)), y ∈ pc.1.set :=
  View.cover_of_tiled [⟨r4_S5000x64, p0⟩] S5000x64.size (by rfl) y

set_option maxHeartbeats 4000000 in
theorem sound_kernel4 (c : Dev nD) (E : Set ℕ) (i : grid4.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__finalize_kernel i arg1 harg1 arg2 harg2 arg3 harg3) K := by
  simp only [cc4__finalize_kernel_eq_skeleton]; unfold cc4__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

/-- Each input is at its block (`before4_w`), so `sound_kernel4` applies; everything else is framed. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t))) := by
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rT5 : Rect S5000x64 := Rect.unit (s := S5000x64) ![0, 0] S5000x64.size inb_S5000x64_S5000x64_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0

def out5_3 (x0 : Vec F S5000x64 .f32) (x1 : Vec F S64x64 .f32) (x2 : Vec F S1x64 .f32) : Vec F S5000x64 .f32 :=
  View.canon [⟨rT5, k5_pay1 (View.ld x0 rT5) (View.ld x1 rW5) (View.ld x2 rB5)⟩]

theorem cover5_3 (p0 : Vec F S5000x64 .f32) (y : S5000x64.Idx) :
    ∃ pc ∈ ([⟨rT5, p0⟩] : List (View.Piece (Elt F) S5000x64 .f32)), y ∈ pc.1.set :=
  View.cover_of_tiled [⟨rT5, p0⟩] S5000x64.size (by rfl) y

set_option maxHeartbeats 1000000 in
theorem sound_kernel5 (c : Dev nD) (E : Set ℕ) (i : grid5.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

/-- Each input is at its block (`before5_w`), so `sound_kernel5` applies; everything else is framed. -/
theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)
        ∗ owns (c : Thread nD τ) (st5_3 t) fullShare ((dat5 V c).after 3 t))) := by
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  iframe H0 H1 H2
  isplitl [H3]; · iexists _; iexact H3
  iintro ⟨H0, H1, H2, H3⟩
  iframe

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rT6 : Rect S5000x64 := Rect.unit (s := S5000x64) ![0, 0] S5000x64.size inb_S5000x64_S5000x64_0_0
abbrev rW6 : Rect S64x64 := Rect.unit (s := S64x64) ![0, 0] S64x64.size inb_S64x64_S64x64_0_0
abbrev rB6 : Rect S1x64 := Rect.unit (s := S1x64) ![0, 0] S1x64.size inb_S1x64_S1x64_0_0

def out6_3 (x0 : Vec F S5000x64 .f32) (x1 : Vec F S64x64 .f32) (x2 : Vec F S1x64 .f32) : Vec F S5000x64 .f32 :=
  View.canon [⟨rT6, k6_pay1 (View.ld x0 rT6) (View.ld x1 rW6) (View.ld x2 rB6)⟩]

theorem cover6_3 (p0 : Vec F S5000x64 .f32) (y : S5000x64.Idx) :
    ∃ pc ∈ ([⟨rT6, p0⟩] : List (View.Piece (Elt F) S5000x64 .f32)), y ∈ pc.1.set :=
  View.cover_of_tiled [⟨rT6, p0⟩] S5000x64.size (by rfl) y

set_option maxHeartbeats 1000000 in
theorem sound_kernel6 (c : Dev nD) (E : Set ℕ) (i : grid6.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

/-- Each input is at its block (`before6_w`), so `sound_kernel6` applies; everything else is framed. -/
theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
    ⊢ wp frame (wpE (defs₀ (F := F)) Variants.none c none) Set.univ (bodyAt6 t) (fun _ =>
      iprop((dat6 V c).Φ t.succ ∗ (dat6 V c).owesAt () t.succ
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t)
        ∗ owns (c : Thread nD τ) (st6_3 t) fullShare ((dat6 V c).after 3 t))) := by
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  iframe H0 H1 H2
  isplitl [H3]; · iexists _; iexact H3
  iintro ⟨H0, H1, H2, H3⟩
  iframe

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_S5000x64 : Rect S5000x64 := Rect.unit (s := S5000x64) ![0, 0] S5000x64.size inb_S5000x64_S5000x64_0_0
abbrev r7_S5000x1 : Rect S5000x1 := Rect.unit (s := S5000x1) ![0, 0] S5000x1.size inb_S5000x1_S5000x1_0_0
abbrev r7_S64x64 : Rect S64x64 := Rect.unit (s := S64x64) ![0, 0] S64x64.size inb_S64x64_S64x64_0_0
abbrev r7_S1x64 : Rect S1x64 := Rect.unit (s := S1x64) ![0, 0] S1x64.size inb_S1x64_S1x64_0_0

def out7_7 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r7_S5000x64, k7_pay3 (View.ld x0 r7_S5000x64) (View.ld x1 r7_S5000x64) (View.ld x5 r7_S64x64) (View.ld x6 r7_S1x64) (View.ld x4 r7_S5000x1) (View.ld x2 r7_S5000x64)⟩]

theorem cover7_7 (p0 : Vec F S5000x64 .f32) (y : S5000x64.Idx) :
    ∃ pc ∈ ([⟨r7_S5000x64, p0⟩] : List (View.Piece (Elt F) S5000x64 .f32)), y ∈ pc.1.set :=
  View.cover_of_tiled [⟨r7_S5000x64, p0⟩] S5000x64.size (by rfl) y

def out7_8 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r7_S5000x64, k7_pay4 (View.ld x0 r7_S5000x64) (View.ld x1 r7_S5000x64) (View.ld x5 r7_S64x64) (View.ld x6 r7_S1x64) (View.ld x4 r7_S5000x1) (View.ld x3 r7_S5000x64)⟩]

theorem cover7_8 (p0 : Vec F S5000x64 .f32) (y : S5000x64.Idx) :
    ∃ pc ∈ ([⟨r7_S5000x64, p0⟩] : List (View.Piece (Elt F) S5000x64 .f32)), y ∈ pc.1.set :=
  View.cover_of_tiled [⟨r7_S5000x64, p0⟩] S5000x64.size (by rfl) y

set_option maxHeartbeats 4000000 in
theorem sound_kernel7 (c : Dev nD) (E : Set ℕ) (i : grid7.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7_7 x0 x1 x2 x3 x4 x5 x6) ∗ owns (c : Thread nD τ) arg9 fullShare (out7_8 x0 x1 x2 x3 x4 x5 x6)) -∗ K ⟨⟩))
      ⊢ wp frame (wpE (defs₀ (F := F)) Variants.none c none) E (cc7__message_kernel i arg1 harg1 arg2 harg2 arg3 harg3 arg4 harg4 arg5 harg5 arg6 harg6 arg7 harg7 arg8 harg8 arg9 harg9) K := by
  simp only [cc7__message_kernel_eq_skeleton]; unfold cc7__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7_7 _)
  iexists _; isplitr
  swap; · iexact H8
  ipureintro
  exact View.read_writes_eq_canon _ _ _ (cover7_8 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
    | ⟨8, _⟩ => out7_8 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) :
    (dat7 V c).after 7 t = out7_7 (iblk7 V c 0 t) (iblk7 V c 1 t) (iblk7 V c 2 t) (iblk7 V c 3 t) (iblk7 V c 4 t) (iblk7 V c 5 t) (iblk7 V c 6 t) := by dsimp only [dat7]
theorem after7_8 (c : Dev nD) (t : Fin cfg7.N) :
    (dat7 V c).after 8 t = out7_8 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d
theorem before7_5 (c : Dev nD) (t : Fin cfg7.N) (d) : (dat7 V c).before 5 t d = iblk7 V c 5 t :=
  (dat7 V c).before_in_eq_fetched 5 rfl (fun _ => rfl) (fun _ _ _ => rfl) (fun _ => rfl) t d
theorem before7_6 (c : Dev nD) (t : Fin cfg7.N) (d) : (dat7 V c).before 6 t d = iblk7 V c 6 t :=
  (dat7 V c).before_in_eq_fetched 6 rfl (fun _ => rfl) (fun _ _ _ => rfl) (fun _ => rfl) t d

/-- Each input is at its block (`before7_w`), so `sound_kernel7` applies; everything else is framed. -/
theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d))
      ∗ (∃ d, owns (c : Thread nD τ) (st7_6 t) fullShare ((dat7 V c).before 6 t d))
      ∗ (∃ d, owns (c : Thread nD τ) (st7_7 t) fullShare ((dat7 V c).before 7 t d))
      ∗ (∃ d, owns (c : Thread nD τ) (st7_8 t) fullShare ((dat7 V c).before 8 t d)))
    ⊢ wp frame (wpE (defs₀ (F := F)) Variants.none c none) Set.univ (bodyAt7 t) (fun _ =>
      iprop((dat7 V c).Φ t.succ ∗ (dat7 V c).owesAt () t.succ
        ∗ owns (c : Thread nD τ) (st7_0 t) fullShare ((dat7 V c).after 0 t)
        ∗ owns (c : Thread nD τ) (st7_1 t) fullShare ((dat7 V c).after 1 t)
        ∗ owns (c : Thread nD τ) (st7_2 t) fullShare ((dat7 V c).after 2 t)
        ∗ owns (c : Thread nD τ) (st7_3 t) fullShare ((dat7 V c).after 3 t)
        ∗ owns (c : Thread nD τ) (st7_4 t) fullShare ((dat7 V c).after 4 t)
        ∗ owns (c : Thread nD τ) (st7_5 t) fullShare ((dat7 V c).after 5 t)
        ∗ owns (c : Thread nD τ) (st7_6 t) fullShare ((dat7 V c).after 6 t)
        ∗ owns (c : Thread nD τ) (st7_7 t) fullShare ((dat7 V c).after 7 t)
        ∗ owns (c : Thread nD τ) (st7_8 t) fullShare ((dat7 V c).after 8 t))) := by
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  iframe H0 H1 H2 H3 H4 H5 H6
  isplitl [H7]; · iexists _; iexact H7
  isplitl [H8]; · iexists _; iexact H8
  iintro ⟨H0, H1, H2, H3, H4, H5, H6, H7, H8⟩
  iframe

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_S5000x64 : Rect S5000x64 := Rect.unit (s := S5000x64) ![0, 0] S5000x64.size inb_S5000x64_S5000x64_0_0

def out8_2 (x0 : Vec F S5000x64 .f32) (x1 : Vec F S5000x64 .f32) : Vec F S5000x64 .f32 :=
  View.canon [⟨r8_S5000x64, k8_pay1 (View.ld x0 r8_S5000x64) (View.ld x1 r8_S5000x64)⟩]

theorem cover8_2 (p0 : Vec F S5000x64 .f32) (y : S5000x64.Idx) :
    ∃ pc ∈ ([⟨r8_S5000x64, p0⟩] : List (View.Piece (Elt F) S5000x64 .f32)), y ∈ pc.1.set :=
  View.cover_of_tiled [⟨r8_S5000x64, p0⟩] S5000x64.size (by rfl) y

set_option maxHeartbeats 4000000 in
theorem sound_kernel8 (c : Dev nD) (E : Set ℕ) (i : grid8.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__finalize_kernel i arg1 harg1 arg2 harg2 arg3 harg3) K := by
  simp only [cc8__finalize_kernel_eq_skeleton]; unfold cc8__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (iblk8 V c 0 t) (iblk8 V c 1 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

/-- Each input is at its block (`before8_w`), so `sound_kernel8` applies; everything else is framed. -/
theorem sound_body8 (c : Dev nD) (t : Fin cfg8.N) :
    iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ owns (c : Thread nD τ) (st8_0 t) fullShare ((dat8 V c).after 0 t)
        ∗ owns (c : Thread nD τ) (st8_1 t) fullShare ((dat8 V c).after 1 t)
        ∗ owns (c : Thread nD τ) (st8_2 t) fullShare ((dat8 V c).after 2 t))) := by
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  iframe H0 H1
  isplitl [H2]; · iexists _; iexact H2
  iintro ⟨H0, H1, H2⟩
  iframe

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_S5000x64 : Rect S5000x64 := Rect.unit (s := S5000x64) ![0, 0] S5000x64.size inb_S5000x64_S5000x64_0_0

def out9_2 (x0 : Vec F S5000x64 .f32) (x1 : Vec F S5000x64 .f32) : Vec F S5000x64 .f32 :=
  View.canon [⟨r9_S5000x64, k9_pay1 (View.ld x0 r9_S5000x64) (View.ld x1 r9_S5000x64)⟩]

theorem cover9_2 (p0 : Vec F S5000x64 .f32) (y : S5000x64.Idx) :
    ∃ pc ∈ ([⟨r9_S5000x64, p0⟩] : List (View.Piece (Elt F) S5000x64 .f32)), y ∈ pc.1.set :=
  View.cover_of_tiled [⟨r9_S5000x64, p0⟩] S5000x64.size (by rfl) y

set_option maxHeartbeats 4000000 in
theorem sound_kernel9 (c : Dev nD) (E : Set ℕ) (i : grid9.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__finalize_kernel i arg1 harg1 arg2 harg2 arg3 harg3) K := by
  simp only [cc9__finalize_kernel_eq_skeleton]; unfold cc9__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d

/-- Each input is at its block (`before9_w`), so `sound_kernel9` applies; everything else is framed. -/
theorem sound_body9 (c : Dev nD) (t : Fin cfg9.N) :
    iprop((dat9 V c).Φ t.castSucc ∗ (dat9 V c).owesAt () t.castSucc
      ∗ (∃ d, owns (c : Thread nD τ) (st9_0 t) fullShare ((dat9 V c).before 0 t d))
      ∗ (∃ d, owns (c : Thread nD τ) (st9_1 t) fullShare ((dat9 V c).before 1 t d))
      ∗ (∃ d, owns (c : Thread nD τ) (st9_2 t) fullShare ((dat9 V c).before 2 t d)))
    ⊢ wp frame (wpE (defs₀ (F := F)) Variants.none c none) Set.univ (bodyAt9 t) (fun _ =>
      iprop((dat9 V c).Φ t.succ ∗ (dat9 V c).owesAt () t.succ
        ∗ owns (c : Thread nD τ) (st9_0 t) fullShare ((dat9 V c).after 0 t)
        ∗ owns (c : Thread nD τ) (st9_1 t) fullShare ((dat9 V c).after 1 t)
        ∗ owns (c : Thread nD τ) (st9_2 t) fullShare ((dat9 V c).after 2 t))) := by
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  iframe H0 H1
  isplitl [H2]; · iexists _; iexact H2
  iintro ⟨H0, H1, H2⟩
  iframe

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rT10 : Rect S5000x64 := Rect.unit (s := S5000x64) ![0, 0] S5000x64.size inb_S5000x64_S5000x64_0_0
abbrev rW10 : Rect S64x64 := Rect.unit (s := S64x64) ![0, 0] S64x64.size inb_S64x64_S64x64_0_0
abbrev rB10 : Rect S1x64 := Rect.unit (s := S1x64) ![0, 0] S1x64.size inb_S1x64_S1x64_0_0

def out10_3 (x0 : Vec F S5000x64 .f32) (x1 : Vec F S64x64 .f32) (x2 : Vec F S1x64 .f32) : Vec F S5000x64 .f32 :=
  View.canon [⟨rT10, k10_pay1 (View.ld x0 rT10) (View.ld x1 rW10) (View.ld x2 rB10)⟩]

theorem cover10_3 (p0 : Vec F S5000x64 .f32) (y : S5000x64.Idx) :
    ∃ pc ∈ ([⟨rT10, p0⟩] : List (View.Piece (Elt F) S5000x64 .f32)), y ∈ pc.1.set :=
  View.cover_of_tiled [⟨rT10, p0⟩] S5000x64.size (by rfl) y

set_option maxHeartbeats 1000000 in
theorem sound_kernel10 (c : Dev nD) (E : Set ℕ) (i : grid10.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d

/-- Each input is at its block (`before10_w`), so `sound_kernel10` applies; everything else is framed. -/
theorem sound_body10 (c : Dev nD) (t : Fin cfg10.N) :
    iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d))
      ∗ (∃ d, owns (c : Thread nD τ) (st10_3 t) fullShare ((dat10 V c).before 3 t d)))
    ⊢ wp frame (wpE (defs₀ (F := F)) Variants.none c none) Set.univ (bodyAt10 t) (fun _ =>
      iprop((dat10 V c).Φ t.succ ∗ (dat10 V c).owesAt () t.succ
        ∗ owns (c : Thread nD τ) (st10_0 t) fullShare ((dat10 V c).after 0 t)
        ∗ owns (c : Thread nD τ) (st10_1 t) fullShare ((dat10 V c).after 1 t)
        ∗ owns (c : Thread nD τ) (st10_2 t) fullShare ((dat10 V c).after 2 t)
        ∗ owns (c : Thread nD τ) (st10_3 t) fullShare ((dat10 V c).after 3 t))) := by
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  iframe H0 H1 H2
  isplitl [H3]; · iexists _; iexact H3
  iintro ⟨H0, H1, H2, H3⟩
  iframe

theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev rT11 : Rect S5000x64 := Rect.unit (s := S5000x64) ![0, 0] S5000x64.size inb_S5000x64_S5000x64_0_0
abbrev rW11 : Rect S64x64 := Rect.unit (s := S64x64) ![0, 0] S64x64.size inb_S64x64_S64x64_0_0
abbrev rB11 : Rect S1x64 := Rect.unit (s := S1x64) ![0, 0] S1x64.size inb_S1x64_S1x64_0_0

def out11_3 (x0 : Vec F S5000x64 .f32) (x1 : Vec F S64x64 .f32) (x2 : Vec F S1x64 .f32) : Vec F S5000x64 .f32 :=
  View.canon [⟨rT11, k11_pay1 (View.ld x0 rT11) (View.ld x1 rW11) (View.ld x2 rB11)⟩]

theorem cover11_3 (p0 : Vec F S5000x64 .f32) (y : S5000x64.Idx) :
    ∃ pc ∈ ([⟨rT11, p0⟩] : List (View.Piece (Elt F) S5000x64 .f32)), y ∈ pc.1.set :=
  View.cover_of_tiled [⟨rT11, p0⟩] S5000x64.size (by rfl) y

set_option maxHeartbeats 1000000 in
theorem sound_kernel11 (c : Dev nD) (E : Set ℕ) (i : grid11.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__linear_kernel i arg1 harg1 arg2 harg2 arg3 harg3 arg4 harg4) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  (dat11 V c).before_in_eq_fetched 0 rfl (fun _ => rfl) (fun _ _ _ => rfl) (fun _ => rfl) t d
theorem before11_1 (c : Dev nD) (t : Fin cfg11.N) (d) : (dat11 V c).before 1 t d = iblk11 V c 1 t :=
  (dat11 V c).before_in_eq_fetched 1 rfl (fun _ => rfl) (fun _ _ _ => rfl) (fun _ => rfl) t d
theorem before11_2 (c : Dev nD) (t : Fin cfg11.N) (d) : (dat11 V c).before 2 t d = iblk11 V c 2 t :=
  (dat11 V c).before_in_eq_fetched 2 rfl (fun _ => rfl) (fun _ _ _ => rfl) (fun _ => rfl) t d

/-- Each input is at its block (`before11_w`), so `sound_kernel11` applies; everything else is framed. -/
theorem sound_body11 (c : Dev nD) (t : Fin cfg11.N) :
    iprop((dat11 V c).Φ t.castSucc ∗ (dat11 V c).owesAt () t.castSucc
      ∗ (∃ d, owns (c : Thread nD τ) (st11_0 t) fullShare ((dat11 V c).before 0 t d))
      ∗ (∃ d, owns (c : Thread nD τ) (st11_1 t) fullShare ((dat11 V c).before 1 t d))
      ∗ (∃ d, owns (c : Thread nD τ) (st11_2 t) fullShare ((dat11 V c).before 2 t d))
      ∗ (∃ d, owns (c : Thread nD τ) (st11_3 t) fullShare ((dat11 V c).before 3 t d)))
    ⊢ wp frame (wpE (defs₀ (F := F)) Variants.none c none) Set.univ (bodyAt11 t) (fun _ =>
      iprop((dat11 V c).Φ t.succ ∗ (dat11 V c).owesAt () t.succ
        ∗ owns (c : Thread nD τ) (st11_0 t) fullShare ((dat11 V c).after 0 t)
        ∗ owns (c : Thread nD τ) (st11_1 t) fullShare ((dat11 V c).after 1 t)
        ∗ owns (c : Thread nD τ) (st11_2 t) fullShare ((dat11 V c).after 2 t)
        ∗ owns (c : Thread nD τ) (st11_3 t) fullShare ((dat11 V c).after 3 t))) := by
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  iframe H0 H1 H2
  isplitl [H3]; · iexists _; iexact H3
  iintro ⟨H0, H1, H2, H3⟩
  iframe

theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.R12.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_S5000x64 : Rect S5000x64 := Rect.unit (s := S5000x64) ![0, 0] S5000x64.size inb_S5000x64_S5000x64_0_0
abbrev r12_S5000x1 : Rect S5000x1 := Rect.unit (s := S5000x1) ![0, 0] S5000x1.size inb_S5000x1_S5000x1_0_0
abbrev r12_S64x64 : Rect S64x64 := Rect.unit (s := S64x64) ![0, 0] S64x64.size inb_S64x64_S64x64_0_0
abbrev r12_S1x64 : Rect S1x64 := Rect.unit (s := S1x64) ![0, 0] S1x64.size inb_S1x64_S1x64_0_0

def out12_7 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r12_S5000x64, k12_pay3 (View.ld x0 r12_S5000x64) (View.ld x1 r12_S5000x64) (View.ld x5 r12_S64x64) (View.ld x6 r12_S1x64) (View.ld x4 r12_S5000x1) (View.ld x2 r12_S5000x64)⟩]

theorem cover12_7 (p0 : Vec F S5000x64 .f32) (y : S5000x64.Idx) :
    ∃ pc ∈ ([⟨r12_S5000x64, p0⟩] : List (View.Piece (Elt F) S5000x64 .f32)), y ∈ pc.1.set :=
  View.cover_of_tiled [⟨r12_S5000x64, p0⟩] S5000x64.size (by rfl) y

def out12_8 (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) : Vec F S5000x64 .f32 :=
  View.canon [⟨r12_S5000x64, k12_pay4 (View.ld x0 r12_S5000x64) (View.ld x1 r12_S5000x64) (View.ld x5 r12_S64x64) (View.ld x6 r12_S1x64) (View.ld x4 r12_S5000x1) (View.ld x3 r12_S5000x64)⟩]

theorem cover12_8 (p0 : Vec F S5000x64 .f32) (y : S5000x64.Idx) :
    ∃ pc ∈ ([⟨r12_S5000x64, p0⟩] : List (View.Piece (Elt F) S5000x64 .f32)), y ∈ pc.1.set :=
  View.cover_of_tiled [⟨r12_S5000x64, p0⟩] S5000x64.size (by rfl) y

set_option maxHeartbeats 4000000 in
theorem sound_kernel12 (c : Dev nD) (E : Set ℕ) (i : grid12.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x0 : Vec F S5000x64 .f32) (x1 : Vec F S5000x64 .f32) (x2 : Vec F S5000x64 .f32) (x3 : Vec F S5000x64 .f32) (x4 : Vec F S5000x1 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out12_7 x0 x1 x2 x3 x4 x5 x6) ∗ owns (c : Thread nD τ) arg9 fullShare (out12_8 x0 x1 x2 x3 x4 x5 x6)) -∗ K ⟨⟩))
      ⊢ wp frame (wpE (defs₀ (F := F)) Variants.none c none) E (cc12__message_kernel i arg1 harg1 arg2 harg2 arg3 harg3 arg4 harg4 arg5 harg5 arg6 harg6 arg7 harg7 arg8 harg8 arg9 harg9) K := by
  simp only [cc12__message_kernel_eq_skeleton]; unfold cc12__message_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover12_7 _)
  iexists _; isplitr
  swap; · iexact H8
  ipureintro
  exact View.read_writes_eq_canon _ _ _ (cover12_8 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
    | ⟨8, _⟩ => out12_8 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) :
    (dat12 V c).after 7 t = out12_7 (iblk12 V c 0 t) (iblk12 V c 1 t) (iblk12 V c 2 t) (iblk12 V c 3 t) (iblk12 V c 4 t) (iblk12 V c 5 t) (iblk12 V c 6 t) := by dsimp only [dat12]
theorem after12_8 (c : Dev nD) (t : Fin cfg12.N) :
    (dat12 V c).after 8 t = out12_8 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d
theorem before12_2 (c : Dev nD) (t : Fin cfg12.N) (d) : (dat12 V c).before 2 t d = iblk12 V c 2 t :=
  (dat12 V c).before_in_eq_fetched 2 rfl (fun _ => rfl) (fun _ _ _ => rfl) (fun _ => rfl) t d
theorem before12_3 (c : Dev nD) (t : Fin cfg12.N) (d) : (dat12 V c).before 3 t d = iblk12 V c 3 t :=
  (dat12 V c).before_in_eq_fetched 3 rfl (fun _ => rfl) (fun _ _ _ => rfl) (fun _ => rfl) t d
theorem before12_4 (c : Dev nD) (t : Fin cfg12.N) (d) : (dat12 V c).before 4 t d = iblk12 V c 4 t :=
  (dat12 V c).before_in_eq_fetched 4 rfl (fun _ => rfl) (fun _ _ _ => rfl) (fun _ => rfl) t d
theorem before12_5 (c : Dev nD) (t : Fin cfg12.N) (d) : (dat12 V c).before 5 t d = iblk12 V c 5 t :=
  (dat12 V c).before_in_eq_fetched 5 rfl (fun _ => rfl) (fun _ _ _ => rfl) (fun _ => rfl) t d
theorem before12_6 (c : Dev nD) (t : Fin cfg12.N) (d) : (dat12 V c).before 6 t d = iblk12 V c 6 t :=
  (dat12 V c).before_in_eq_fetched 6 rfl (fun _ => rfl) (fun _ _ _ => rfl) (fun _ => rfl) t d

/-- Each input is at its block (`before12_w`), so `sound_kernel12` applies; everything else is framed. -/
theorem sound_body12 (c : Dev nD) (t : Fin cfg12.N) :
    iprop((dat12 V c).Φ t.castSucc ∗ (dat12 V c).owesAt () t.castSucc
      ∗ (∃ d, owns (c : Thread nD τ) (st12_0 t) fullShare ((dat12 V c).before 0 t d))
      ∗ (∃ d, owns (c : Thread nD τ) (st12_1 t) fullShare ((dat12 V c).before 1 t d))
      ∗ (∃ d, owns (c : Thread nD τ) (st12_2 t) fullShare ((dat12 V c).before 2 t d))
      ∗ (∃ d, owns (c : Thread nD τ) (st12_3 t) fullShare ((dat12 V c).before 3 t d))
      ∗ (∃ d, owns (c : Thread nD τ) (st12_4 t) fullShare ((dat12 V c).before 4 t d))
      ∗ (∃ d, owns (c : Thread nD τ) (st12_5 t) fullShare ((dat12 V c).before 5 t d))
      ∗ (∃ d, owns (c : Thread nD τ) (st12_6 t) fullShare ((dat12 V c).before 6 t d))
      ∗ (∃ d, owns (c : Thread nD τ) (st12_7 t) fullShare ((dat12 V c).before 7 t d))
      ∗ (∃ d, owns (c : Thread nD τ) (st12_8 t) fullShare ((dat12 V c).before 8 t d)))
    ⊢ wp frame (wpE (defs₀ (F := F)) Variants.none c none) Set.univ (bodyAt12 t) (fun _ =>
      iprop((dat12 V c).Φ t.succ ∗ (dat12 V c).owesAt () t.succ
        ∗ owns (c : Thread nD τ) (st12_0 t) fullShare ((dat12 V c).after 0 t)
        ∗ owns (c : Thread nD τ) (st12_1 t) fullShare ((dat12 V c).after 1 t)
        ∗ owns (c : Thread nD τ) (st12_2 t) fullShare ((dat12 V c).after 2 t)
        ∗ owns (c : Thread nD τ) (st12_3 t) fullShare ((dat12 V c).after 3 t)
        ∗ owns (c : Thread nD τ) (st12_4 t) fullShare ((dat12 V c).after 4 t)
        ∗ owns (c : Thread nD τ) (st12_5 t) fullShare ((dat12 V c).after 5 t)
        ∗ owns (c : Thread nD τ) (st12_6 t) fullShare ((dat12 V c).after 6 t)
        ∗ owns (c : Thread nD τ) (st12_7 t) fullShare ((dat12 V c).after 7 t)
        ∗ owns (c : Thread nD τ) (st12_8 t) fullShare ((dat12 V c).after 8 t))) := by
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel12 c Set.univ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  iframe H0 H1 H2 H3 H4 H5 H6
  isplitl [H7]; · iexists _; iexact H7
  isplitl [H8]; · iexists _; iexact H8
  iintro ⟨H0, H1, H2, H3, H4, H5, H6, H7, H8⟩
  iframe

theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.R13.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_S5000x64 : Rect S5000x64 := Rect.unit (s := S5000x64) ![0, 0] S5000x64.size inb_S5000x64_S5000x64_0_0

def out13_2 (x0 : Vec F S5000x64 .f32) (x1 : Vec F S5000x64 .f32) : Vec F S5000x64 .f32 :=
  View.canon [⟨r13_S5000x64, k13_pay1 (View.ld x0 r13_S5000x64) (View.ld x1 r13_S5000x64)⟩]

theorem cover13_2 (p0 : Vec F S5000x64 .f32) (y : S5000x64.Idx) :
    ∃ pc ∈ ([⟨r13_S5000x64, p0⟩] : List (View.Piece (Elt F) S5000x64 .f32)), y ∈ pc.1.set :=
  View.cover_of_tiled [⟨r13_S5000x64, p0⟩] S5000x64.size (by rfl) y

set_option maxHeartbeats 4000000 in
theorem sound_kernel13 (c : Dev nD) (E : Set ℕ) (i : grid13.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out13_2 x0 x1)) -∗ K ⟨⟩))
      ⊢ wp frame (wpE (defs₀ (F := F)) Variants.none c none) E (cc13__finalize_kernel i arg1 harg1 arg2 harg2 arg3 harg3) K := by
  simp only [cc13__finalize_kernel_eq_skeleton]; unfold cc13__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) :
    (dat13 V c).after 2 t = out13_2 (iblk13 V c 0 t) (iblk13 V c 1 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d

/-- Each input is at its block (`before13_w`), so `sound_kernel13` applies; everything else is framed. -/
theorem sound_body13 (c : Dev nD) (t : Fin cfg13.N) :
    iprop((dat13 V c).Φ t.castSucc ∗ (dat13 V c).owesAt () t.castSucc
      ∗ (∃ d, owns (c : Thread nD τ) (st13_0 t) fullShare ((dat13 V c).before 0 t d))
      ∗ (∃ d, owns (c : Thread nD τ) (st13_1 t) fullShare ((dat13 V c).before 1 t d))
      ∗ (∃ d, owns (c : Thread nD τ) (st13_2 t) fullShare ((dat13 V c).before 2 t d)))
    ⊢ wp frame (wpE (defs₀ (F := F)) Variants.none c none) Set.univ (bodyAt13 t) (fun _ =>
      iprop((dat13 V c).Φ t.succ ∗ (dat13 V c).owesAt () t.succ
        ∗ owns (c : Thread nD τ) (st13_0 t) fullShare ((dat13 V c).after 0 t)
        ∗ owns (c : Thread nD τ) (st13_1 t) fullShare ((dat13 V c).after 1 t)
        ∗ owns (c : Thread nD τ) (st13_2 t) fullShare ((dat13 V c).after 2 t))) := by
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  iframe H0 H1
  isplitl [H2]; · iexists _; iexact H2
  iintro ⟨H0, H1, H2⟩
  iframe

theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.R14.lean ====
import proofs.«431207_j9844065042802_4_alg».proof.Proof.Gen.KernelIdeal.Launch
import proofs.«431207_j9844065042802_4_alg».proof.Proof.Gen.KernelIdeal.Skeleton
import proofs.«431207_j9844065042802_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

abbrev r14_S5000x64 : Rect S5000x64 := Rect.unit (s := S5000x64) ![0, 0] S5000x64.size inb_S5000x64_S5000x64_0_0

def out14_2 (x0 : Vec F S5000x64 .f32) (x1 : Vec F S5000x64 .f32) : Vec F S5000x64 .f32 :=
  View.canon [⟨r14_S5000x64, k14_pay1 (View.ld x0 r14_S5000x64) (View.ld x1 r14_S5000x64)⟩]

theorem cover14_2 (p0 : Vec F S5000x64 .f32) (y : S5000x64.Idx) :
    ∃ pc ∈ ([⟨r14_S5000x64, p0⟩] : List (View.Piece (Elt F) S5000x64 .f32)), y ∈ pc.1.set :=
  View.cover_of_tiled [⟨r14_S5000x64, p0⟩] S5000x64.size (by rfl) y

set_option maxHeartbeats 4000000 in
theorem sound_kernel14 (c : Dev nD) (E : Set ℕ) (i : grid14.Coords)
    (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out14_2 x0 x1)) -∗ K ⟨⟩))
      ⊢ wp frame (wpE (defs₀ (F := F)) Variants.none c none) E (cc14__finalize_kernel i arg1 harg1 arg2 harg2 arg3 harg3) K := by
  simp only [cc14__finalize_kernel_eq_skeleton]; unfold cc14__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) :
    (dat14 V c).after 2 t = out14_2 (iblk14 V c 0 t) (iblk14 V c 1 t) := by dsimp only [dat14]

theorem before14_0 (c : Dev nD) (t : Fin cfg14.N) (d) : (dat14 V c).before 0 t d = iblk14 V c 0 t :=
  (dat14 V c).before_in_eq_fetched 0 rfl (fun _ => rfl) (fun _ _ _ => rfl) (fun _ => rfl) t d
theorem before14_1 (c : Dev nD) (t : Fin cfg14.N) (d) : (dat14 V c).before 1 t d = iblk14 V c 1 t :=
  (dat14 V c).before_in_eq_fetched 1 rfl (fun _ => rfl) (fun _ _ _ => rfl) (fun _ => rfl) t d

/-- Each input is at its block (`before14_w`), so `sound_kernel14` applies; everything else is framed. -/
theorem sound_body14 (c : Dev nD) (t : Fin cfg14.N) :
    iprop((dat14 V c).Φ t.castSucc ∗ (dat14 V c).owesAt () t.castSucc
      ∗ (∃ d, owns (c : Thread nD τ) (st14_0 t) fullShare ((dat14 V c).before 0 t d))
      ∗ (∃ d, owns (c : Thread nD τ) (st14_1 t) fullShare ((dat14 V c).before 1 t d))
      ∗ (∃ d, owns (c : Thread nD τ) (st14_2 t) fullShare ((dat14 V c).before 2 t d)))
    ⊢ wp frame (wpE (defs₀ (F := F)) Variants.none c none) Set.univ (bodyAt14 t) (fun _ =>
      iprop((dat14 V c).Φ t.succ ∗ (dat14 V c).owesAt () t.succ
        ∗ owns (c : Thread nD τ) (st14_0 t) fullShare ((dat14 V c).after 0 t)
        ∗ owns (c : Thread nD τ) (st14_1 t) fullShare ((dat14 V c).after 1 t)
        ∗ owns (c : Thread nD τ) (st14_2 t) fullShare ((dat14 V c).after 2 t))) := by
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  iframe H0 H1
  isplitl [H2]; · iexists _; iexact H2
  iintro ⟨H0, H1, H2⟩
  iframe

theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Chain.lean ====
import proofs.«431207_j9844065042802_4_alg».proof.Proof.KI.R0
import proofs.«431207_j9844065042802_4_alg».proof.Proof.KI.R1
import proofs.«431207_j9844065042802_4_alg».proof.Proof.KI.R2
import proofs.«431207_j9844065042802_4_alg».proof.Proof.KI.R3
import proofs.«431207_j9844065042802_4_alg».proof.Proof.KI.R4
import proofs.«431207_j9844065042802_4_alg».proof.Proof.KI.R5
import proofs.«431207_j9844065042802_4_alg».proof.Proof.KI.R6
import proofs.«431207_j9844065042802_4_alg».proof.Proof.KI.R7
import proofs.«431207_j9844065042802_4_alg».proof.Proof.KI.R8
import proofs.«431207_j9844065042802_4_alg».proof.Proof.KI.R9
import proofs.«431207_j9844065042802_4_alg».proof.Proof.KI.R10
import proofs.«431207_j9844065042802_4_alg».proof.Proof.KI.R11
import proofs.«431207_j9844065042802_4_alg».proof.Proof.KI.R12
import proofs.«431207_j9844065042802_4_alg».proof.Proof.KI.R13
import proofs.«431207_j9844065042802_4_alg».proof.Proof.KI.R14
import proofs.«431207_j9844065042802_4_alg».proof.Proof.Gen.KernelIdeal.Regions

noncomputable section

namespace Cert.KernelIdeal.Hand

open Idealize.ShloMosaic Idealize.ShloMosaic.TcCoe
open Idealize.SL Idealize.SL.RA
open Idealize.ShloMosaic.Pipeline (Dat)
open Cert.KernelIdeal Cert.KernelIdeal.Gen

section Upd

variable {ι α : Type} [DecidableEq α] {β : α → Type} (ref : ι → α) (val : ∀ o, β (ref o))

/-- `X` overwritten at `ref o` by `val o` for every `o` of the list, the list's head last. -/
def updAt (os : List ι) (X : ∀ a, β a) : ∀ a, β a := os.foldr (fun o Y => Function.update Y (ref o) (val o)) X

-- away from the list's references nothing is overwritten
theorem updAt_of_ne {X : ∀ a, β a} {b : α} : ∀ {os : List ι}, (∀ o ∈ os, b ≠ ref o) → updAt ref val os X b = X b
  | [], _ => rfl
  | o :: _, h => (Function.update_of_ne (h o List.mem_cons_self) _ _).trans
      (updAt_of_ne fun o' ho' => h o' (List.mem_cons_of_mem _ ho'))

-- distinct indices name distinct references, so a later overwrite leaves an earlier one alone
theorem updAt_of_mem (hinj : Function.Injective ref) {X : ∀ a, β a} {o : ι} :
    ∀ {os : List ι}, o ∈ os → updAt ref val os X (ref o) = val o
  | o' :: os, h => by
    by_cases e : o = o'
    · subst e; exact Function.update_self ..
    · exact (Function.update_of_ne (hinj.ne e) _ _).trans (updAt_of_mem hinj ((List.mem_cons.1 h).resolve_left e))

-- refilling the overwritten references from the overwritten function itself gives that function back
theorem update_refill {X Y X' : ∀ a, β a} {r : α} {v : β r} (h : Y = X) (hX' : X' = Function.update X r v) :
    Function.update Y r (X' r) = X' := by
  subst h hX'; rw [Function.update_self]

theorem update_refill₂ {X Y X' : ∀ a, β a} {r₁ r₂ : α} {v₁ : β r₁} {v₂ : β r₂} (h : Y = X)
    (hX' : X' = Function.update (Function.update X r₁ v₁) r₂ v₂) (hne : r₁ ≠ r₂) :
    Function.update (Function.update Y r₁ (X' r₁)) r₂ (X' r₂) = X' := by
  subst h hX'; rw [Function.update_self, Function.update_of_ne hne, Function.update_self]

end Upd

variable {F : FTy → Type} [FloatOps F]

section Exit

variable (cfg : Pipeline.Cfg sig Λ₀)

/-- Window `w`'s array, as a device buffer. -/
abbrev arrDev (w : Fin cfg.W) : DevRef τ sig := Proc.devRef .tc (Pipeline.arrRef cfg.spec w)

variable {cfg} {c : Dev nD} (dat : Dat τ (Elt F) Unit ℕ (UR sig nD τ) ℕ cfg c) (os : List (Fin cfg.W)) (X : Valuation τ sig (Elt F))

/-- The buffers after a launch entered at `X`: as `X`, but the arrays of the windows `os` at their final contents. -/
def exitOf : Valuation τ sig (Elt F) := updAt (arrDev cfg) (fun w => dat.arrAt w cfg.N) os X

-- an input window's array keeps its entry contents and is no result's array; a result's array is the one overwritten
theorem arrAt_eq_exitOf (hA : ∀ w, dat.A w = X (arrDev cfg w)) (hin : ∀ w, w ∉ os → (cfg.win w).isOut = false)
    (hinj : Function.Injective (Pipeline.arrRef cfg.spec)) (w : Fin cfg.W) : dat.arrAt w cfg.N = exitOf dat os X (arrDev cfg w) := by
  by_cases h : w ∈ os
  · exact (updAt_of_mem (β := fun b : DevRef τ sig => b.ty.Contents (Elt F)) (arrDev cfg) (fun w => dat.arrAt w cfg.N)
      ((Proc.devRef_injective .tc).comp hinj) h).symm
  · exact ((dat.arrAt_in w (hin w h) _).trans (hA w)).trans
      (updAt_of_ne _ _ fun o ho => StableHlo.devRef_ne_of_ne (hinj.ne (ne_of_mem_of_not_mem ho h).symm)).symm

theorem exitOf_rest (b : Ref sig .tc) (hb : b ∉ Finset.univ.image (Pipeline.arrRef cfg.spec)) : exitOf dat os X b = X b :=
  updAt_of_ne _ _ fun o _ => StableHlo.devRef_ne_of_ne fun e => hb (Finset.mem_image.mpr ⟨o, Finset.mem_univ _, e.symm⟩)

end Exit

variable (m : (ℓ : Loc nD τ sig) → Buf (Elt F) ℓ)

abbrev atTc (X : Dev nD → Valuation τ sig (Elt F)) : (c : Dev nD) → (b : Ref sig .tc) → Buf (Elt F) ((c : Thread nD τ).loc b) :=
  fun c b => X c b

def X1 (c : Dev nD) : Valuation τ sig (Elt F) := StableHlo.after hostOps0 (V0 m c)
def X2 (c : Dev nD) : Valuation τ sig (Elt F) :=
  Function.update (X1 m c) main_v34 ((dat0 (atTc (X1 m)) c).arrAt 3 cfg0.N)
def X3 (c : Dev nD) : Valuation τ sig (Elt F) := StableHlo.after hostOps1 (X2 m c)
def X4 (c : Dev nD) : Valuation τ sig (Elt F) :=
  Function.update (X3 m c) main_v36 ((dat1 (atTc (X3 m)) c).arrAt 3 cfg1.N)
def X5 (c : Dev nD) : Valuation τ sig (Elt F) := StableHlo.after hostOps2 (X4 m c)
def X6 (c : Dev nD) : Valuation τ sig (Elt F) :=
  Function.update (Function.update (X5 m c) main_v66_0 ((dat2 (atTc (X5 m)) c).arrAt 7 cfg2.N)) main_v66_1 ((dat2 (atTc (X5 m)) c).arrAt 8 cfg2.N)
def X7 (c : Dev nD) : Valuation τ sig (Elt F) := StableHlo.after hostOps3 (X6 m c)
def X8 (c : Dev nD) : Valuation τ sig (Elt F) :=
  Function.update (X7 m c) main_v73 ((dat3 (atTc (X7 m)) c).arrAt 2 cfg3.N)
def X9 (c : Dev nD) : Valuation τ sig (Elt F) :=
  Function.update (X8 m c) main_v74 ((dat4 (atTc (X8 m)) c).arrAt 2 cfg4.N)
def X10 (c : Dev nD) : Valuation τ sig (Elt F) := StableHlo.after hostOps5 (X9 m c)
def X11 (c : Dev nD) : Valuation τ sig (Elt F) :=
  Function.update (X10 m c) main_v84 ((dat5 (atTc (X10 m)) c).arrAt 3 cfg5.N)
def X12 (c : Dev nD) : Valuation τ sig (Elt F) := StableHlo.after hostOps6 (X11 m c)
def X13 (c : Dev nD) : Valuation τ sig (Elt F) :=
  Function.update (X12 m c) main_v86 ((dat6 (atTc (X12 m)) c).arrAt 3 cfg6.N)
def X14 (c : Dev nD) : Valuation τ sig (Elt F) := StableHlo.after hostOps7 (X13 m c)
def X15 (c : Dev nD) : Valuation τ sig (Elt F) :=
  Function.update (Function.update (X14 m c) main_v116_0 ((dat7 (atTc (X14 m)) c).arrAt 7 cfg7.N)) main_v116_1 ((dat7 (atTc (X14 m)) c).arrAt 8 cfg7.N)
def X16 (c : Dev nD) : Valuation τ sig (Elt F) := StableHlo.after hostOps8 (X15 m c)
def X17 (c : Dev nD) : Valuation τ sig (Elt F) :=
  Function.update (X16 m c) main_v123 ((dat8 (atTc (X16 m)) c).arrAt 2 cfg8.N)
def X18 (c : Dev nD) : Valuation τ sig (Elt F) :=
  Function.update (X17 m c) main_v124 ((dat9 (atTc (X17 m)) c).arrAt 2 cfg9.N)
def X19 (c : Dev nD) : Valuation τ sig (Elt F) := StableHlo.after hostOps10 (X18 m c)
def X20 (c : Dev nD) : Valuation τ sig (Elt F) :=
  Function.update (X19 m c) main_v134 ((dat10 (atTc (X19 m)) c).arrAt 3 cfg10.N)
def X21 (c : Dev nD) : Valuation τ sig (Elt F) := StableHlo.after hostOps11 (X20 m c)
def X22 (c : Dev nD) : Valuation τ sig (Elt F) :=
  Function.update (X21 m c) main_v136 ((dat11 (atTc (X21 m)) c).arrAt 3 cfg11.N)
def X23 (c : Dev nD) : Valuation τ sig (Elt F) := StableHlo.after hostOps12 (X22 m c)
def X24 (c : Dev nD) : Valuation τ sig (Elt F) :=
  Function.update (Function.update (X23 m c) main_v166_0 ((dat12 (atTc (X23 m)) c).arrAt 7 cfg12.N)) main_v166_1 ((dat12 (atTc (X23 m)) c).arrAt 8 cfg12.N)
def X25 (c : Dev nD) : Valuation τ sig (Elt F) := StableHlo.after hostOps13 (X24 m c)
def X26 (c : Dev nD) : Valuation τ sig (Elt F) :=
  Function.update (X25 m c) main_v173 ((dat13 (atTc (X25 m)) c).arrAt 2 cfg13.N)
def X27 (c : Dev nD) : Valuation τ sig (Elt F) :=
  Function.update (X26 m c) main_v174 ((dat14 (atTc (X26 m)) c).arrAt 2 cfg14.N)
def X28 (c : Dev nD) : Valuation τ sig (Elt F) := StableHlo.after hostOps15 (X27 m c)

def outs : Outs (F := F) := fun J r c => match J with
  | 2 => X2 m c r
  | 4 => X4 m c r
  | 6 => X6 m c r
  | 8 => X8 m c r
  | 9 => X9 m c r
  | 11 => X11 m c r
  | 13 => X13 m c r
  | 15 => X15 m c r
  | 17 => X17 m c r
  | 18 => X18 m c r
  | 20 => X20 m c r
  | 22 => X22 m c r
  | 24 => X24 m c r
  | 26 => X26 m c r
  | 27 => X27 m c r
  | _ => V0 m c r

theorem V1_eq (c : Dev nD) : V1 m c = X1 m c := rfl
theorem V2_eq (c : Dev nD) : V2 m (outs m) c = X2 m c := update_refill (X' := X2 m c) (V1_eq m c) rfl
theorem V3_eq (c : Dev nD) : V3 m (outs m) c = X3 m c := congrArg (StableHlo.after hostOps1) (V2_eq m c)
theorem V4_eq (c : Dev nD) : V4 m (outs m) c = X4 m c := update_refill (X' := X4 m c) (V3_eq m c) rfl
theorem V5_eq (c : Dev nD) : V5 m (outs m) c = X5 m c := congrArg (StableHlo.after hostOps2) (V4_eq m c)
theorem V6_eq (c : Dev nD) : V6 m (outs m) c = X6 m c := update_refill₂ (X' := X6 m c) (V5_eq m c) rfl (StableHlo.devRef_ne_of_ne (by decide))
theorem V7_eq (c : Dev nD) : V7 m (outs m) c = X7 m c := congrArg (StableHlo.after hostOps3) (V6_eq m c)
theorem V8_eq (c : Dev nD) : V8 m (outs m) c = X8 m c := update_refill (X' := X8 m c) (V7_eq m c) rfl
theorem V9_eq (c : Dev nD) : V9 m (outs m) c = X9 m c := update_refill (X' := X9 m c) (V8_eq m c) rfl
theorem V10_eq (c : Dev nD) : V10 m (outs m) c = X10 m c := congrArg (StableHlo.after hostOps5) (V9_eq m c)
theorem V11_eq (c : Dev nD) : V11 m (outs m) c = X11 m c := update_refill (X' := X11 m c) (V10_eq m c) rfl
theorem V12_eq (c : Dev nD) : V12 m (outs m) c = X12 m c := congrArg (StableHlo.after hostOps6) (V11_eq m c)
theorem V13_eq (c : Dev nD) : V13 m (outs m) c = X13 m c := update_refill (X' := X13 m c) (V12_eq m c) rfl
theorem V14_eq (c : Dev nD) : V14 m (outs m) c = X14 m c := congrArg (StableHlo.after hostOps7) (V13_eq m c)
theorem V15_eq (c : Dev nD) : V15 m (outs m) c = X15 m c := update_refill₂ (X' := X15 m c) (V14_eq m c) rfl (StableHlo.devRef_ne_of_ne (by decide))
theorem V16_eq (c : Dev nD) : V16 m (outs m) c = X16 m c := congrArg (StableHlo.after hostOps8) (V15_eq m c)
theorem V17_eq (c : Dev nD) : V17 m (outs m) c = X17 m c := update_refill (X' := X17 m c) (V16_eq m c) rfl
theorem V18_eq (c : Dev nD) : V18 m (outs m) c = X18 m c := update_refill (X' := X18 m c) (V17_eq m c) rfl
theorem V19_eq (c : Dev nD) : V19 m (outs m) c = X19 m c := congrArg (StableHlo.after hostOps10) (V18_eq m c)
theorem V20_eq (c : Dev nD) : V20 m (outs m) c = X20 m c := update_refill (X' := X20 m c) (V19_eq m c) rfl
theorem V21_eq (c : Dev nD) : V21 m (outs m) c = X21 m c := congrArg (StableHlo.after hostOps11) (V20_eq m c)
theorem V22_eq (c : Dev nD) : V22 m (outs m) c = X22 m c := update_refill (X' := X22 m c) (V21_eq m c) rfl
theorem V23_eq (c : Dev nD) : V23 m (outs m) c = X23 m c := congrArg (StableHlo.after hostOps12) (V22_eq m c)
theorem V24_eq (c : Dev nD) : V24 m (outs m) c = X24 m c := update_refill₂ (X' := X24 m c) (V23_eq m c) rfl (StableHlo.devRef_ne_of_ne (by decide))
theorem V25_eq (c : Dev nD) : V25 m (outs m) c = X25 m c := congrArg (StableHlo.after hostOps13) (V24_eq m c)
theorem V26_eq (c : Dev nD) : V26 m (outs m) c = X26 m c := update_refill (X' := X26 m c) (V25_eq m c) rfl
theorem V27_eq (c : Dev nD) : V27 m (outs m) c = X27 m c := update_refill (X' := X27 m c) (V26_eq m c) rfl
theorem V28_eq (c : Dev nD) : V28 m (outs m) c = X28 m c := congrArg (StableHlo.after hostOps15) (V27_eq m c)

theorem hF0 (c : Dev nD) : ∀ w : Fin 4, (dat0 (atTc (X1 m)) c).arrAt w cfg0.N = atTc (X2 m) c (Pipeline.arrRef spec0 w) :=
  arrAt_eq_exitOf (dat0 (atTc (X1 m)) c) [3] (X1 m c) (A_eq0 _ c)
    (show ∀ w : Fin 4, w ∉ [3] → (spec0 w).isOut = false by decide) winFacts0.arr_inj
theorem hrest0 (c : Dev nD) : ∀ b, b ∉ Finset.univ.image (Pipeline.arrRef spec0) → atTc (X2 m) c b = atTc (X1 m) c b :=
  exitOf_rest (dat0 (atTc (X1 m)) c) [3] (X1 m c)
theorem hF1 (c : Dev nD) : ∀ w : Fin 4, (dat1 (atTc (X3 m)) c).arrAt w cfg1.N = atTc (X4 m) c (Pipeline.arrRef spec1 w) :=
  arrAt_eq_exitOf (dat1 (atTc (X3 m)) c) [3] (X3 m c) (A_eq1 _ c)
    (show ∀ w : Fin 4, w ∉ [3] → (spec1 w).isOut = false by decide) winFacts1.arr_inj
theorem hrest1 (c : Dev nD) : ∀ b, b ∉ Finset.univ.image (Pipeline.arrRef spec1) → atTc (X4 m) c b = atTc (X3 m) c b :=
  exitOf_rest (dat1 (atTc (X3 m)) c) [3] (X3 m c)
theorem hF2 (c : Dev nD) : ∀ w : Fin 9, (dat2 (atTc (X5 m)) c).arrAt w cfg2.N = atTc (X6 m) c (Pipeline.arrRef spec2 w) :=
  arrAt_eq_exitOf (dat2 (atTc (X5 m)) c) [8, 7] (X5 m c) (A_eq2 _ c)
    (show ∀ w : Fin 9, w ∉ [8, 7] → (spec2 w).isOut = false by decide) winFacts2.arr_inj
theorem hrest2 (c : Dev nD) : ∀ b, b ∉ Finset.univ.image (Pipeline.arrRef spec2) → atTc (X6 m) c b = atTc (X5 m) c b :=
  exitOf_rest (dat2 (atTc (X5 m)) c) [8, 7] (X5 m c)
theorem hF3 (c : Dev nD) : ∀ w : Fin 3, (dat3 (atTc (X7 m)) c).arrAt w cfg3.N = atTc (X8 m) c (Pipeline.arrRef spec3 w) :=
  arrAt_eq_exitOf (dat3 (atTc (X7 m)) c) [2] (X7 m c) (A_eq3 _ c)
    (show ∀ w : Fin 3, w ∉ [2] → (spec3 w).isOut = false by decide) winFacts3.arr_inj
theorem hrest3 (c : Dev nD) : ∀ b, b ∉ Finset.univ.image (Pipeline.arrRef spec3) → atTc (X8 m) c b = atTc (X7 m) c b :=
  exitOf_rest (dat3 (atTc (X7 m)) c) [2] (X7 m c)
theorem hF4 (c : Dev nD) : ∀ w : Fin 3, (dat4 (atTc (X8 m)) c).arrAt w cfg4.N = atTc (X9 m) c (Pipeline.arrRef spec4 w) :=
  arrAt_eq_exitOf (dat4 (atTc (X8 m)) c) [2] (X8 m c) (A_eq4 _ c)
    (show ∀ w : Fin 3, w ∉ [2] → (spec4 w).isOut = false by decide) winFacts4.arr_inj
theorem hrest4 (c : Dev nD) : ∀ b, b ∉ Finset.univ.image (Pipeline.arrRef spec4) → atTc (X9 m) c b = atTc (X8 m) c b :=
  exitOf_rest (dat4 (atTc (X8 m)) c) [2] (X8 m c)
theorem hF5 (c : Dev nD) : ∀ w : Fin 4, (dat5 (atTc (X10 m)) c).arrAt w cfg5.N = atTc (X11 m) c (Pipeline.arrRef spec5 w) :=
  arrAt_eq_exitOf (dat5 (atTc (X10 m)) c) [3] (X10 m c) (A_eq5 _ c)
    (show ∀ w : Fin 4, w ∉ [3] → (spec5 w).isOut = false by decide) winFacts5.arr_inj
theorem hrest5 (c : Dev nD) : ∀ b, b ∉ Finset.univ.image (Pipeline.arrRef spec5) → atTc (X11 m) c b = atTc (X10 m) c b :=
  exitOf_rest (dat5 (atTc (X10 m)) c) [3] (X10 m c)
theorem hF6 (c : Dev nD) : ∀ w : Fin 4, (dat6 (atTc (X12 m)) c).arrAt w cfg6.N = atTc (X13 m) c (Pipeline.arrRef spec6 w) :=
  arrAt_eq_exitOf (dat6 (atTc (X12 m)) c) [3] (X12 m c) (A_eq6 _ c)
    (show ∀ w : Fin 4, w ∉ [3] → (spec6 w).isOut = false by decide) winFacts6.arr_inj
theorem hrest6 (c : Dev nD) : ∀ b, b ∉ Finset.univ.image (Pipeline.arrRef spec6) → atTc (X13 m) c b = atTc (X12 m) c b :=
  exitOf_rest (dat6 (atTc (X12 m)) c) [3] (X12 m c)
theorem hF7 (c : Dev nD) : ∀ w : Fin 9, (dat7 (atTc (X14 m)) c).arrAt w cfg7.N = atTc (X15 m) c (Pipeline.arrRef spec7 w) :=
  arrAt_eq_exitOf (dat7 (atTc (X14 m)) c) [8, 7] (X14 m c) (A_eq7 _ c)
    (show ∀ w : Fin 9, w ∉ [8, 7] → (spec7 w).isOut = false by decide) winFacts7.arr_inj
theorem hrest7 (c : Dev nD) : ∀ b, b ∉ Finset.univ.image (Pipeline.arrRef spec7) → atTc (X15 m) c b = atTc (X14 m) c b :=
  exitOf_rest (dat7 (atTc (X14 m)) c) [8, 7] (X14 m c)
theorem hF8 (c : Dev nD) : ∀ w : Fin 3, (dat8 (atTc (X16 m)) c).arrAt w cfg8.N = atTc (X17 m) c (Pipeline.arrRef spec8 w) :=
  arrAt_eq_exitOf (dat8 (atTc (X16 m)) c) [2] (X16 m c) (A_eq8 _ c)
    (show ∀ w : Fin 3, w ∉ [2] → (spec8 w).isOut = false by decide) winFacts8.arr_inj
theorem hrest8 (c : Dev nD) : ∀ b, b ∉ Finset.univ.image (Pipeline.arrRef spec8) → atTc (X17 m) c b = atTc (X16 m) c b :=
  exitOf_rest (dat8 (atTc (X16 m)) c) [2] (X16 m c)
theorem hF9 (c : Dev nD) : ∀ w : Fin 3, (dat9 (atTc (X17 m)) c).arrAt w cfg9.N = atTc (X18 m) c (Pipeline.arrRef spec9 w) :=
  arrAt_eq_exitOf (dat9 (atTc (X17 m)) c) [2] (X17 m c) (A_eq9 _ c)
    (show ∀ w : Fin 3, w ∉ [2] → (spec9 w).isOut = false by decide) winFacts9.arr_inj
theorem hrest9 (c : Dev nD) : ∀ b, b ∉ Finset.univ.image (Pipeline.arrRef spec9) → atTc (X18 m) c b = atTc (X17 m) c b :=
  exitOf_rest (dat9 (atTc (X17 m)) c) [2] (X17 m c)
theorem hF10 (c : Dev nD) : ∀ w : Fin 4, (dat10 (atTc (X19 m)) c).arrAt w cfg10.N = atTc (X20 m) c (Pipeline.arrRef spec10 w) :=
  arrAt_eq_exitOf (dat10 (atTc (X19 m)) c) [3] (X19 m c) (A_eq10 _ c)
    (show ∀ w : Fin 4, w ∉ [3] → (spec10 w).isOut = false by decide) winFacts10.arr_inj
theorem hrest10 (c : Dev nD) : ∀ b, b ∉ Finset.univ.image (Pipeline.arrRef spec10) → atTc (X20 m) c b = atTc (X19 m) c b :=
  exitOf_rest (dat10 (atTc (X19 m)) c) [3] (X19 m c)
theorem hF11 (c : Dev nD) : ∀ w : Fin 4, (dat11 (atTc (X21 m)) c).arrAt w cfg11.N = atTc (X22 m) c (Pipeline.arrRef spec11 w) :=
  arrAt_eq_exitOf (dat11 (atTc (X21 m)) c) [3] (X21 m c) (A_eq11 _ c)
    (show ∀ w : Fin 4, w ∉ [3] → (spec11 w).isOut = false by decide) winFacts11.arr_inj
theorem hrest11 (c : Dev nD) : ∀ b, b ∉ Finset.univ.image (Pipeline.arrRef spec11) → atTc (X22 m) c b = atTc (X21 m) c b :=
  exitOf_rest (dat11 (atTc (X21 m)) c) [3] (X21 m c)
theorem hF12 (c : Dev nD) : ∀ w : Fin 9, (dat12 (atTc (X23 m)) c).arrAt w cfg12.N = atTc (X24 m) c (Pipeline.arrRef spec12 w) :=
  arrAt_eq_exitOf (dat12 (atTc (X23 m)) c) [8, 7] (X23 m c) (A_eq12 _ c)
    (show ∀ w : Fin 9, w ∉ [8, 7] → (spec12 w).isOut = false by decide) winFacts12.arr_inj
theorem hrest12 (c : Dev nD) : ∀ b, b ∉ Finset.univ.image (Pipeline.arrRef spec12) → atTc (X24 m) c b = atTc (X23 m) c b :=
  exitOf_rest (dat12 (atTc (X23 m)) c) [8, 7] (X23 m c)
theorem hF13 (c : Dev nD) : ∀ w : Fin 3, (dat13 (atTc (X25 m)) c).arrAt w cfg13.N = atTc (X26 m) c (Pipeline.arrRef spec13 w) :=
  arrAt_eq_exitOf (dat13 (atTc (X25 m)) c) [2] (X25 m c) (A_eq13 _ c)
    (show ∀ w : Fin 3, w ∉ [2] → (spec13 w).isOut = false by decide) winFacts13.arr_inj
theorem hrest13 (c : Dev nD) : ∀ b, b ∉ Finset.univ.image (Pipeline.arrRef spec13) → atTc (X26 m) c b = atTc (X25 m) c b :=
  exitOf_rest (dat13 (atTc (X25 m)) c) [2] (X25 m c)
theorem hF14 (c : Dev nD) : ∀ w : Fin 3, (dat14 (atTc (X26 m)) c).arrAt w cfg14.N = atTc (X27 m) c (Pipeline.arrRef spec14 w) :=
  arrAt_eq_exitOf (dat14 (atTc (X26 m)) c) [2] (X26 m c) (A_eq14 _ c)
    (show ∀ w : Fin 3, w ∉ [2] → (spec14 w).isOut = false by decide) winFacts14.arr_inj
theorem hrest14 (c : Dev nD) : ∀ b, b ∉ Finset.univ.image (Pipeline.arrRef spec14) → atTc (X27 m) c b = atTc (X26 m) c b :=
  exitOf_rest (dat14 (atTc (X26 m)) c) [2] (X26 m c)

def pdats : (p : Fin 15) → (c : Dev nD) → Dat τ (Elt F) Unit ℕ (UR sig nD τ) ℕ (cfgs p) c
  | ⟨0, _⟩ => fun c => dat0 (atTc (X1 m)) c
  | ⟨1, _⟩ => fun c => dat1 (atTc (X3 m)) c
  | ⟨2, _⟩ => fun c => dat2 (atTc (X5 m)) c
  | ⟨3, _⟩ => fun c => dat3 (atTc (X7 m)) c
  | ⟨4, _⟩ => fun c => dat4 (atTc (X8 m)) c
  | ⟨5, _⟩ => fun c => dat5 (atTc (X10 m)) c
  | ⟨6, _⟩ => fun c => dat6 (atTc (X12 m)) c
  | ⟨7, _⟩ => fun c => dat7 (atTc (X14 m)) c
  | ⟨8, _⟩ => fun c => dat8 (atTc (X16 m)) c
  | ⟨9, _⟩ => fun c => dat9 (atTc (X17 m)) c
  | ⟨10, _⟩ => fun c => dat10 (atTc (X19 m)) c
  | ⟨11, _⟩ => fun c => dat11 (atTc (X21 m)) c
  | ⟨12, _⟩ => fun c => dat12 (atTc (X23 m)) c
  | ⟨13, _⟩ => fun c => dat13 (atTc (X25 m)) c
  | ⟨14, _⟩ => fun c => dat14 (atTc (X26 m)) c

end Cert.KernelIdeal.Hand

end
-- ==== Proof.KI.Rest.lean ====
import proofs.«431207_j9844065042802_4_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱n : Variants := Variants.none
abbrev Ln : GSem nD τ sig → Finset Unit := fun _ => ∅
abbrev lvn : GSem nD τ sig → Unit → ℕ := fun _ _ => 0
abbrev Rest (c : Dev nD) : sProp 𝕄 := iprop((∃ r, prngReg c r) ∗ ∃ W, owes (c : Thread nD τ) (0 : CellTallies nD τ sig Unit) W)

end Cert.KernelIdeal.Hand

end
-- ==== Proof.KI.Segs.lean ====
import proofs.«431207_j9844065042802_4_alg».proof.Proof.KI.Rest

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

-- A launch owing nothing, as a segment: its arrays are split off the held buffers at entry and put back updated at exit.
def regOf (D : (p : Fin 15) → (c : Dev nD) → Dat τ (Elt F) Unit ℕ (UR sig nD τ) ℕ (cfgs p) c) (p : Fin 15)
    (kit : Pipeline.LaunchFacts (nD := nD) (τ := τ) cfgs p) (V V' : Dev nD → Valuation τ sig (Elt F))
    (hbody : ∀ c, BodyObligation (D p c) (defs₀ (F := F)) Variants.none () Set.univ)
    (hD : ∀ c, D p c = ⟨fun w => atTc V c (Pipeline.arrRef (cfgs p).spec w), (D p c).after,
      fun _ => Pipeline.ΦA (cfgs p).spec c, fun _ => fullShare, fun _ => 0, fun _ => Set.univ⟩)
    (hF : ∀ c w, (D p c).arrAt w (cfgs p).N = atTc V' c (Pipeline.arrRef (cfgs p).spec w))
    (hrest : ∀ c b, b ∉ Finset.univ.image (Pipeline.arrRef (cfgs p).spec) → atTc V' c b = atTc V c b) :
    RegionSeg (pcfgs (F := F)) adm D () defs₀ 𝒱n Ln lvn p :=
  have hq : ∀ c w, (D p c).share w = fullShare := fun c => (D p c).share_full fun w => congrArg (·.q w) (hD c)
  have howed : ∀ c t, (D p c).owed t = 0 := fun c t => congrArg (·.owed t) (hD c)
  have hrec : ∀ c t, (D p c).recorded t = Set.univ := fun c t => congrArg (·.recorded t) (hD c)
  have hΦ : ∀ c t, (D p c).Φ t = Pipeline.ΦA (cfgs p).spec c := fun c t => congrArg (·.Φ t) (hD c)
  { win := kit.win.to₀
    block_pos := kit.block_pos
    stage_whole := kit.stage_whole
    K := PEmpty
    osem := fun k => k.elim
    ho := Pipeline.OwnSemFacts.none _
    hbody := fun c => (hbody c).loose
    hwaits := Pipeline.hwaits_of_owed_zero _ _ _ _ Ln lvn p howed
    pre := fun c => iprop(StableHlo.held (c : Thread nD τ) (Pipeline.ucRefs τ sig) (V c) ∗ Rest c)
    post := fun c => iprop(StableHlo.held (c : Thread nD τ) (Pipeline.ucRefs τ sig) (V' c) ∗ Rest c)
    X := fun c => iprop(∃ r, prngReg c r)
    Y := fun c => iprop(∃ r, prngReg c r)
    Z := fun c => Pipeline.unscopedRest (Ix := Unit) (Name := ℕ) (U := UR sig nD τ) (Lvl := ℕ) (cfgs p).spec c (atTc V c)
    hentry := fun c => by
      have hsplit := Pipeline.arrays_of_unscopedBufs (p := p) (pcfgs (F := F)) adm D kit.win kit.arr_whole c (hq c) (atTc V c)
        fun w => congrArg (·.A w) (hD c)
      rw [Pipeline.unscopedBufs_held] at hsplit
      iintro ⟨⟨Hub, Hp, HO⟩, -, -⟩
      ihave H := hsplit $$ Hub
      icases H with ⟨Ha, Hrest⟩
      imodintro
      isplitl [Ha]; · iexact Ha
      isplitr; · unfold Pipeline.prefHeld; rw [show (Finset.univ : Finset (Fin 0)) = ∅ from rfl, BI.bigSep_empty]; iempintro
      isplitl [HO]
      · unfold Pipeline.Dat.owesAt Pipeline.owesWithin Pipeline.Dat.bound; rw [howed c, hrec c]
        icases HO with ⟨%W, HO⟩; iexists W; isplitr; · ipureintro; exact fun _ _ => Or.inl trivial
        iexact HO
      isplitl [Hp] <;> iassumption
    hin := fun c => by
      rw [hΦ c]; unfold Pipeline.ΦA
      iintro ⟨Hp, -, Hr⟩
      isplitl [Hr] <;> iassumption
    hout := fun c => by
      rw [Pipeline.ownSems0_none, hΦ c]; unfold Pipeline.ΦA
      iintro ⟨Hr, Hp⟩
      isplitl [Hp]; · iexact Hp
      isplitr; · iempintro
      iexact Hr
    hexit := fun c => by
      have hjoin := Pipeline.unscopedBufs_of_arrays (p := p) (pcfgs (F := F)) adm (Ix := Unit) (Name := ℕ) (U := UR sig nD τ) (Lvl := ℕ)
        kit.win kit.arr_whole c D (hq c) (atTc V c) (atTc V' c) ((D p c).arrAt · (cfgs p).N) (hF c) (hrest c)
      rw [Pipeline.unscopedBufs_held] at hjoin
      iintro ⟨Ha, HO, HY, Hrest⟩
      imodintro
      isplitl [Ha Hrest]
      · iapply hjoin; isplitl [Ha] <;> iassumption
      isplitl [HY]; · iexact HY
      unfold Pipeline.Dat.owesAt Pipeline.owesWithin; rw [howed c]
      icases HO with ⟨%W, -, HO⟩; iexists W; iexact HO }

variable (m : (ℓ : Loc nD τ sig) → Buf (Elt F) ℓ)

def reg0 : RegionSeg (pcfgs (F := F)) adm (pdats m) () defs₀ 𝒱n Ln lvn 0 :=
  regOf (pdats m) 0 launch0 (X1 m) (X2 m) (body_obligation0 _) (fun _ => rfl) (hF0 m) (hrest0 m)
def reg1 : RegionSeg (pcfgs (F := F)) adm (pdats m) () defs₀ 𝒱n Ln lvn 1 :=
  regOf (pdats m) 1 launch1 (X3 m) (X4 m) (body_obligation1 _) (fun _ => rfl) (hF1 m) (hrest1 m)
def reg2 : RegionSeg (pcfgs (F := F)) adm (pdats m) () defs₀ 𝒱n Ln lvn 2 :=
  regOf (pdats m) 2 launch2 (X5 m) (X6 m) (body_obligation2 _) (fun _ => rfl) (hF2 m) (hrest2 m)
def reg3 : RegionSeg (pcfgs (F := F)) adm (pdats m) () defs₀ 𝒱n Ln lvn 3 :=
  regOf (pdats m) 3 launch3 (X7 m) (X8 m) (body_obligation3 _) (fun _ => rfl) (hF3 m) (hrest3 m)
def reg4 : RegionSeg (pcfgs (F := F)) adm (pdats m) () defs₀ 𝒱n Ln lvn 4 :=
  regOf (pdats m) 4 launch4 (X8 m) (X9 m) (body_obligation4 _) (fun _ => rfl) (hF4 m) (hrest4 m)
def reg5 : RegionSeg (pcfgs (F := F)) adm (pdats m) () defs₀ 𝒱n Ln lvn 5 :=
  regOf (pdats m) 5 launch5 (X10 m) (X11 m) (body_obligation5 _) (fun _ => rfl) (hF5 m) (hrest5 m)
def reg6 : RegionSeg (pcfgs (F := F)) adm (pdats m) () defs₀ 𝒱n Ln lvn 6 :=
  regOf (pdats m) 6 launch6 (X12 m) (X13 m) (body_obligation6 _) (fun _ => rfl) (hF6 m) (hrest6 m)
def reg7 : RegionSeg (pcfgs (F := F)) adm (pdats m) () defs₀ 𝒱n Ln lvn 7 :=
  regOf (pdats m) 7 launch7 (X14 m) (X15 m) (body_obligation7 _) (fun _ => rfl) (hF7 m) (hrest7 m)
def reg8 : RegionSeg (pcfgs (F := F)) adm (pdats m) () defs₀ 𝒱n Ln lvn 8 :=
  regOf (pdats m) 8 launch8 (X16 m) (X17 m) (body_obligation8 _) (fun _ => rfl) (hF8 m) (hrest8 m)
def reg9 : RegionSeg (pcfgs (F := F)) adm (pdats m) () defs₀ 𝒱n Ln lvn 9 :=
  regOf (pdats m) 9 launch9 (X17 m) (X18 m) (body_obligation9 _) (fun _ => rfl) (hF9 m) (hrest9 m)
def reg10 : RegionSeg (pcfgs (F := F)) adm (pdats m) () defs₀ 𝒱n Ln lvn 10 :=
  regOf (pdats m) 10 launch10 (X19 m) (X20 m) (body_obligation10 _) (fun _ => rfl) (hF10 m) (hrest10 m)
def reg11 : RegionSeg (pcfgs (F := F)) adm (pdats m) () defs₀ 𝒱n Ln lvn 11 :=
  regOf (pdats m) 11 launch11 (X21 m) (X22 m) (body_obligation11 _) (fun _ => rfl) (hF11 m) (hrest11 m)
def reg12 : RegionSeg (pcfgs (F := F)) adm (pdats m) () defs₀ 𝒱n Ln lvn 12 :=
  regOf (pdats m) 12 launch12 (X23 m) (X24 m) (body_obligation12 _) (fun _ => rfl) (hF12 m) (hrest12 m)
def reg13 : RegionSeg (pcfgs (F := F)) adm (pdats m) () defs₀ 𝒱n Ln lvn 13 :=
  regOf (pdats m) 13 launch13 (X25 m) (X26 m) (body_obligation13 _) (fun _ => rfl) (hF13 m) (hrest13 m)
def reg14 : RegionSeg (pcfgs (F := F)) adm (pdats m) () defs₀ 𝒱n Ln lvn 14 :=
  regOf (pdats m) 14 launch14 (X26 m) (X27 m) (body_obligation14 _) (fun _ => rfl) (hF14 m) (hrest14 m)

end Cert.KernelIdeal.Hand

end
-- ==== Proof.KI.Frame.lean ====
import proofs.«431207_j9844065042802_4_alg».proof.Proof.KI.Segs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Rests : Fin 16 → Dev nD → sProp 𝕄 := fun _ c => Rest (F := F) c

theorem launch_dues :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_core (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (Rest (F := F) c : sProp 𝕄) := by
  unfold Rest
  iintro ⟨-, HO, -, Hp, -⟩
  isplitl [Hp]; · iexists _; iexact Hp
  iexists ∅; iexact HO

theorem rest_first :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Ln lvn)
      ⊢ (|={Set.univ}=> bigSep Finset.univ (Rests (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Rests (F := F) 0) : sProp 𝕄) :=
    bigSep_mono fun c _ => rest_core (F := F) ρ c
  iintro ⟨H, -⟩
  imodintro
  iapply hmono
  iexact H

theorem rest_last (c : Dev nD) :
    Rests (F := F) 15 c ⊢ (iprop(∃ W, owes (c : Thread nD τ) (0 : CellTallies nD τ sig Unit) W) : sProp 𝕄) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (F := F) m emb₁ () 𝒱n Ln lvn (fun _ _ => rfl) ρ (outs m) (pdats m) 0 (fun _ => iprop(emp))
    (initOf (Pipeline.cells cfgs cellOf_inj) (Pipeline.launchToks cfgs cellOf_inj)) launch_dues (Rests (F := F)) (rest_first ρ) rest_last
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V12_eq]; exact .rfl) (fun c => by rw [V13_eq]; exact .rfl)
    (reg7 m) (fun c => by rw [V14_eq]; exact .rfl) (fun c => by rw [V15_eq]; exact .rfl)
    (reg8 m) (fun c => by rw [V16_eq]; exact .rfl) (fun c => by rw [V17_eq]; exact .rfl)
    (reg9 m) (fun c => by rw [V17_eq]; exact .rfl) (fun c => by rw [V18_eq]; exact .rfl)
    (reg10 m) (fun c => by rw [V19_eq]; exact .rfl) (fun c => by rw [V20_eq]; exact .rfl)
    (reg11 m) (fun c => by rw [V21_eq]; exact .rfl) (fun c => by rw [V22_eq]; exact .rfl)
    (reg12 m) (fun c => by rw [V23_eq]; exact .rfl) (fun c => by rw [V24_eq]; exact .rfl)
    (reg13 m) (fun c => by rw [V25_eq]; exact .rfl) (fun c => by rw [V26_eq]; exact .rfl)
    (reg14 m) (fun c => by rw [V26_eq]; exact .rfl) (fun c => by rw [V27_eq]; exact .rfl)

end Cert.KernelIdeal.Hand

end
-- ==== Proof.KI.Run.lean ====
import proofs.«431207_j9844065042802_4_alg».proof.Proof.KI.Frame
import proofs.«431207_j9844065042802_4_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_at_V28 : θ_run defs (onTc (τ := τ) (main (F := F))) ⟨m, fun _ => 0, ρ⟩ (fun r => ∀ c : Dev nD,
      r.2.mem ((c.tc : Thread nD τ).loc main_v183) = V28 m (outs m) c main_v183
      ∧ r.2.mem ((c.tc : Thread nD τ).loc main_v190) = V28 m (outs m) c main_v190
      ∧ r.2.mem ((c.tc : Thread nD τ).loc main_v197) = V28 m (outs m) c main_v197
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Cert.KernelIdeal.GenP.run_cond (F := F) m emb₁ () 𝒱n Ln lvn (fun _ _ => rfl) ρ (outs m) (pdats m) 0 (fun _ => iprop(emp))
    (initOf (Pipeline.cells cfgs cellOf_inj) (Pipeline.launchToks cfgs cellOf_inj)) launch_dues (Rests (F := F)) (rest_first ρ) rest_last
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V12_eq]; exact .rfl) (fun c => by rw [V13_eq]; exact .rfl)
    (reg7 m) (fun c => by rw [V14_eq]; exact .rfl) (fun c => by rw [V15_eq]; exact .rfl)
    (reg8 m) (fun c => by rw [V16_eq]; exact .rfl) (fun c => by rw [V17_eq]; exact .rfl)
    (reg9 m) (fun c => by rw [V17_eq]; exact .rfl) (fun c => by rw [V18_eq]; exact .rfl)
    (reg10 m) (fun c => by rw [V19_eq]; exact .rfl) (fun c => by rw [V20_eq]; exact .rfl)
    (reg11 m) (fun c => by rw [V21_eq]; exact .rfl) (fun c => by rw [V22_eq]; exact .rfl)
    (reg12 m) (fun c => by rw [V23_eq]; exact .rfl) (fun c => by rw [V24_eq]; exact .rfl)
    (reg13 m) (fun c => by rw [V25_eq]; exact .rfl) (fun c => by rw [V26_eq]; exact .rfl)
    (reg14 m) (fun c => by rw [V26_eq]; exact .rfl) (fun c => by rw [V27_eq]; exact .rfl)

theorem run_values : θ_run defs (onTc (τ := τ) (main (F := F))) ⟨m, fun _ => 0, ρ⟩ (fun r => ∀ c : Dev nD,
      r.2.mem ((c.tc : Thread nD τ).loc main_v183) = X28 m c main_v183
      ∧ r.2.mem ((c.tc : Thread nD τ).loc main_v190) = X28 m c main_v190
      ∧ r.2.mem ((c.tc : Thread nD τ).loc main_v197) = X28 m c main_v197
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    have hc := h c
    rw [V28_eq] at hc
    exact hc) (run_at_V28 m ρ)

end Cert.KernelIdeal.Hand

end
-- ==== Proof.Ref.Ssa.lean ====
import Idealize.ShloMosaic.Lib.StableHlo.Run
import Mathlib.Data.List.Nodup

namespace Cert.ReferenceIdeal.Hand

open Idealize.ShloMosaic Idealize.ShloMosaic.TcCoe Idealize.SL.Sem Idealize.ShloMosaic.StableHlo

variable {T : Topo} {sg : RefSig} {Val : EltTy → Type}

-- operation by operation, the line writes exactly the listed buffers, one each
def WritesAre : List (HloOp T sg Val) → List (Ref sg .tc) → Prop
  | [], [] => True
  | op :: l, w :: W => op.writes = {Proc.devRef .tc w} ∧ WritesAre l W
  | _, _ => False

theorem WritesAre.append : ∀ {l₁ l₂ : List (HloOp T sg Val)} {W₁ W₂ : List (Ref sg .tc)},
    WritesAre l₁ W₁ → WritesAre l₂ W₂ → WritesAre (l₁ ++ l₂) (W₁ ++ W₂)
  | [], _, [], _, _, h₂ => h₂
  | [], _, _ :: _, _, h₁, _ => h₁.elim
  | _ :: _, _, [], _, h₁, _ => h₁.elim
  | _ :: _, _, _ :: _, _, h₁, h₂ => ⟨h₁.1, WritesAre.append h₁.2 h₂⟩

theorem WritesAre.not_mem_writes : ∀ {l : List (HloOp T sg Val)} {W : List (Ref sg .tc)}, WritesAre l W →
    ∀ {x : Ref sg .tc}, x ∉ W → ∀ op ∈ l, (Proc.devRef .tc x : DevRef T sg) ∉ op.writes
  | [], _, _, _, _, _, hop => nomatch hop
  | _ :: _, [], h, _, _, _, _ => h.elim
  | o :: l, w :: W, h, x, hx, op, hop => by
    rcases List.mem_cons.mp hop with rfl | hop
    · rw [h.1, Finset.mem_singleton]
      exact fun e => hx (List.mem_cons.mpr (Or.inl (Proc.devRef_injective _ e)))
    · exact WritesAre.not_mem_writes h.2 (fun k => hx (List.mem_cons_of_mem _ k)) op hop

-- a buffer outside the list is written by no operation, so it keeps its contents
theorem WritesAre.keep {l : List (HloOp T sg Val)} {W : List (Ref sg .tc)} (h : WritesAre l W) {x : Ref sg .tc} (hx : x ∉ W)
    (V : Valuation T sg Val) : after l V (Proc.devRef .tc x) = V (Proc.devRef .tc x) :=
  after_of_forall_not_mem l V (h.not_mem_writes hx)

-- every buffer is written once, so just before operation `j` each buffer not written from `j` on is already final
theorem WritesAre.cut : ∀ {l : List (HloOp T sg Val)} {W : List (Ref sg .tc)}, WritesAre l W → W.Nodup →
    ∀ (j : Nat) (op : HloOp T sg Val), l[j]? = some op → ∀ V : Valuation T sg Val,
      ∃ V' : Valuation T sg Val, (∀ b ∈ op.writes, after l V b = op.result V' b) ∧
        ∀ x : Ref sg .tc, x ∉ W.drop j → V' (Proc.devRef .tc x) = after l V (Proc.devRef .tc x)
  | [], _, _, _, _, _, hj, _ => by simp at hj
  | _ :: _, [], h, _, _, _, _, _ => h.elim
  | o :: l, w :: W, h, hnd, 0, op, hj, V => by
    obtain rfl : o = op := by simpa using hj
    refine ⟨V, fun b hb => ?_, fun x hx => ?_⟩
    · rw [h.1, Finset.mem_singleton] at hb
      subst hb
      rw [after_cons, h.2.keep (List.nodup_cons.mp hnd).1]
    · exact (WritesAre.keep (l := o :: l) (W := w :: W) h (by simpa using hx) V).symm
  | o :: l, w :: W, h, hnd, j + 1, op, hj, V => by
    obtain ⟨V', h1, h2⟩ := WritesAre.cut h.2 (List.nodup_cons.mp hnd).2 j op (by simpa using hj) (o.result V)
    exact ⟨V', fun b hb => by rw [after_cons]; exact h1 b hb, fun x hx => by rw [after_cons]; exact h2 x (by simpa using hx)⟩

section Steps

variable {l : List (HloOp T sg Val)} {W : List (Ref sg .tc)} (h : WritesAre l W) (hnd : W.Nodup) {j : Nat}
include h hnd

-- the final contents of the buffer operation `j` writes are its function of its operands' final contents
theorem ssa_nullary {y : Ref sg .tc} {v : y.ty.Contents Val} {hy} (hj : l[j]? = some (nullary y v hy)) (V : Valuation T sg Val) :
    after l V (Proc.devRef .tc y) = v := by
  obtain ⟨V', h1, _⟩ := h.cut hnd j _ hj V
  rw [h1 _ (by rw [nullary_writes]; exact Finset.mem_singleton_self _)]
  exact nullary_result y v hy V'

theorem ssa_unary {x y : Ref sg .tc} {f : x.ty.Contents Val → y.ty.Contents Val} {hx hy}
    (hj : l[j]? = some (unary x y f hx hy)) (kx : x ∉ W.drop j) (V : Valuation T sg Val) :
    after l V (Proc.devRef .tc y) = f (after l V (Proc.devRef .tc x)) := by
  obtain ⟨V', h1, h2⟩ := h.cut hnd j _ hj V
  rw [h1 _ (by rw [unary_writes]; exact Finset.mem_singleton_self _), ← h2 x kx]
  exact unary_result x y f hx hy V'

theorem ssa_binary {a b y : Ref sg .tc} {f : a.ty.Contents Val → b.ty.Contents Val → y.ty.Contents Val} {ha hb hy}
    (hj : l[j]? = some (binary a b y f ha hb hy)) (ka : a ∉ W.drop j) (kb : b ∉ W.drop j) (V : Valuation T sg Val) :
    after l V (Proc.devRef .tc y) = f (after l V (Proc.devRef .tc a)) (after l V (Proc.devRef .tc b)) := by
  obtain ⟨V', h1, h2⟩ := h.cut hnd j _ hj V
  rw [h1 _ (by rw [binary_writes]; exact Finset.mem_singleton_self _), ← h2 a ka, ← h2 b kb]
  exact binary_result a b y f ha hb hy V'

theorem ssa_ternary {c a b y : Ref sg .tc}
    {f : c.ty.Contents Val → a.ty.Contents Val → b.ty.Contents Val → y.ty.Contents Val} {hc ha hb hy}
    (hj : l[j]? = some (ternary c a b y f hc ha hb hy)) (kc : c ∉ W.drop j) (ka : a ∉ W.drop j) (kb : b ∉ W.drop j)
    (V : Valuation T sg Val) :
    after l V (Proc.devRef .tc y)
      = f (after l V (Proc.devRef .tc c)) (after l V (Proc.devRef .tc a)) (after l V (Proc.devRef .tc b)) := by
  obtain ⟨V', h1, h2⟩ := h.cut hnd j _ hj V
  rw [h1 _ (by rw [ternary_writes]; exact Finset.mem_singleton_self _), ← h2 c kc, ← h2 a ka, ← h2 b kb]
  exact ternary_result c a b y f hc ha hb hy V'

theorem ssa_reshape {x y : Ref sg .tc} {he : x.ty.elt = y.ty.elt} {hn : x.ty.shape.ShapeCasts y.ty.shape} {hx hy}
    (hj : l[j]? = some (reshape x y he hn hx hy)) (kx : x ∉ W.drop j) (V : Valuation T sg Val) :
    after l V (Proc.devRef .tc y) = fun i => he ▸ shapeCast y.ty.shape (after l V (Proc.devRef .tc x)) hn i := by
  obtain ⟨V', h1, h2⟩ := h.cut hnd j _ hj V
  rw [h1 _ (by rw [reshape_writes]; exact Finset.mem_singleton_self _), ← h2 x kx]
  exact reshape_result x y he hn hx hy V'

theorem ssa_nary4 {x a b c y : Ref sg .tc}
    {f : ((k : Fin 4) → ((![x, a, b, c] : Fin 4 → Ref sg .tc) k).ty.Contents Val) → y.ty.Contents Val} {hxs hy}
    (hj : l[j]? = some (nary ![x, a, b, c] y f hxs hy)) (kx : x ∉ W.drop j) (ka : a ∉ W.drop j) (kb : b ∉ W.drop j)
    (kc : c ∉ W.drop j) (V : Valuation T sg Val) :
    after l V (Proc.devRef .tc y)
      = f (Fin.cons (after l V (Proc.devRef .tc x)) (Fin.cons (after l V (Proc.devRef .tc a))
          (Fin.cons (after l V (Proc.devRef .tc b)) (Fin.cons (after l V (Proc.devRef .tc c)) (fun i => i.elim0))))) := by
  obtain ⟨V', h1, h2⟩ := h.cut hnd j _ hj V
  rw [h1 _ (by rw [nary_writes]; exact Finset.mem_singleton_self _), ← h2 x kx, ← h2 a ka, ← h2 b kb, ← h2 c kc]
  exact nary4_result f hxs hy V'

end Steps

end Cert.ReferenceIdeal.Hand
-- ==== Proof.Ref.Run.lean ====
import proofs.«431207_j9844065042802_4_alg».proof.Proof.Ref.Ssa
import proofs.«431207_j9844065042802_4_alg».proof.Proof.Gen.ReferenceIdeal
import Idealize.ShloMosaic.Lib.Pipeline.Frame
import Mathlib.Data.List.Chain

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_cst (constant S_ .f32 0x3F800000#32),
    unary main_cst main_v0 (broadcastInDim S500000 ![] bcast_S_S500000),
    nullary main_cst_0 (constant S_ .f32 0x00000000#32),
    unary main_cst_0 main_v1 (broadcastInDim S100000 ![] bcast_S_S100000),
    unary main_arg6 main_v2 (broadcastInDim S500000x1 ![0] bcast_S500000_S500000x1_0),
    ternary main_v1 main_v2 main_v0 main_v3 (Host.scatterAdd scatter_S100000_S500000x1_S500000_n_0_0_1),
    nullary main_cst_1 (constant S_ .f32 0x00000000#32),
    unary main_cst_1 main_v4 (broadcastInDim S50000 ![] bcast_S_S50000),
    unary main_arg7 main_v5 (broadcastInDim S500000x1 ![0] bcast_S500000_S500000x1_0),
    ternary main_v4 main_v5 main_v0 main_v6 (Host.scatterAdd scatter_S50000_S500000x1_S500000_n_0_0_1),
    nullary main_c (constantI S_ 32 0#32),
    unary main_c main_v7 (broadcastInDim S500000 ![] bcast_S_S500000),
    binary main_arg6 main_v7 main_v8 (cmpi .slt),
    nullary main_c_2 (constantI S_ 32 100000#32),
    unary main_c_2 main_v9 (broadcastInDim S500000 ![] bcast_S_S500000),
    binary main_arg6 main_v9 main_v10 addi,
    ternary main_v8 main_v10 main_arg6 main_v11 select,
    unary main_v11 main_v12 (broadcastInDim S500000x1 ![0] bcast_S500000_S500000x1_0),
    binary main_v3 main_v12 main_v13 (Host.gather gather_S100000_S500000x1_S500000_n_0_n_n_0_1_1),
    nullary main_c_3 (constantI S_ 32 0#32),
    unary main_c_3 main_v14 (broadcastInDim S500000 ![] bcast_S_S500000),
    binary main_arg7 main_v14 main_v15 (cmpi .slt),
    nullary main_c_4 (constantI S_ 32 50000#32),
    unary main_c_4 main_v16 (broadcastInDim S500000 ![] bcast_S_S500000),
    binary main_arg7 main_v16 main_v17 addi,
    ternary main_v15 main_v17 main_arg7 main_v18 select,
    unary main_v18 main_v19 (broadcastInDim S500000x1 ![0] bcast_S500000_S500000x1_0),
    binary main_v6 main_v19 main_v20 (Host.gather gather_S50000_S500000x1_S500000_n_0_n_n_0_1_1),
    binary main_v13 main_v20 main_v21 mulf,
    nullary main_cst_5 (constant S_ .f32 0xBF000000#32),
    unary main_cst_5 main_v22 (broadcastInDim S500000 ![] bcast_S_S500000),
    binary main_v21 main_v22 main_v23 Host.powf,
    unary main_v23 main_v24 (broadcastInDim S500000x1 ![0] bcast_S500000_S500000x1_0),
    unary main_arg2 main_v25 (extractStridedSlice S1x64x64 ![0, 0, 0] · slices_S3x64x64_S1x64x64_0_0_0),
    reshape main_v25 main_v26 rfl shapeCasts_S1x64x64_S64x64,
    unary main_arg3 main_v27 (extractStridedSlice S1x64 ![0, 0] · slices_S3x64_S1x64_0_0),
    reshape main_v27 main_v28 rfl shapeCasts_S1x64_S64,
    unary main_arg4 main_v29 (extractStridedSlice S1x64x64 ![0, 0, 0] · slices_S3x64x64_S1x64x64_0_0_0),
    reshape main_v29 main_v30 rfl shapeCasts_S1x64x64_S64x64,
    unary main_arg5 main_v31 (extractStridedSlice S1x64 ![0, 0] · slices_S3x64_S1x64_0_0),
    reshape main_v31 main_v32 rfl shapeCasts_S1x64_S64,
    binary main_arg0 main_v26 main_v33 (Host.dotGeneral dot_S100000x64_S64x64_S100000x64_1_0_0_1_n_n none),
    unary main_v28 main_v34 (broadcastInDim S1x64 ![1] bcast_S64_S1x64_1),
    unary main_v34 main_v35 (broadcastInDim S100000x64 ![0, 1] bcast_S1x64_S100000x64_0_1),
    binary main_v33 main_v35 main_v36 addf,
    binary main_arg1 main_v26 main_v37 (Host.dotGeneral dot_S50000x64_S64x64_S50000x64_1_0_0_1_n_n none),
    unary main_v28 main_v38 (broadcastInDim S1x64 ![1] bcast_S64_S1x64_1),
    unary main_v38 main_v39 (broadcastInDim S50000x64 ![0, 1] bcast_S1x64_S50000x64_0_1),
    binary main_v37 main_v39 main_v40 addf,
    nullary main_c_6 (constantI S_ 32 0#32),
    unary main_c_6 main_v41 (broadcastInDim S500000 ![] bcast_S_S500000),
    binary main_arg6 main_v41 main_v42 (cmpi .slt),
    nullary main_c_7 (constantI S_ 32 100000#32),
    unary main_c_7 main_v43 (broadcastInDim S500000 ![] bcast_S_S500000),
    binary main_arg6 main_v43 main_v44 addi,
    ternary main_v42 main_v44 main_arg6 main_v45 select,
    unary main_v45 main_v46 (broadcastInDim S500000x1 ![0] bcast_S500000_S500000x1_0),
    binary main_arg0 main_v46 main_v47 (Host.gather gather_S100000x64_S500000x1_S500000x64_1_0_n_n_0_1_164),
    nullary main_c_8 (constantI S_ 32 0#32),
    unary main_c_8 main_v48 (broadcastInDim S500000 ![] bcast_S_S500000) ]

abbrev ops0_W : List (Ref sig .tc) :=
  [ main_cst, main_v0, main_cst_0, main_v1, main_v2, main_v3, main_cst_1, main_v4, main_v5, main_v6, main_c, main_v7, main_v8, main_c_2, main_v9, main_v10, main_v11, main_v12, main_v13, main_c_3, main_v14, main_v15, main_c_4, main_v16, main_v17, main_v18, main_v19, main_v20, main_v21, main_cst_5, main_v22, main_v23, main_v24, main_v25, main_v26, main_v27, main_v28, main_v29, main_v30, main_v31, main_v32, main_v33, main_v34, main_v35, main_v36, main_v37, main_v38, main_v39, main_v40, main_c_6, main_v41, main_v42, main_c_7, main_v43, main_v44, main_v45, main_v46, main_v47, main_c_8, main_v48 ]

abbrev ops1 : List (HloOp τ sig (Elt F)) :=
  [ binary main_arg7 main_v48 main_v49 (cmpi .slt),
    nullary main_c_9 (constantI S_ 32 50000#32),
    unary main_c_9 main_v50 (broadcastInDim S500000 ![] bcast_S_S500000),
    binary main_arg7 main_v50 main_v51 addi,
    ternary main_v49 main_v51 main_arg7 main_v52 select,
    unary main_v52 main_v53 (broadcastInDim S500000x1 ![0] bcast_S500000_S500000x1_0),
    binary main_arg1 main_v53 main_v54 (Host.gather gather_S50000x64_S500000x1_S500000x64_1_0_n_n_0_1_164),
    binary main_v47 main_v54 main_v55 mulf,
    binary main_v55 main_v30 main_v56 (Host.dotGeneral dot_S500000x64_S64x64_S500000x64_1_0_0_1_n_n none),
    unary main_v32 main_v57 (broadcastInDim S1x64 ![1] bcast_S64_S1x64_1),
    unary main_v57 main_v58 (broadcastInDim S500000x64 ![0, 1] bcast_S1x64_S500000x64_0_1),
    binary main_v56 main_v58 main_v59 addf,
    nullary main_c_10 (constantI S_ 32 0#32),
    unary main_c_10 main_v60 (broadcastInDim S500000 ![] bcast_S_S500000),
    binary main_arg6 main_v60 main_v61 (cmpi .slt),
    nullary main_c_11 (constantI S_ 32 100000#32),
    unary main_c_11 main_v62 (broadcastInDim S500000 ![] bcast_S_S500000),
    binary main_arg6 main_v62 main_v63 addi,
    ternary main_v61 main_v63 main_arg6 main_v64 select,
    unary main_v64 main_v65 (broadcastInDim S500000x1 ![0] bcast_S500000_S500000x1_0),
    binary main_v36 main_v65 main_v66 (Host.gather gather_S100000x64_S500000x1_S500000x64_1_0_n_n_0_1_164),
    binary main_v66 main_v59 main_v67 addf,
    unary main_v24 main_v68 (broadcastInDim S500000x64 ![0, 1] bcast_S500000x1_S500000x64_0_1),
    binary main_v68 main_v67 main_v69 mulf,
    nullary main_c_12 (constantI S_ 32 0#32),
    unary main_c_12 main_v70 (broadcastInDim S500000 ![] bcast_S_S500000),
    binary main_arg7 main_v70 main_v71 (cmpi .slt),
    nullary main_c_13 (constantI S_ 32 50000#32),
    unary main_c_13 main_v72 (broadcastInDim S500000 ![] bcast_S_S500000),
    binary main_arg7 main_v72 main_v73 addi,
    ternary main_v71 main_v73 main_arg7 main_v74 select,
    unary main_v74 main_v75 (broadcastInDim S500000x1 ![0] bcast_S500000_S500000x1_0),
    binary main_v40 main_v75 main_v76 (Host.gather gather_S50000x64_S500000x1_S500000x64_1_0_n_n_0_1_164),
    binary main_v76 main_v59 main_v77 addf,
    unary main_v24 main_v78 (broadcastInDim S500000x64 ![0, 1] bcast_S500000x1_S500000x64_0_1),
    binary main_v78 main_v77 main_v79 mulf,
    nullary main_cst_14 (constant S_ .f32 0x00000000#32),
    unary main_cst_14 main_v80 (broadcastInDim S100000x64 ![] bcast_S_S100000x64),
    unary main_arg6 main_v81 (broadcastInDim S500000x1 ![0] bcast_S500000_S500000x1_0),
    ternary main_v80 main_v81 main_v79 main_v82 (Host.scatterAdd scatter_S100000x64_S500000x1_S500000x64_1_0_0_1),
    binary main_v36 main_v82 main_v83 addf,
    nullary main_cst_15 (constant S_ .f32 0x00000000#32),
    unary main_cst_15 main_v84 (broadcastInDim S50000x64 ![] bcast_S_S50000x64),
    unary main_arg7 main_v85 (broadcastInDim S500000x1 ![0] bcast_S500000_S500000x1_0),
    ternary main_v84 main_v85 main_v69 main_v86 (Host.scatterAdd scatter_S50000x64_S500000x1_S500000x64_1_0_0_1),
    binary main_v40 main_v86 main_v87 addf,
    nullary main_cst_16 (constant S_ .f32 0x3E4CCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v83 : StableHlo.TRef sig ⟨S100000x64, .f32⟩) main_call0.v0 main_call0.v1 (cmpf .oge),
    StableHlo.TRef.unary (.of main_cst_16 : StableHlo.TRef sig ⟨S_, .f32⟩) main_call0.v2 id,
    StableHlo.TRef.unary main_call0.v2 main_call0.v3 (broadcastInDim S100000x64 ![] bcast_S_S100000x64),
    StableHlo.TRef.binary main_call0.v3 (.of main_v83 : StableHlo.TRef sig ⟨S100000x64, .f32⟩) main_call0.v4 mulf,
    StableHlo.TRef.ternary main_call0.v1 (.of main_v83 : StableHlo.TRef sig ⟨S100000x64, .f32⟩) main_call0.v4 main_call0.call0.v0 select,
    binary main_v88 main_v88 main_v89 mulf,
    nullary main_cst_17 (constant S_ .f32 0x00000000#32),
    binary main_v89 main_cst_17 main_v90 (fun x v => Host.reduceAdd x v reducesTo_S100000x64_S100000_d1 h_S_),
    unary main_v90 main_v91 (broadcastInDim S100000x1 ![0] bcast_S100000_S100000x1_0),
    unary main_v91 main_v92 Host.sqrt,
    nullary main_cst_18 (constant S_ .f32 0x2B8CBCCC#32),
    unary main_cst_18 main_v93 (broadcastInDim S100000x1 ![] bcast_S_S100000x1),
    binary main_v92 main_v93 main_v94 maximumf,
    unary main_v94 main_v95 (broadcastInDim S100000x64 ![0, 1] bcast_S100000x1_S100000x64_0_1),
    binary main_v88 main_v95 main_v96 Host.divf,
    nullary main_cst_19 (constant S_ .f32 0x3E4CCCCD#32),
    StableHlo.TRef.nullary main_call1.cst (constant S_ .f32 0x00000000#32),
    StableHlo.TRef.unary main_call1.cst main_call1.v0 (broadcastInDim S50000x64 ![] bcast_S_S50000x64),
    StableHlo.TRef.binary (.of main_v87 : StableHlo.TRef sig ⟨S50000x64, .f32⟩) main_call1.v0 main_call1.v1 (cmpf .oge),
    StableHlo.TRef.unary (.of main_cst_19 : StableHlo.TRef sig ⟨S_, .f32⟩) main_call1.v2 id,
    StableHlo.TRef.unary main_call1.v2 main_call1.v3 (broadcastInDim S50000x64 ![] bcast_S_S50000x64),
    StableHlo.TRef.binary main_call1.v3 (.of main_v87 : StableHlo.TRef sig ⟨S50000x64, .f32⟩) main_call1.v4 mulf,
    StableHlo.TRef.ternary main_call1.v1 (.of main_v87 : StableHlo.TRef sig ⟨S50000x64, .f32⟩) main_call1.v4 main_call1.call0.v0 select ]

abbrev ops1_W : List (Ref sig .tc) :=
  [ main_v49, main_c_9, main_v50, main_v51, main_v52, main_v53, main_v54, main_v55, main_v56, main_v57, main_v58, main_v59, main_c_10, main_v60, main_v61, main_c_11, main_v62, main_v63, main_v64, main_v65, main_v66, main_v67, main_v68, main_v69, main_c_12, main_v70, main_v71, main_c_13, main_v72, main_v73, main_v74, main_v75, main_v76, main_v77, main_v78, main_v79, main_cst_14, main_v80, main_v81, main_v82, main_v83, main_cst_15, main_v84, main_v85, main_v86, main_v87, main_cst_16, main_call0.cst.ref, main_call0.v0.ref, main_call0.v1.ref, main_call0.v2.ref, main_call0.v3.ref, main_call0.v4.ref, main_call0.call0.v0.ref, main_v89, main_cst_17, main_v90, main_v91, main_v92, main_cst_18, main_v93, main_v94, main_v95, main_v96, main_cst_19, main_call1.cst.ref, main_call1.v0.ref, main_call1.v1.ref, main_call1.v2.ref, main_call1.v3.ref, main_call1.v4.ref, main_call1.call0.v0.ref ]

abbrev ops2 : List (HloOp τ sig (Elt F)) :=
  [ binary main_v97 main_v97 main_v98 mulf,
    nullary main_cst_20 (constant S_ .f32 0x00000000#32),
    binary main_v98 main_cst_20 main_v99 (fun x v => Host.reduceAdd x v reducesTo_S50000x64_S50000_d1 h_S_),
    unary main_v99 main_v100 (broadcastInDim S50000x1 ![0] bcast_S50000_S50000x1_0),
    unary main_v100 main_v101 Host.sqrt,
    nullary main_cst_21 (constant S_ .f32 0x2B8CBCCC#32),
    unary main_cst_21 main_v102 (broadcastInDim S50000x1 ![] bcast_S_S50000x1),
    binary main_v101 main_v102 main_v103 maximumf,
    unary main_v103 main_v104 (broadcastInDim S50000x64 ![0, 1] bcast_S50000x1_S50000x64_0_1),
    binary main_v97 main_v104 main_v105 Host.divf,
    unary main_arg2 main_v106 (extractStridedSlice S1x64x64 ![1, 0, 0] · slices_S3x64x64_S1x64x64_1_0_0),
    reshape main_v106 main_v107 rfl shapeCasts_S1x64x64_S64x64,
    unary main_arg3 main_v108 (extractStridedSlice S1x64 ![1, 0] · slices_S3x64_S1x64_1_0),
    reshape main_v108 main_v109 rfl shapeCasts_S1x64_S64,
    unary main_arg4 main_v110 (extractStridedSlice S1x64x64 ![1, 0, 0] · slices_S3x64x64_S1x64x64_1_0_0),
    reshape main_v110 main_v111 rfl shapeCasts_S1x64x64_S64x64,
    unary main_arg5 main_v112 (extractStridedSlice S1x64 ![1, 0] · slices_S3x64_S1x64_1_0),
    reshape main_v112 main_v113 rfl shapeCasts_S1x64_S64,
    binary main_v96 main_v107 main_v114 (Host.dotGeneral dot_S100000x64_S64x64_S100000x64_1_0_0_1_n_n none),
    unary main_v109 main_v115 (broadcastInDim S1x64 ![1] bcast_S64_S1x64_1),
    unary main_v115 main_v116 (broadcastInDim S100000x64 ![0, 1] bcast_S1x64_S100000x64_0_1),
    binary main_v114 main_v116 main_v117 addf,
    binary main_v105 main_v107 main_v118 (Host.dotGeneral dot_S50000x64_S64x64_S50000x64_1_0_0_1_n_n none),
    unary main_v109 main_v119 (broadcastInDim S1x64 ![1] bcast_S64_S1x64_1),
    unary main_v119 main_v120 (broadcastInDim S50000x64 ![0, 1] bcast_S1x64_S50000x64_0_1),
    binary main_v118 main_v120 main_v121 addf,
    nullary main_c_22 (constantI S_ 32 0#32),
    unary main_c_22 main_v122 (broadcastInDim S500000 ![] bcast_S_S500000),
    binary main_arg6 main_v122 main_v123 (cmpi .slt),
    nullary main_c_23 (constantI S_ 32 100000#32),
    unary main_c_23 main_v124 (broadcastInDim S500000 ![] bcast_S_S500000),
    binary main_arg6 main_v124 main_v125 addi,
    ternary main_v123 main_v125 main_arg6 main_v126 select,
    unary main_v126 main_v127 (broadcastInDim S500000x1 ![0] bcast_S500000_S500000x1_0),
    binary main_v96 main_v127 main_v128 (Host.gather gather_S100000x64_S500000x1_S500000x64_1_0_n_n_0_1_164),
    nullary main_c_24 (constantI S_ 32 0#32),
    unary main_c_24 main_v129 (broadcastInDim S500000 ![] bcast_S_S500000),
    binary main_arg7 main_v129 main_v130 (cmpi .slt),
    nullary main_c_25 (constantI S_ 32 50000#32),
    unary main_c_25 main_v131 (broadcastInDim S500000 ![] bcast_S_S500000),
    binary main_arg7 main_v131 main_v132 addi,
    ternary main_v130 main_v132 main_arg7 main_v133 select,
    unary main_v133 main_v134 (broadcastInDim S500000x1 ![0] bcast_S500000_S500000x1_0),
    binary main_v105 main_v134 main_v135 (Host.gather gather_S50000x64_S500000x1_S500000x64_1_0_n_n_0_1_164),
    binary main_v128 main_v135 main_v136 mulf,
    binary main_v136 main_v111 main_v137 (Host.dotGeneral dot_S500000x64_S64x64_S500000x64_1_0_0_1_n_n none),
    unary main_v113 main_v138 (broadcastInDim S1x64 ![1] bcast_S64_S1x64_1),
    unary main_v138 main_v139 (broadcastInDim S500000x64 ![0, 1] bcast_S1x64_S500000x64_0_1),
    binary main_v137 main_v139 main_v140 addf,
    nullary main_c_26 (constantI S_ 32 0#32),
    unary main_c_26 main_v141 (broadcastInDim S500000 ![] bcast_S_S500000),
    binary main_arg6 main_v141 main_v142 (cmpi .slt),
    nullary main_c_27 (constantI S_ 32 100000#32),
    unary main_c_27 main_v143 (broadcastInDim S500000 ![] bcast_S_S500000),
    binary main_arg6 main_v143 main_v144 addi,
    ternary main_v142 main_v144 main_arg6 main_v145 select,
    unary main_v145 main_v146 (broadcastInDim S500000x1 ![0] bcast_S500000_S500000x1_0),
    binary main_v117 main_v146 main_v147 (Host.gather gather_S100000x64_S500000x1_S500000x64_1_0_n_n_0_1_164),
    binary main_v147 main_v140 main_v148 addf,
    unary main_v24 main_v149 (broadcastInDim S500000x64 ![0, 1] bcast_S500000x1_S500000x64_0_1) ]

abbrev ops2_W : List (Ref sig .tc) :=
  [ main_v98, main_cst_20, main_v99, main_v100, main_v101, main_cst_21, main_v102, main_v103, main_v104, main_v105, main_v106, main_v107, main_v108, main_v109, main_v110, main_v111, main_v112, main_v113, main_v114, main_v115, main_v116, main_v117, main_v118, main_v119, main_v120, main_v121, main_c_22, main_v122, main_v123, main_c_23, main_v124, main_v125, main_v126, main_v127, main_v128, main_c_24, main_v129, main_v130, main_c_25, main_v131, main_v132, main_v133, main_v134, main_v135, main_v136, main_v137, main_v138, main_v139, main_v140, main_c_26, main_v141, main_v142, main_c_27, main_v143, main_v144, main_v145, main_v146, main_v147, main_v148, main_v149 ]

abbrev ops3 : List (HloOp τ sig (Elt F)) :=
  [ binary main_v149 main_v148 main_v150 mulf,
    nullary main_c_28 (constantI S_ 32 0#32),
    unary main_c_28 main_v151 (broadcastInDim S500000 ![] bcast_S_S500000),
    binary main_arg7 main_v151 main_v152 (cmpi .slt),
    nullary main_c_29 (constantI S_ 32 50000#32),
    unary main_c_29 main_v153 (broadcastInDim S500000 ![] bcast_S_S500000),
    binary main_arg7 main_v153 main_v154 addi,
    ternary main_v152 main_v154 main_arg7 main_v155 select,
    unary main_v155 main_v156 (broadcastInDim S500000x1 ![0] bcast_S500000_S500000x1_0),
    binary main_v121 main_v156 main_v157 (Host.gather gather_S50000x64_S500000x1_S500000x64_1_0_n_n_0_1_164),
    binary main_v157 main_v140 main_v158 addf,
    unary main_v24 main_v159 (broadcastInDim S500000x64 ![0, 1] bcast_S500000x1_S500000x64_0_1),
    binary main_v159 main_v158 main_v160 mulf,
    nullary main_cst_30 (constant S_ .f32 0x00000000#32),
    unary main_cst_30 main_v161 (broadcastInDim S100000x64 ![] bcast_S_S100000x64),
    unary main_arg6 main_v162 (broadcastInDim S500000x1 ![0] bcast_S500000_S500000x1_0),
    ternary main_v161 main_v162 main_v160 main_v163 (Host.scatterAdd scatter_S100000x64_S500000x1_S500000x64_1_0_0_1),
    binary main_v117 main_v163 main_v164 addf,
    nullary main_cst_31 (constant S_ .f32 0x00000000#32),
    unary main_cst_31 main_v165 (broadcastInDim S50000x64 ![] bcast_S_S50000x64),
    unary main_arg7 main_v166 (broadcastInDim S500000x1 ![0] bcast_S500000_S500000x1_0),
    ternary main_v165 main_v166 main_v150 main_v167 (Host.scatterAdd scatter_S50000x64_S500000x1_S500000x64_1_0_0_1),
    binary main_v121 main_v167 main_v168 addf,
    nullary main_cst_32 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v164 : StableHlo.TRef sig ⟨S100000x64, .f32⟩) main_call2.v0 main_call2.v1 (cmpf .oge),
    StableHlo.TRef.unary (.of main_cst_32 : StableHlo.TRef sig ⟨S_, .f32⟩) main_call2.v2 id,
    StableHlo.TRef.unary main_call2.v2 main_call2.v3 (broadcastInDim S100000x64 ![] bcast_S_S100000x64),
    StableHlo.TRef.binary main_call2.v3 (.of main_v164 : StableHlo.TRef sig ⟨S100000x64, .f32⟩) main_call2.v4 mulf,
    StableHlo.TRef.ternary main_call2.v1 (.of main_v164 : StableHlo.TRef sig ⟨S100000x64, .f32⟩) main_call2.v4 main_call2.call0.v0 select,
    binary main_v169 main_v169 main_v170 mulf,
    nullary main_cst_33 (constant S_ .f32 0x00000000#32),
    binary main_v170 main_cst_33 main_v171 (fun x v => Host.reduceAdd x v reducesTo_S100000x64_S100000_d1 h_S_),
    unary main_v171 main_v172 (broadcastInDim S100000x1 ![0] bcast_S100000_S100000x1_0),
    unary main_v172 main_v173 Host.sqrt,
    nullary main_cst_34 (constant S_ .f32 0x2B8CBCCC#32),
    unary main_cst_34 main_v174 (broadcastInDim S100000x1 ![] bcast_S_S100000x1),
    binary main_v173 main_v174 main_v175 maximumf,
    unary main_v175 main_v176 (broadcastInDim S100000x64 ![0, 1] bcast_S100000x1_S100000x64_0_1),
    binary main_v169 main_v176 main_v177 Host.divf,
    nullary main_cst_35 (constant S_ .f32 0x3E4CCCCD#32),
    StableHlo.TRef.nullary main_call3.cst (constant S_ .f32 0x00000000#32),
    StableHlo.TRef.unary main_call3.cst main_call3.v0 (broadcastInDim S50000x64 ![] bcast_S_S50000x64),
    StableHlo.TRef.binary (.of main_v168 : StableHlo.TRef sig ⟨S50000x64, .f32⟩) main_call3.v0 main_call3.v1 (cmpf .oge),
    StableHlo.TRef.unary (.of main_cst_35 : StableHlo.TRef sig ⟨S_, .f32⟩) main_call3.v2 id,
    StableHlo.TRef.unary main_call3.v2 main_call3.v3 (broadcastInDim S50000x64 ![] bcast_S_S50000x64),
    StableHlo.TRef.binary main_call3.v3 (.of main_v168 : StableHlo.TRef sig ⟨S50000x64, .f32⟩) main_call3.v4 mulf,
    StableHlo.TRef.ternary main_call3.v1 (.of main_v168 : StableHlo.TRef sig ⟨S50000x64, .f32⟩) main_call3.v4 main_call3.call0.v0 select,
    binary main_v178 main_v178 main_v179 mulf,
    nullary main_cst_36 (constant S_ .f32 0x00000000#32),
    binary main_v179 main_cst_36 main_v180 (fun x v => Host.reduceAdd x v reducesTo_S50000x64_S50000_d1 h_S_),
    unary main_v180 main_v181 (broadcastInDim S50000x1 ![0] bcast_S50000_S50000x1_0),
    unary main_v181 main_v182 Host.sqrt,
    nullary main_cst_37 (constant S_ .f32 0x2B8CBCCC#32),
    unary main_cst_37 main_v183 (broadcastInDim S50000x1 ![] bcast_S_S50000x1),
    binary main_v182 main_v183 main_v184 maximumf,
    unary main_v184 main_v185 (broadcastInDim S50000x64 ![0, 1] bcast_S50000x1_S50000x64_0_1),
    binary main_v178 main_v185 main_v186 Host.divf,
    unary main_arg2 main_v187 (extractStridedSlice S1x64x64 ![2, 0, 0] · slices_S3x64x64_S1x64x64_2_0_0),
    reshape main_v187 main_v188 rfl shapeCasts_S1x64x64_S64x64,
    unary main_arg3 main_v189 (extractStridedSlice S1x64 ![2, 0] · slices_S3x64_S1x64_2_0),
    reshape main_v189 main_v190 rfl shapeCasts_S1x64_S64,
    unary main_arg4 main_v191 (extractStridedSlice S1x64x64 ![2, 0, 0] · slices_S3x64x64_S1x64x64_2_0_0),
    reshape main_v191 main_v192 rfl shapeCasts_S1x64x64_S64x64,
    unary main_arg5 main_v193 (extractStridedSlice S1x64 ![2, 0] · slices_S3x64_S1x64_2_0),
    reshape main_v193 main_v194 rfl shapeCasts_S1x64_S64,
    binary main_v177 main_v188 main_v195 (Host.dotGeneral dot_S100000x64_S64x64_S100000x64_1_0_0_1_n_n none),
    unary main_v190 main_v196 (broadcastInDim S1x64 ![1] bcast_S64_S1x64_1),
    unary main_v196 main_v197 (broadcastInDim S100000x64 ![0, 1] bcast_S1x64_S100000x64_0_1),
    binary main_v195 main_v197 main_v198 addf,
    binary main_v186 main_v188 main_v199 (Host.dotGeneral dot_S50000x64_S64x64_S50000x64_1_0_0_1_n_n none) ]

abbrev ops3_W : List (Ref sig .tc) :=
  [ main_v150, main_c_28, main_v151, main_v152, main_c_29, main_v153, main_v154, main_v155, main_v156, main_v157, main_v158, main_v159, main_v160, main_cst_30, main_v161, main_v162, main_v163, main_v164, main_cst_31, main_v165, main_v166, main_v167, main_v168, main_cst_32, main_call2.cst.ref, main_call2.v0.ref, main_call2.v1.ref, main_call2.v2.ref, main_call2.v3.ref, main_call2.v4.ref, main_call2.call0.v0.ref, main_v170, main_cst_33, main_v171, main_v172, main_v173, main_cst_34, main_v174, main_v175, main_v176, main_v177, main_cst_35, main_call3.cst.ref, main_call3.v0.ref, main_call3.v1.ref, main_call3.v2.ref, main_call3.v3.ref, main_call3.v4.ref, main_call3.call0.v0.ref, main_v179, main_cst_36, main_v180, main_v181, main_v182, main_cst_37, main_v183, main_v184, main_v185, main_v186, main_v187, main_v188, main_v189, main_v190, main_v191, main_v192, main_v193, main_v194, main_v195, main_v196, main_v197, main_v198, main_v199 ]

abbrev ops4 : List (HloOp τ sig (Elt F)) :=
  [ unary main_v190 main_v200 (broadcastInDim S1x64 ![1] bcast_S64_S1x64_1),
    unary main_v200 main_v201 (broadcastInDim S50000x64 ![0, 1] bcast_S1x64_S50000x64_0_1),
    binary main_v199 main_v201 main_v202 addf,
    nullary main_c_38 (constantI S_ 32 0#32),
    unary main_c_38 main_v203 (broadcastInDim S500000 ![] bcast_S_S500000),
    binary main_arg6 main_v203 main_v204 (cmpi .slt),
    nullary main_c_39 (constantI S_ 32 100000#32),
    unary main_c_39 main_v205 (broadcastInDim S500000 ![] bcast_S_S500000),
    binary main_arg6 main_v205 main_v206 addi,
    ternary main_v204 main_v206 main_arg6 main_v207 select,
    unary main_v207 main_v208 (broadcastInDim S500000x1 ![0] bcast_S500000_S500000x1_0),
    binary main_v177 main_v208 main_v209 (Host.gather gather_S100000x64_S500000x1_S500000x64_1_0_n_n_0_1_164),
    nullary main_c_40 (constantI S_ 32 0#32),
    unary main_c_40 main_v210 (broadcastInDim S500000 ![] bcast_S_S500000),
    binary main_arg7 main_v210 main_v211 (cmpi .slt),
    nullary main_c_41 (constantI S_ 32 50000#32),
    unary main_c_41 main_v212 (broadcastInDim S500000 ![] bcast_S_S500000),
    binary main_arg7 main_v212 main_v213 addi,
    ternary main_v211 main_v213 main_arg7 main_v214 select,
    unary main_v214 main_v215 (broadcastInDim S500000x1 ![0] bcast_S500000_S500000x1_0),
    binary main_v186 main_v215 main_v216 (Host.gather gather_S50000x64_S500000x1_S500000x64_1_0_n_n_0_1_164),
    binary main_v209 main_v216 main_v217 mulf,
    binary main_v217 main_v192 main_v218 (Host.dotGeneral dot_S500000x64_S64x64_S500000x64_1_0_0_1_n_n none),
    unary main_v194 main_v219 (broadcastInDim S1x64 ![1] bcast_S64_S1x64_1),
    unary main_v219 main_v220 (broadcastInDim S500000x64 ![0, 1] bcast_S1x64_S500000x64_0_1),
    binary main_v218 main_v220 main_v221 addf,
    nullary main_c_42 (constantI S_ 32 0#32),
    unary main_c_42 main_v222 (broadcastInDim S500000 ![] bcast_S_S500000),
    binary main_arg6 main_v222 main_v223 (cmpi .slt),
    nullary main_c_43 (constantI S_ 32 100000#32),
    unary main_c_43 main_v224 (broadcastInDim S500000 ![] bcast_S_S500000),
    binary main_arg6 main_v224 main_v225 addi,
    ternary main_v223 main_v225 main_arg6 main_v226 select,
    unary main_v226 main_v227 (broadcastInDim S500000x1 ![0] bcast_S500000_S500000x1_0),
    binary main_v198 main_v227 main_v228 (Host.gather gather_S100000x64_S500000x1_S500000x64_1_0_n_n_0_1_164),
    binary main_v228 main_v221 main_v229 addf,
    unary main_v24 main_v230 (broadcastInDim S500000x64 ![0, 1] bcast_S500000x1_S500000x64_0_1),
    binary main_v230 main_v229 main_v231 mulf,
    nullary main_c_44 (constantI S_ 32 0#32),
    unary main_c_44 main_v232 (broadcastInDim S500000 ![] bcast_S_S500000),
    binary main_arg7 main_v232 main_v233 (cmpi .slt),
    nullary main_c_45 (constantI S_ 32 50000#32),
    unary main_c_45 main_v234 (broadcastInDim S500000 ![] bcast_S_S500000),
    binary main_arg7 main_v234 main_v235 addi,
    ternary main_v233 main_v235 main_arg7 main_v236 select,
    unary main_v236 main_v237 (broadcastInDim S500000x1 ![0] bcast_S500000_S500000x1_0),
    binary main_v202 main_v237 main_v238 (Host.gather gather_S50000x64_S500000x1_S500000x64_1_0_n_n_0_1_164),
    binary main_v238 main_v221 main_v239 addf,
    unary main_v24 main_v240 (broadcastInDim S500000x64 ![0, 1] bcast_S500000x1_S500000x64_0_1),
    binary main_v240 main_v239 main_v241 mulf,
    nullary main_cst_46 (constant S_ .f32 0x00000000#32),
    unary main_cst_46 main_v242 (broadcastInDim S100000x64 ![] bcast_S_S100000x64),
    unary main_arg6 main_v243 (broadcastInDim S500000x1 ![0] bcast_S500000_S500000x1_0),
    ternary main_v242 main_v243 main_v241 main_v244 (Host.scatterAdd scatter_S100000x64_S500000x1_S500000x64_1_0_0_1),
    binary main_v198 main_v244 main_v245 addf,
    nullary main_cst_47 (constant S_ .f32 0x00000000#32),
    unary main_cst_47 main_v246 (broadcastInDim S50000x64 ![] bcast_S_S50000x64),
    unary main_arg7 main_v247 (broadcastInDim S500000x1 ![0] bcast_S500000_S500000x1_0),
    ternary main_v246 main_v247 main_v231 main_v248 (Host.scatterAdd scatter_S50000x64_S500000x1_S500000x64_1_0_0_1),
    binary main_v202 main_v248 main_v249 addf ]

abbrev ops4_W : List (Ref sig .tc) :=
  [ main_v200, main_v201, main_v202, main_c_38, main_v203, main_v204, main_c_39, main_v205, main_v206, main_v207, main_v208, main_v209, main_c_40, main_v210, main_v211, main_c_41, main_v212, main_v213, main_v214, main_v215, main_v216, main_v217, main_v218, main_v219, main_v220, main_v221, main_c_42, main_v222, main_v223, main_c_43, main_v224, main_v225, main_v226, main_v227, main_v228, main_v229, main_v230, main_v231, main_c_44, main_v232, main_v233, main_c_45, main_v234, main_v235, main_v236, main_v237, main_v238, main_v239, main_v240, main_v241, main_cst_46, main_v242, main_v243, main_v244, main_v245, main_cst_47, main_v246, main_v247, main_v248, main_v249 ]

abbrev ops5 : List (HloOp τ sig (Elt F)) :=
  [ nullary main_cst_48 (constant S_ .f32 0x3E4CCCCD#32),
    StableHlo.TRef.nullary main_call4.cst (constant S_ .f32 0x00000000#32),
    StableHlo.TRef.unary main_call4.cst main_call4.v0 (broadcastInDim S100000x64 ![] bcast_S_S100000x64),
    StableHlo.TRef.binary (.of main_v245 : StableHlo.TRef sig ⟨S100000x64, .f32⟩) main_call4.v0 main_call4.v1 (cmpf .oge),
    StableHlo.TRef.unary (.of main_cst_48 : StableHlo.TRef sig ⟨S_, .f32⟩) main_call4.v2 id,
    StableHlo.TRef.unary main_call4.v2 main_call4.v3 (broadcastInDim S100000x64 ![] bcast_S_S100000x64),
    StableHlo.TRef.binary main_call4.v3 (.of main_v245 : StableHlo.TRef sig ⟨S100000x64, .f32⟩) main_call4.v4 mulf,
    StableHlo.TRef.ternary main_call4.v1 (.of main_v245 : StableHlo.TRef sig ⟨S100000x64, .f32⟩) main_call4.v4 main_call4.call0.v0 select,
    binary main_v250 main_v250 main_v251 mulf,
    nullary main_cst_49 (constant S_ .f32 0x00000000#32),
    binary main_v251 main_cst_49 main_v252 (fun x v => Host.reduceAdd x v reducesTo_S100000x64_S100000_d1 h_S_),
    unary main_v252 main_v253 (broadcastInDim S100000x1 ![0] bcast_S100000_S100000x1_0),
    unary main_v253 main_v254 Host.sqrt,
    nullary main_cst_50 (constant S_ .f32 0x2B8CBCCC#32),
    unary main_cst_50 main_v255 (broadcastInDim S100000x1 ![] bcast_S_S100000x1),
    binary main_v254 main_v255 main_v256 maximumf,
    unary main_v256 main_v257 (broadcastInDim S100000x64 ![0, 1] bcast_S100000x1_S100000x64_0_1),
    binary main_v250 main_v257 main_v258 Host.divf,
    nullary main_cst_51 (constant S_ .f32 0x3E4CCCCD#32),
    StableHlo.TRef.nullary main_call5.cst (constant S_ .f32 0x00000000#32),
    StableHlo.TRef.unary main_call5.cst main_call5.v0 (broadcastInDim S50000x64 ![] bcast_S_S50000x64),
    StableHlo.TRef.binary (.of main_v249 : StableHlo.TRef sig ⟨S50000x64, .f32⟩) main_call5.v0 main_call5.v1 (cmpf .oge),
    StableHlo.TRef.unary (.of main_cst_51 : StableHlo.TRef sig ⟨S_, .f32⟩) main_call5.v2 id,
    StableHlo.TRef.unary main_call5.v2 main_call5.v3 (broadcastInDim S50000x64 ![] bcast_S_S50000x64),
    StableHlo.TRef.binary main_call5.v3 (.of main_v249 : StableHlo.TRef sig ⟨S50000x64, .f32⟩) main_call5.v4 mulf,
    StableHlo.TRef.ternary main_call5.v1 (.of main_v249 : StableHlo.TRef sig ⟨S50000x64, .f32⟩) main_call5.v4 main_call5.call0.v0 select,
    binary main_v259 main_v259 main_v260 mulf,
    nullary main_cst_52 (constant S_ .f32 0x00000000#32),
    binary main_v260 main_cst_52 main_v261 (fun x v => Host.reduceAdd x v reducesTo_S50000x64_S50000_d1 h_S_),
    unary main_v261 main_v262 (broadcastInDim S50000x1 ![0] bcast_S50000_S50000x1_0),
    unary main_v262 main_v263 Host.sqrt,
    nullary main_cst_53 (constant S_ .f32 0x2B8CBCCC#32),
    unary main_cst_53 main_v264 (broadcastInDim S50000x1 ![] bcast_S_S50000x1),
    binary main_v263 main_v264 main_v265 maximumf,
    unary main_v265 main_v266 (broadcastInDim S50000x64 ![0, 1] bcast_S50000x1_S50000x64_0_1),
    binary main_v259 main_v266 main_v267 Host.divf,
    nary ![main_arg0, main_v96, main_v177, main_v258] main_v268 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    nary ![main_arg1, main_v105, main_v186, main_v267] main_v269 (fun u => concatenate S50000x256 1 [⟨S50000x64, u 0⟩, ⟨S50000x64, u 1⟩, ⟨S50000x64, u 2⟩, ⟨S50000x64, u 3⟩] concatenates_S50000x64_S50000x64_S50000x64_S50000x64_S50000x256_d1),
    nullary main_c_54 (constantI S_ 32 0#32),
    unary main_c_54 main_v270 (broadcastInDim S8192 ![] bcast_S_S8192),
    binary main_arg8 main_v270 main_v271 (cmpi .slt),
    nullary main_c_55 (constantI S_ 32 100000#32),
    unary main_c_55 main_v272 (broadcastInDim S8192 ![] bcast_S_S8192),
    binary main_arg8 main_v272 main_v273 addi,
    ternary main_v271 main_v273 main_arg8 main_v274 select,
    unary main_v274 main_v275 (broadcastInDim S8192x1 ![0] bcast_S8192_S8192x1_0),
    binary main_v268 main_v275 main_v276 (Host.gather gather_S100000x256_S8192x1_S8192x256_1_0_n_n_0_1_1256),
    nullary main_c_56 (constantI S_ 32 0#32),
    unary main_c_56 main_v277 (broadcastInDim S8192 ![] bcast_S_S8192),
    binary main_arg9 main_v277 main_v278 (cmpi .slt),
    nullary main_c_57 (constantI S_ 32 50000#32),
    unary main_c_57 main_v279 (broadcastInDim S8192 ![] bcast_S_S8192),
    binary main_arg9 main_v279 main_v280 addi,
    ternary main_v278 main_v280 main_arg9 main_v281 select,
    unary main_v281 main_v282 (broadcastInDim S8192x1 ![0] bcast_S8192_S8192x1_0),
    binary main_v269 main_v282 main_v283 (Host.gather gather_S50000x256_S8192x1_S8192x256_1_0_n_n_0_1_1256),
    nullary main_c_58 (constantI S_ 32 0#32),
    unary main_c_58 main_v284 (broadcastInDim S8192 ![] bcast_S_S8192),
    binary main_arg10 main_v284 main_v285 (cmpi .slt),
    nullary main_c_59 (constantI S_ 32 50000#32),
    unary main_c_59 main_v286 (broadcastInDim S8192 ![] bcast_S_S8192),
    binary main_arg10 main_v286 main_v287 addi,
    ternary main_v285 main_v287 main_arg10 main_v288 select,
    unary main_v288 main_v289 (broadcastInDim S8192x1 ![0] bcast_S8192_S8192x1_0),
    binary main_v269 main_v289 main_v290 (Host.gather gather_S50000x256_S8192x1_S8192x256_1_0_n_n_0_1_1256) ]

abbrev ops5_W : List (Ref sig .tc) :=
  [ main_cst_48, main_call4.cst.ref, main_call4.v0.ref, main_call4.v1.ref, main_call4.v2.ref, main_call4.v3.ref, main_call4.v4.ref, main_call4.call0.v0.ref, main_v251, main_cst_49, main_v252, main_v253, main_v254, main_cst_50, main_v255, main_v256, main_v257, main_v258, main_cst_51, main_call5.cst.ref, main_call5.v0.ref, main_call5.v1.ref, main_call5.v2.ref, main_call5.v3.ref, main_call5.v4.ref, main_call5.call0.v0.ref, main_v260, main_cst_52, main_v261, main_v262, main_v263, main_cst_53, main_v264, main_v265, main_v266, main_v267, main_v268, main_v269, main_c_54, main_v270, main_v271, main_c_55, main_v272, main_v273, main_v274, main_v275, main_v276, main_c_56, main_v277, main_v278, main_c_57, main_v279, main_v280, main_v281, main_v282, main_v283, main_c_58, main_v284, main_v285, main_c_59, main_v286, main_v287, main_v288, main_v289, main_v290 ]

abbrev ops : List (HloOp τ sig (Elt F)) := ops0 ++ (ops1 ++ (ops2 ++ (ops3 ++ (ops4 ++ ops5))))

abbrev ops_W : List (Ref sig .tc) := ops0_W ++ (ops1_W ++ (ops2_W ++ (ops3_W ++ (ops4_W ++ ops5_W))))

set_option maxRecDepth 8192 in
-- each window unfolds to the chain of steps that `seq` makes of its list, and `seq` of a concatenation runs the parts in order
theorem main_eq (c : Dev nD) : main (F := F) c = seq ops := by
  have h : (seq (ops (F := F)) : Prog (TpuEff nD τ sig (Elt F) _ .tc) PUnit) =
      (main_part0 (F := F) c >>= fun _ => main_part1 c >>= fun _ => main_part2 c >>= fun _ => main_part3 c >>= fun _ =>
        main_part4 c >>= fun _ => main_part5 c) := by
    rw [show main_part0 (F := F) c = seq ops0 from rfl, show main_part1 (F := F) c = seq ops1 from rfl,
      show main_part2 (F := F) c = seq ops2 from rfl, show main_part3 (F := F) c = seq ops3 from rfl,
      show main_part4 (F := F) c = seq ops4 from rfl, show main_part5 (F := F) c = seq ops5 from rfl]
    simp only [ops, seq_append]
  rw [h]
  rfl

theorem ops_sub : (ops : List (HloOp τ sig (Elt F))).Forall fun op => op.bufs ⊆ tcRefs τ sig := by
  simp only [ops, List.forall_append, List.Forall, nullary_bufs_sub, unary_bufs_sub, binary_bufs_sub, ternary_bufs_sub,
    reshape_bufs_sub, nary_bufs_sub, and_self]

theorem ops_fresh : ∀ op ∈ (ops : List (HloOp τ sig (Elt F))), op.fresh = ∅ :=
  List.forall_iff_forall_mem.mp (by simp only [ops, List.forall_append, List.Forall]; and_intros <;> rfl)

theorem ops_writesAre : WritesAre (ops (F := F)) ops_W := by
  refine .append ?_ (.append ?_ (.append ?_ (.append ?_ (.append ?_ ?_)))) <;>
    simp only [WritesAre, nullary_writes, unary_writes, binary_writes, ternary_writes, reshape_writes, nary_writes, and_self]

set_option maxRecDepth 65536 in
theorem ops_W_idx_lt : (ops_W.map fun r : Ref sig .tc => r.idx.val).IsChain (· < ·) := by decide

-- strictly increasing indices are pairwise different
theorem ops_W_nodup : ops_W.Nodup :=
  List.Nodup.of_map _ ((List.isChain_iff_pairwise.mp ops_W_idx_lt).imp fun h => ne_of_lt h)

theorem keep (V : Valuation τ sig (Elt F)) (r : Ref sig .tc) (h : r ∉ ops_W) :
    after ops V (Proc.devRef .tc r) = V (Proc.devRef .tc r) :=
  ops_writesAre.keep h V

theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq (by decide) (by decide) defs main (fun _ => ops) main_eq (fun _ => ops_sub) m ρ (fun _ => ops_fresh)

abbrev Rv (m : (ℓ : Loc nD τ sig) → Buf (Elt F) ℓ) (c : Dev nD) : Valuation τ sig (Elt F) := after ops (launchContents m c)

-- no operation writes an argument, so each ends as the launch left it
theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v276) = Rv m c (Proc.devRef .tc main_v276)
      ∧ r.2.mem ((c.tc : Thread nD τ).loc main_v283) = Rv m c (Proc.devRef .tc main_v283)
      ∧ r.2.mem ((c.tc : Thread nD τ).loc main_v290) = Rv m c (Proc.devRef .tc main_v290)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun x h c =>
      have k : ∀ r : Ref sig .tc, r ∉ ops_W → x.2.mem ((c.tc : Thread nD τ).loc r) = m ((c.tc : Thread nD τ).loc r) :=
        fun r hr => (h c r).trans (keep _ r hr)
      ⟨h c main_v276, h c main_v283, h c main_v290, k main_arg0 (by decide), k main_arg1 (by decide), k main_arg2 (by decide),
       k main_arg3 (by decide), k main_arg4 (by decide), k main_arg5 (by decide), k main_arg6 (by decide), k main_arg7 (by decide),
       k main_arg8 (by decide), k main_arg9 (by decide), k main_arg10 (by decide)⟩)
    (run_raw m ρ)

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2.2.2) (run_values m ρ)

end Cert.ReferenceIdeal.Hand

end
-- ==== Proof.KI.Keep.lean ====
import proofs.«431207_j9844065042802_4_alg».proof.Proof.KI.Chain

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

-- Along a line of contents, each next one differs from the one before only at the references listed for that step.
def StepsFrom : Valuation τ sig (Elt F) → List (Valuation τ sig (Elt F)) → List (List (Ref sig .tc)) → Prop
  | _, [], _ => True
  | A, B :: L, W :: Ws => (∀ r : Ref sig .tc, r ∉ W → B r = A r) ∧ StepsFrom B L Ws
  | _, _ :: _, [] => False

-- So a reference that no step from place `0` to place `n` lists holds at place `n` what it held at place `0`,
theorem StepsFrom.keep0 {r : Ref sig .tc} : ∀ (n : ℕ) (A : Valuation τ sig (Elt F)) (L Ws), StepsFrom A L Ws →
    (∀ k, k < n → r ∉ Ws.getD k []) → ∀ B, (A :: L)[n]? = some B → B r = A r
  | 0, A, L, Ws, _, _, B, hB => by cases (show some A = some B from hB); rfl
  | n + 1, A, [], Ws, _, _, B, hB => nomatch (show (none : Option (Valuation τ sig (Elt F))) = some B from hB)
  | n + 1, A, B' :: L, [], hS, _, B, hB => hS.elim
  | n + 1, A, B' :: L, W :: Ws, hS, hW, B, hB =>
    (StepsFrom.keep0 n B' L Ws hS.2 (fun k hk => hW (k + 1) (Nat.succ_lt_succ hk)) B hB).trans (hS.1 r (hW 0 n.succ_pos))

-- and the same from any place `i` on.
theorem StepsFrom.keep {r : Ref sig .tc} : ∀ (i n : ℕ) (A : Valuation τ sig (Elt F)) (L Ws), StepsFrom A L Ws →
    (∀ k, k < n → r ∉ Ws.getD (i + k) []) → ∀ A' B, (A :: L)[i]? = some A' → (A :: L)[i + n]? = some B → B r = A' r
  | 0, n, A, L, Ws, hS, hW, A', B, hA, hB => by
    cases (show some A = some A' from hA)
    exact StepsFrom.keep0 n A L Ws hS (fun k hk => by have := hW k hk; rwa [Nat.zero_add] at this) B (by rwa [Nat.zero_add] at hB)
  | i + 1, n, A, [], Ws, _, _, A', B, hA, _ => nomatch (show (none : Option (Valuation τ sig (Elt F))) = some A' from hA)
  | i + 1, n, A, B' :: L, [], hS, _, _, _, _, _ => hS.elim
  | i + 1, n, A, B' :: L, W :: Ws, hS, hW, A', B, hA, hB =>
    StepsFrom.keep i n B' L Ws hS.2 (fun k hk => by have := hW k hk; rwa [Nat.add_right_comm] at this) A' B hA (by rwa [Nat.add_right_comm] at hB)

variable (m : (ℓ : Loc nD τ sig) → Buf (Elt F) ℓ)

-- The contents after each item of @main, in order, from the one after the first host stretch on,
def laterXs (c : Dev nD) : List (Valuation τ sig (Elt F)) :=
  [X1 m c, X2 m c, X3 m c, X4 m c, X5 m c, X6 m c, X7 m c, X8 m c, X9 m c, X10 m c, X11 m c, X12 m c, X13 m c, X14 m c, X15 m c, X16 m c, X17 m c, X18 m c, X19 m c, X20 m c, X21 m c, X22 m c, X23 m c, X24 m c, X25 m c, X26 m c, X27 m c, X28 m c]

-- and what each item writes.
def itemWs : List (List (Ref sig .tc)) :=
  [hostOps0_W, [main_v34], hostOps1_W, [main_v36], hostOps2_W, [main_v66_0, main_v66_1], hostOps3_W, [main_v73], [main_v74], hostOps5_W, [main_v84], hostOps6_W, [main_v86], hostOps7_W, [main_v116_0, main_v116_1], hostOps8_W, [main_v123], [main_v124], hostOps10_W, [main_v134], hostOps11_W, [main_v136], hostOps12_W, [main_v166_0, main_v166_1], hostOps13_W, [main_v173], [main_v174], hostOps15_W]

theorem upd_of_not_mem {X : Valuation τ sig (Elt F)} {a r : Ref sig .tc} {v} (h : r ∉ [a]) :
    Function.update X (Proc.devRef .tc a) v (Proc.devRef .tc r) = X (Proc.devRef .tc r) :=
  Function.update_of_ne (StableHlo.devRef_ne_of_ne (List.ne_of_not_mem_cons h)) _ _

theorem upd2_of_not_mem {X : Valuation τ sig (Elt F)} {a b r : Ref sig .tc} {v w} (h : r ∉ [a, b]) :
    Function.update (Function.update X (Proc.devRef .tc a) v) (Proc.devRef .tc b) w (Proc.devRef .tc r) = X (Proc.devRef .tc r) :=
  (upd_of_not_mem fun e => h (List.mem_cons_of_mem _ e)).trans (upd_of_not_mem fun e => h (List.mem_cons.mpr (Or.inl (List.mem_singleton.mp e))))

-- A host stretch changes only what its operations write, a launch only its results.
theorem steps (c : Dev nD) : StepsFrom (V0 m c) (laterXs m c) itemWs :=
  ⟨fun _ h => StableHlo.after_of_writes_sub hostOps0 _ hostOps0_writes h,
    fun _ h => upd_of_not_mem h,
    fun _ h => StableHlo.after_of_writes_sub hostOps1 _ hostOps1_writes h,
    fun _ h => upd_of_not_mem h,
    fun _ h => StableHlo.after_of_writes_sub hostOps2 _ hostOps2_writes h,
    fun _ h => upd2_of_not_mem h,
    fun _ h => StableHlo.after_of_writes_sub hostOps3 _ hostOps3_writes h,
    fun _ h => upd_of_not_mem h,
    fun _ h => upd_of_not_mem h,
    fun _ h => StableHlo.after_of_writes_sub hostOps5 _ hostOps5_writes h,
    fun _ h => upd_of_not_mem h,
    fun _ h => StableHlo.after_of_writes_sub hostOps6 _ hostOps6_writes h,
    fun _ h => upd_of_not_mem h,
    fun _ h => StableHlo.after_of_writes_sub hostOps7 _ hostOps7_writes h,
    fun _ h => upd2_of_not_mem h,
    fun _ h => StableHlo.after_of_writes_sub hostOps8 _ hostOps8_writes h,
    fun _ h => upd_of_not_mem h,
    fun _ h => upd_of_not_mem h,
    fun _ h => StableHlo.after_of_writes_sub hostOps10 _ hostOps10_writes h,
    fun _ h => upd_of_not_mem h,
    fun _ h => StableHlo.after_of_writes_sub hostOps11 _ hostOps11_writes h,
    fun _ h => upd_of_not_mem h,
    fun _ h => StableHlo.after_of_writes_sub hostOps12 _ hostOps12_writes h,
    fun _ h => upd2_of_not_mem h,
    fun _ h => StableHlo.after_of_writes_sub hostOps13 _ hostOps13_writes h,
    fun _ h => upd_of_not_mem h,
    fun _ h => upd_of_not_mem h,
    fun _ h => StableHlo.after_of_writes_sub hostOps15 _ hostOps15_writes h,
    trivial⟩

theorem keep1_main_arg0 (c : Dev nD) : X1 m c main_arg0 = V0 m c main_arg0 := (steps m c).keep 0 1 _ _ _ (by decide) _ _ rfl rfl
theorem keep4_main_arg0 (c : Dev nD) : X4 m c main_arg0 = V0 m c main_arg0 := (steps m c).keep 0 4 _ _ _ (by decide) _ _ rfl rfl
theorem keep27_main_arg0 (c : Dev nD) : X27 m c main_arg0 = V0 m c main_arg0 := (steps m c).keep 0 27 _ _ _ (by decide) _ _ rfl rfl
theorem keep3_main_arg1 (c : Dev nD) : X3 m c main_arg1 = V0 m c main_arg1 := (steps m c).keep 0 3 _ _ _ (by decide) _ _ rfl rfl
theorem keep4_main_arg1 (c : Dev nD) : X4 m c main_arg1 = V0 m c main_arg1 := (steps m c).keep 0 4 _ _ _ (by decide) _ _ rfl rfl
theorem keep27_main_arg1 (c : Dev nD) : X27 m c main_arg1 = V0 m c main_arg1 := (steps m c).keep 0 27 _ _ _ (by decide) _ _ rfl rfl
theorem keep9_main_arg2 (c : Dev nD) : X9 m c main_arg2 = V0 m c main_arg2 := (steps m c).keep 0 9 _ _ _ (by decide) _ _ rfl rfl
theorem keep18_main_arg2 (c : Dev nD) : X18 m c main_arg2 = V0 m c main_arg2 := (steps m c).keep 0 18 _ _ _ (by decide) _ _ rfl rfl
theorem keep9_main_arg3 (c : Dev nD) : X9 m c main_arg3 = V0 m c main_arg3 := (steps m c).keep 0 9 _ _ _ (by decide) _ _ rfl rfl
theorem keep18_main_arg3 (c : Dev nD) : X18 m c main_arg3 = V0 m c main_arg3 := (steps m c).keep 0 18 _ _ _ (by decide) _ _ rfl rfl
theorem keep9_main_arg4 (c : Dev nD) : X9 m c main_arg4 = V0 m c main_arg4 := (steps m c).keep 0 9 _ _ _ (by decide) _ _ rfl rfl
theorem keep18_main_arg4 (c : Dev nD) : X18 m c main_arg4 = V0 m c main_arg4 := (steps m c).keep 0 18 _ _ _ (by decide) _ _ rfl rfl
theorem keep9_main_arg5 (c : Dev nD) : X9 m c main_arg5 = V0 m c main_arg5 := (steps m c).keep 0 9 _ _ _ (by decide) _ _ rfl rfl
theorem keep18_main_arg5 (c : Dev nD) : X18 m c main_arg5 = V0 m c main_arg5 := (steps m c).keep 0 18 _ _ _ (by decide) _ _ rfl rfl
theorem keep4_main_arg6 (c : Dev nD) : X4 m c main_arg6 = V0 m c main_arg6 := (steps m c).keep 0 4 _ _ _ (by decide) _ _ rfl rfl
theorem keep6_main_arg6 (c : Dev nD) : X6 m c main_arg6 = V0 m c main_arg6 := (steps m c).keep 0 6 _ _ _ (by decide) _ _ rfl rfl
theorem keep13_main_arg6 (c : Dev nD) : X13 m c main_arg6 = V0 m c main_arg6 := (steps m c).keep 0 13 _ _ _ (by decide) _ _ rfl rfl
theorem keep15_main_arg6 (c : Dev nD) : X15 m c main_arg6 = V0 m c main_arg6 := (steps m c).keep 0 15 _ _ _ (by decide) _ _ rfl rfl
theorem keep22_main_arg6 (c : Dev nD) : X22 m c main_arg6 = V0 m c main_arg6 := (steps m c).keep 0 22 _ _ _ (by decide) _ _ rfl rfl
theorem keep24_main_arg6 (c : Dev nD) : X24 m c main_arg6 = V0 m c main_arg6 := (steps m c).keep 0 24 _ _ _ (by decide) _ _ rfl rfl
theorem keep4_main_arg7 (c : Dev nD) : X4 m c main_arg7 = V0 m c main_arg7 := (steps m c).keep 0 4 _ _ _ (by decide) _ _ rfl rfl
theorem keep6_main_arg7 (c : Dev nD) : X6 m c main_arg7 = V0 m c main_arg7 := (steps m c).keep 0 6 _ _ _ (by decide) _ _ rfl rfl
theorem keep13_main_arg7 (c : Dev nD) : X13 m c main_arg7 = V0 m c main_arg7 := (steps m c).keep 0 13 _ _ _ (by decide) _ _ rfl rfl
theorem keep15_main_arg7 (c : Dev nD) : X15 m c main_arg7 = V0 m c main_arg7 := (steps m c).keep 0 15 _ _ _ (by decide) _ _ rfl rfl
theorem keep22_main_arg7 (c : Dev nD) : X22 m c main_arg7 = V0 m c main_arg7 := (steps m c).keep 0 22 _ _ _ (by decide) _ _ rfl rfl
theorem keep24_main_arg7 (c : Dev nD) : X24 m c main_arg7 = V0 m c main_arg7 := (steps m c).keep 0 24 _ _ _ (by decide) _ _ rfl rfl
theorem keep27_main_arg8 (c : Dev nD) : X27 m c main_arg8 = V0 m c main_arg8 := (steps m c).keep 0 27 _ _ _ (by decide) _ _ rfl rfl
theorem keep27_main_arg9 (c : Dev nD) : X27 m c main_arg9 = V0 m c main_arg9 := (steps m c).keep 0 27 _ _ _ (by decide) _ _ rfl rfl
theorem keep27_main_arg10 (c : Dev nD) : X27 m c main_arg10 = V0 m c main_arg10 := (steps m c).keep 0 27 _ _ _ (by decide) _ _ rfl rfl
theorem keep5_main_v24 (c : Dev nD) : X5 m c main_v24 = X1 m c main_v24 := (steps m c).keep 1 4 _ _ _ (by decide) _ _ rfl rfl
theorem keep14_main_v24 (c : Dev nD) : X14 m c main_v24 = X1 m c main_v24 := (steps m c).keep 1 13 _ _ _ (by decide) _ _ rfl rfl
theorem keep23_main_v24 (c : Dev nD) : X23 m c main_v24 = X1 m c main_v24 := (steps m c).keep 1 22 _ _ _ (by decide) _ _ rfl rfl
theorem keep3_main_v26 (c : Dev nD) : X3 m c main_v26 = X1 m c main_v26 := (steps m c).keep 1 2 _ _ _ (by decide) _ _ rfl rfl
theorem keep2_main_v28 (c : Dev nD) : X2 m c main_v28 = X1 m c main_v28 := (steps m c).keep 1 1 _ _ _ (by decide) _ _ rfl rfl
theorem keep5_main_v30 (c : Dev nD) : X5 m c main_v30 = X1 m c main_v30 := (steps m c).keep 1 4 _ _ _ (by decide) _ _ rfl rfl
theorem keep4_main_v32 (c : Dev nD) : X4 m c main_v32 = X1 m c main_v32 := (steps m c).keep 1 3 _ _ _ (by decide) _ _ rfl rfl
theorem keep4_main_v34 (c : Dev nD) : X4 m c main_v34 = X2 m c main_v34 := (steps m c).keep 2 2 _ _ _ (by decide) _ _ rfl rfl
theorem keep7_main_v34 (c : Dev nD) : X7 m c main_v34 = X2 m c main_v34 := (steps m c).keep 2 5 _ _ _ (by decide) _ _ rfl rfl
theorem keep8_main_v36 (c : Dev nD) : X8 m c main_v36 = X4 m c main_v36 := (steps m c).keep 4 4 _ _ _ (by decide) _ _ rfl rfl
theorem keep8_main_v72 (c : Dev nD) : X8 m c main_v72 = X7 m c main_v72 := (steps m c).keep 7 1 _ _ _ (by decide) _ _ rfl rfl
theorem keep10_main_v73 (c : Dev nD) : X10 m c main_v73 = X8 m c main_v73 := (steps m c).keep 8 2 _ _ _ (by decide) _ _ rfl rfl
theorem keep13_main_v73 (c : Dev nD) : X13 m c main_v73 = X8 m c main_v73 := (steps m c).keep 8 5 _ _ _ (by decide) _ _ rfl rfl
theorem keep27_main_v73 (c : Dev nD) : X27 m c main_v73 = X8 m c main_v73 := (steps m c).keep 8 19 _ _ _ (by decide) _ _ rfl rfl
theorem keep12_main_v74 (c : Dev nD) : X12 m c main_v74 = X9 m c main_v74 := (steps m c).keep 9 3 _ _ _ (by decide) _ _ rfl rfl
theorem keep13_main_v74 (c : Dev nD) : X13 m c main_v74 = X9 m c main_v74 := (steps m c).keep 9 4 _ _ _ (by decide) _ _ rfl rfl
theorem keep27_main_v74 (c : Dev nD) : X27 m c main_v74 = X9 m c main_v74 := (steps m c).keep 9 18 _ _ _ (by decide) _ _ rfl rfl
theorem keep12_main_v76 (c : Dev nD) : X12 m c main_v76 = X10 m c main_v76 := (steps m c).keep 10 2 _ _ _ (by decide) _ _ rfl rfl
theorem keep11_main_v78 (c : Dev nD) : X11 m c main_v78 = X10 m c main_v78 := (steps m c).keep 10 1 _ _ _ (by decide) _ _ rfl rfl
theorem keep14_main_v80 (c : Dev nD) : X14 m c main_v80 = X10 m c main_v80 := (steps m c).keep 10 4 _ _ _ (by decide) _ _ rfl rfl
theorem keep13_main_v82 (c : Dev nD) : X13 m c main_v82 = X10 m c main_v82 := (steps m c).keep 10 3 _ _ _ (by decide) _ _ rfl rfl
theorem keep13_main_v84 (c : Dev nD) : X13 m c main_v84 = X11 m c main_v84 := (steps m c).keep 11 2 _ _ _ (by decide) _ _ rfl rfl
theorem keep16_main_v84 (c : Dev nD) : X16 m c main_v84 = X11 m c main_v84 := (steps m c).keep 11 5 _ _ _ (by decide) _ _ rfl rfl
theorem keep17_main_v86 (c : Dev nD) : X17 m c main_v86 = X13 m c main_v86 := (steps m c).keep 13 4 _ _ _ (by decide) _ _ rfl rfl
theorem keep17_main_v122 (c : Dev nD) : X17 m c main_v122 = X16 m c main_v122 := (steps m c).keep 16 1 _ _ _ (by decide) _ _ rfl rfl
theorem keep19_main_v123 (c : Dev nD) : X19 m c main_v123 = X17 m c main_v123 := (steps m c).keep 17 2 _ _ _ (by decide) _ _ rfl rfl
theorem keep22_main_v123 (c : Dev nD) : X22 m c main_v123 = X17 m c main_v123 := (steps m c).keep 17 5 _ _ _ (by decide) _ _ rfl rfl
theorem keep27_main_v123 (c : Dev nD) : X27 m c main_v123 = X17 m c main_v123 := (steps m c).keep 17 10 _ _ _ (by decide) _ _ rfl rfl
theorem keep21_main_v124 (c : Dev nD) : X21 m c main_v124 = X18 m c main_v124 := (steps m c).keep 18 3 _ _ _ (by decide) _ _ rfl rfl
theorem keep22_main_v124 (c : Dev nD) : X22 m c main_v124 = X18 m c main_v124 := (steps m c).keep 18 4 _ _ _ (by decide) _ _ rfl rfl
theorem keep27_main_v124 (c : Dev nD) : X27 m c main_v124 = X18 m c main_v124 := (steps m c).keep 18 9 _ _ _ (by decide) _ _ rfl rfl
theorem keep21_main_v126 (c : Dev nD) : X21 m c main_v126 = X19 m c main_v126 := (steps m c).keep 19 2 _ _ _ (by decide) _ _ rfl rfl
theorem keep20_main_v128 (c : Dev nD) : X20 m c main_v128 = X19 m c main_v128 := (steps m c).keep 19 1 _ _ _ (by decide) _ _ rfl rfl
theorem keep23_main_v130 (c : Dev nD) : X23 m c main_v130 = X19 m c main_v130 := (steps m c).keep 19 4 _ _ _ (by decide) _ _ rfl rfl
theorem keep22_main_v132 (c : Dev nD) : X22 m c main_v132 = X19 m c main_v132 := (steps m c).keep 19 3 _ _ _ (by decide) _ _ rfl rfl
theorem keep22_main_v134 (c : Dev nD) : X22 m c main_v134 = X20 m c main_v134 := (steps m c).keep 20 2 _ _ _ (by decide) _ _ rfl rfl
theorem keep25_main_v134 (c : Dev nD) : X25 m c main_v134 = X20 m c main_v134 := (steps m c).keep 20 5 _ _ _ (by decide) _ _ rfl rfl
theorem keep26_main_v136 (c : Dev nD) : X26 m c main_v136 = X22 m c main_v136 := (steps m c).keep 22 4 _ _ _ (by decide) _ _ rfl rfl
theorem keep26_main_v172 (c : Dev nD) : X26 m c main_v172 = X25 m c main_v172 := (steps m c).keep 25 1 _ _ _ (by decide) _ _ rfl rfl
theorem keep27_main_v173 (c : Dev nD) : X27 m c main_v173 = X26 m c main_v173 := (steps m c).keep 26 1 _ _ _ (by decide) _ _ rfl rfl

end Cert.KernelIdeal.Hand

end
-- ==== Proof.Spec.lean ====
import proofs.«431207_j9844065042802_4_alg».proof.ReferenceIdeal
import Idealize.ShloMosaic.PureOps.Ideal

noncomputable section

namespace Cert.Spec

open Idealize.ShloMosaic Cert.ReferenceIdeal

variable {F : FTy → Type} [FloatOps F] [Cert.ReferenceIdeal.Facts]
open Cert.ReferenceIdeal.Facts₀ Cert.ReferenceIdeal.Facts

def lin100000 (h : (⟨S100000x64, .f32⟩ : BufTy).Contents (Elt F)) (w : (⟨S64x64, .f32⟩ : BufTy).Contents (Elt F)) (b : (⟨S1x64, .f32⟩ : BufTy).Contents (Elt F)) : (⟨S100000x64, .f32⟩ : BufTy).Contents (Elt F) :=
  addf (Host.dotGeneral dot_S100000x64_S64x64_S100000x64_1_0_0_1_n_n none h w) (broadcastInDim S100000x64 ![0, 1] bcast_S1x64_S100000x64_0_1 b)

def lin50000 (h : (⟨S50000x64, .f32⟩ : BufTy).Contents (Elt F)) (w : (⟨S64x64, .f32⟩ : BufTy).Contents (Elt F)) (b : (⟨S1x64, .f32⟩ : BufTy).Contents (Elt F)) : (⟨S50000x64, .f32⟩ : BufTy).Contents (Elt F) :=
  addf (Host.dotGeneral dot_S50000x64_S64x64_S50000x64_1_0_0_1_n_n none h w) (broadcastInDim S50000x64 ![0, 1] bcast_S1x64_S50000x64_0_1 b)

def msg (eu ei g : (⟨S500000x64, .f32⟩ : BufTy).Contents (Elt F)) (nrm : (⟨S500000x1, .f32⟩ : BufTy).Contents (Elt F)) (w : (⟨S64x64, .f32⟩ : BufTy).Contents (Elt F)) (b : (⟨S1x64, .f32⟩ : BufTy).Contents (Elt F)) : (⟨S500000x64, .f32⟩ : BufTy).Contents (Elt F) :=
  mulf (broadcastInDim S500000x64 ![0, 1] bcast_S500000x1_S500000x64_0_1 nrm)
    (addf g (addf (Host.dotGeneral dot_S500000x64_S64x64_S500000x64_1_0_0_1_n_n none (mulf eu ei) w)
      (broadcastInDim S500000x64 ![0, 1] bcast_S1x64_S500000x64_0_1 b)))

def lrelu100000 (x : (⟨S100000x64, .f32⟩ : BufTy).Contents (Elt F)) : (⟨S100000x64, .f32⟩ : BufTy).Contents (Elt F) :=
  select (cmpf .oge x (broadcastInDim S100000x64 ![] bcast_S_S100000x64 (constant S_ .f32 0x00000000#32)))
    x (mulf (broadcastInDim S100000x64 ![] bcast_S_S100000x64 (id (constant S_ .f32 0x3E4CCCCD#32))) x)

def rownorm100000 (y : (⟨S100000x64, .f32⟩ : BufTy).Contents (Elt F)) : (⟨S100000x64, .f32⟩ : BufTy).Contents (Elt F) :=
  Host.divf y (broadcastInDim S100000x64 ![0, 1] bcast_S100000x1_S100000x64_0_1
    (maximumf (Host.sqrt (broadcastInDim S100000x1 ![0] bcast_S100000_S100000x1_0
        (Host.reduceAdd (mulf y y) (constant S_ .f32 0x00000000#32) reducesTo_S100000x64_S100000_d1 h_S_)))
      (broadcastInDim S100000x1 ![] bcast_S_S100000x1 (constant S_ .f32 0x2B8CBCCC#32))))

def fin100000 (p agg : (⟨S100000x64, .f32⟩ : BufTy).Contents (Elt F)) : (⟨S100000x64, .f32⟩ : BufTy).Contents (Elt F) :=
  rownorm100000 (lrelu100000 (addf p agg))

def lrelu50000 (x : (⟨S50000x64, .f32⟩ : BufTy).Contents (Elt F)) : (⟨S50000x64, .f32⟩ : BufTy).Contents (Elt F) :=
  select (cmpf .oge x (broadcastInDim S50000x64 ![] bcast_S_S50000x64 (constant S_ .f32 0x00000000#32)))
    x (mulf (broadcastInDim S50000x64 ![] bcast_S_S50000x64 (id (constant S_ .f32 0x3E4CCCCD#32))) x)

def rownorm50000 (y : (⟨S50000x64, .f32⟩ : BufTy).Contents (Elt F)) : (⟨S50000x64, .f32⟩ : BufTy).Contents (Elt F) :=
  Host.divf y (broadcastInDim S50000x64 ![0, 1] bcast_S50000x1_S50000x64_0_1
    (maximumf (Host.sqrt (broadcastInDim S50000x1 ![0] bcast_S50000_S50000x1_0
        (Host.reduceAdd (mulf y y) (constant S_ .f32 0x00000000#32) reducesTo_S50000x64_S50000_d1 h_S_)))
      (broadcastInDim S50000x1 ![] bcast_S_S50000x1 (constant S_ .f32 0x2B8CBCCC#32))))

def fin50000 (p agg : (⟨S50000x64, .f32⟩ : BufTy).Contents (Elt F)) : (⟨S50000x64, .f32⟩ : BufTy).Contents (Elt F) :=
  rownorm50000 (lrelu50000 (addf p agg))

end Cert.Spec

end
-- ==== Proof.KI.ValLinAll.lean ====
import proofs.«431207_j9844065042802_4_alg».proof.Proof.KI.R0
import proofs.«431207_j9844065042802_4_alg».proof.Proof.KI.R1
import proofs.«431207_j9844065042802_4_alg».proof.Proof.KI.R5
import proofs.«431207_j9844065042802_4_alg».proof.Proof.KI.R6
import proofs.«431207_j9844065042802_4_alg».proof.Proof.KI.R10
import proofs.«431207_j9844065042802_4_alg».proof.Proof.KI.R11
import proofs.«431207_j9844065042802_4_alg».proof.Proof.Spec
import proofs.«431207_j9844065042802_4_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen
open scoped BigOperators

theorem lin_hz : (![0, 0] : Fin 2 → Nat) = fun _ => 0 := funext fun a => by fin_cases a <;> rfl

/-- `h · w + b` at row `i 0`, column `i 1`: a sum over the 64 shared coordinates plus the column's bias. -/
def linG {n : Nat} (h : (⟨2, ![n, 64]⟩ : Shape).Idx → EReal) (w : (⟨2, ![64, 64]⟩ : Shape).Idx → EReal) (b : (⟨2, ![1, 64]⟩ : Shape).Idx → EReal) :
    (⟨2, ![n, 64]⟩ : Shape).Idx → EReal :=
  fun i => (∑ k : Fin 64, h (ix2 (i 0) k) * w (ix2 k (i 1))) + b (ix2 (0 : Fin 1) (i 1))

/-- Rows times a 64 × 64 matrix, contracting the rows' second axis with the matrix's first: every product here, on any number of rows. -/
def dotRows (m : Nat) (wf : DotDims.WF (⟨2, ![m, 64]⟩ : Shape) S64x64 (⟨2, ![m, 64]⟩ : Shape) [1] [0] [0] [1] [] []) :
    DotDims (⟨2, ![m, 64]⟩ : Shape) S64x64 (⟨2, ![m, 64]⟩ : Shape) where
  lhsContracting := [1]
  rhsContracting := [0]
  lhsNonContracting := [0]
  rhsNonContracting := [1]
  lhsBatch := []
  rhsBatch := []
  wf := wf

section Dot
variable {m : Nat} (wf : DotDims.WF (⟨2, ![m, 64]⟩ : Shape) S64x64 (⟨2, ![m, 64]⟩ : Shape) [1] [0] [0] [1] [] [])

theorem dotRows_lhs_0 (j : (⟨2, ![m, 64]⟩ : Shape).Idx) (k : (dotRows m wf).contr.Idx) : ((dotRows m wf).lhsIdx j k 0 : ℕ) = j 0 := by
  simp [DotDims.lhsIdx, dotRows]; rfl
theorem dotRows_rhs_1 (j : (⟨2, ![m, 64]⟩ : Shape).Idx) (k : (dotRows m wf).contr.Idx) : ((dotRows m wf).rhsIdx j k 1 : ℕ) = j 1 := by
  simp [DotDims.rhsIdx, dotRows]; rfl

/-- The contraction of such a product at row `r`, column `q` is the sum over the 64 shared coordinates. -/
theorem dotRows_sum (x : (⟨2, ![m, 64]⟩ : Shape).Idx → EReal) (w : S64x64.Idx → EReal) (r : Fin m) (q : Fin 64) :
    ∑ k : (dotRows m wf).contr.Idx, x ((dotRows m wf).lhsIdx (ix2 r q) k) * w ((dotRows m wf).rhsIdx (ix2 r q) k)
      = ∑ k : Fin 64, x (ix2 r k) * w (ix2 k q) := by
  refine (Equiv.sum_comp (contrEquiv1 (dotRows m wf) 64 rfl rfl).symm _).symm.trans (Finset.sum_congr rfl fun k _ => ?_)
  refine congrArg₂ (· * ·) (congrArg x (Shape.idx_ext₂ ?_ ?_)) (congrArg w (Shape.idx_ext₂ ?_ ?_))
  · exact dotRows_lhs_0 wf _ _
  · exact ((dotRows m wf).lhsIdx_val_of_single rfl _ _).trans (contrEquiv1_symm_val _ 64 rfl rfl k)
  · exact ((dotRows m wf).rhsIdx_val_of_single rfl _ _).trans (contrEquiv1_symm_val _ 64 rfl rfl k)
  · exact dotRows_rhs_1 wf _ _

end Dot

/-- A tile of 5000 rows is such a product, so its entry is the same sum plus the bias. -/
theorem linTile_apply (x0 : FVec Ideal S5000x64 .f32) (x1 : FVec Ideal S64x64 .f32) (x2 : FVec Ideal S1x64 .f32) (p : Fin 5000) (q : Fin 64) :
    addf (matmul dot_S5000x64_S64x64_S5000x64_1_0_0_1_n_n none x0 x1 (constant (F := Ideal) S5000x64 .f32 0x00000000#32))
        (broadcastTo S5000x64 x2 broadcasts_S1x64_S5000x64) (ix2 p q)
      = (∑ k : Fin 64, x0 (ix2 p k) * x1 (ix2 k q)) + x2 (ix2 (0 : Fin 1) q) :=
  (addf_apply _ _ _).trans (congrArg₂ (· + ·)
    ((Ideal.matmul_constant_zero_apply _ none x0 x1 (ix2 p q)).trans (dotRows_sum (m := 5000) _ x0 x1 p q))
    (broadcastTo_apply x2 _ (ix2 p q) (ix2 (0 : Fin 1) q) fun a => match a with | ⟨0, _⟩ => rfl | ⟨1, _⟩ => rfl))

theorem linTile_lhs_0 (j : S5000x64.Idx) (k : dot_S5000x64_S64x64_S5000x64_1_0_0_1_n_n.contr.Idx) :
    (dot_S5000x64_S64x64_S5000x64_1_0_0_1_n_n.lhsIdx j k 0 : ℕ) = j 0 := dotRows_lhs_0 _ j k
theorem linTile_lhs_1 (j : S5000x64.Idx) (k : dot_S5000x64_S64x64_S5000x64_1_0_0_1_n_n.contr.Idx) :
    (dot_S5000x64_S64x64_S5000x64_1_0_0_1_n_n.lhsIdx j k 1 : ℕ) = k ⟨0, by decide⟩ :=
  dot_S5000x64_S64x64_S5000x64_1_0_0_1_n_n.lhsIdx_val_of_single rfl j k
theorem linTile_rhs_0 (j : S5000x64.Idx) (k : dot_S5000x64_S64x64_S5000x64_1_0_0_1_n_n.contr.Idx) :
    (dot_S5000x64_S64x64_S5000x64_1_0_0_1_n_n.rhsIdx j k 0 : ℕ) = k ⟨0, by decide⟩ :=
  dot_S5000x64_S64x64_S5000x64_1_0_0_1_n_n.rhsIdx_val_of_single rfl j k
theorem linTile_rhs_1 (j : S5000x64.Idx) (k : dot_S5000x64_S64x64_S5000x64_1_0_0_1_n_n.contr.Idx) :
    (dot_S5000x64_S64x64_S5000x64_1_0_0_1_n_n.rhsIdx j k 1 : ℕ) = j 1 := dotRows_rhs_1 _ j k

/-- The reference's `h · w + b` on `n` rows is `linG`, for any `n`: the same sum again. -/
theorem lin_eq {n : Nat} (wf : DotDims.WF (⟨2, ![n, 64]⟩ : Shape) S64x64 (⟨2, ![n, 64]⟩ : Shape) [1] [0] [0] [1] [] [])
    (bc : S1x64.BroadcastsInDim (⟨2, ![n, 64]⟩ : Shape) ![0, 1])
    (h : FVec Ideal (⟨2, ![n, 64]⟩ : Shape) .f32) (w : FVec Ideal S64x64 .f32) (b : FVec Ideal S1x64 .f32) :
    (addf (Host.dotGeneral (dotRows n wf) none h w) (broadcastInDim (⟨2, ![n, 64]⟩ : Shape) ![0, 1] bc b) : FVec Ideal _ .f32) = linG h w b :=
  funext fun i => by
    obtain ⟨r, q, rfl⟩ : ∃ (r : Fin n) (q : Fin 64), i = ix2 r q := ⟨i 0, i 1, eq_ix2 i⟩
    exact (addf_apply _ _ _).trans (congrArg₂ (· + ·)
      ((Ideal.dotGeneral_apply (dotRows n wf) none .single h w (ix2 r q)).trans (dotRows_sum wf h w r q))
      (broadcastInDim_apply _ bc b (ix2 r q) (ix2 (0 : Fin 1) q) fun a => match a with | ⟨0, _⟩ => rfl | ⟨1, _⟩ => rfl))

/-- The tile computed from the blocks at block row `T` of `h`, all of `w` and the bias row is block row `T` of `h · w + b`:
    each operand's element sits in its array at the block index times the block size plus its own coordinate. -/
theorem lin_block {n T : Nat} {pay : Vec Ideal S5000x64 .f32 → Vec Ideal S64x64 .f32 → Vec Ideal S1x64 .f32 → FVec Ideal S5000x64 .f32}
    (hpay : ∀ x0 x1 x2 p q, pay x0 x1 x2 (ix2 p q) = (∑ k : Fin 64, x0 (ix2 p k) * x1 (ix2 k q)) + x2 (ix2 (0 : Fin 1) q)) (A0 : (⟨2, ![n, 64]⟩ : Shape).Idx → EReal) (A1 : S64x64.Idx → EReal) (A2 : S1x64.Idx → EReal)
    {e0 e3 : S5000x64.Idx → (⟨2, ![n, 64]⟩ : Shape).Idx} {e1 : S64x64.Idx → S64x64.Idx} {e2 : S1x64.Idx → S1x64.Idx}
    {i0 i1 i2 i3 : Fin 2 → Nat}
    (h0 : ∀ y a, (e0 y a : ℕ) = i0 a * S5000x64.size a + y a) (h1 : ∀ y a, (e1 y a : ℕ) = i1 a * S64x64.size a + y a)
    (h2 : ∀ y a, (e2 y a : ℕ) = i2 a * S1x64.size a + y a) (h3 : ∀ y a, (e3 y a : ℕ) = i3 a * S5000x64.size a + y a)
    (hi : i0 = i3 ∧ (i1 = fun _ => 0) ∧ (i2 = fun _ => 0) ∧ i3 = ![T, 0])
    {x0 : Vec Ideal S5000x64 .f32} {x1 : Vec Ideal S64x64 .f32} {x2 : Vec Ideal S1x64 .f32}
    (hx0 : ∀ y, x0 y = A0 (e0 y)) (hx1 : ∀ y, x1 y = A1 (e1 y)) (hx2 : ∀ y, x2 y = A2 (e2 y)) (y : S5000x64.Idx) :
    pay x0 x1 x2 y = linG A0 A1 A2 (e3 y) := by
  obtain ⟨rfl, rfl, rfl, rfl⟩ := hi
  obtain rfl : x0 = fun y => A0 (e0 y) := funext hx0
  obtain rfl : x1 = fun y => A1 (e1 y) := funext hx1
  obtain rfl : x2 = fun y => A2 (e2 y) := funext hx2
  obtain ⟨p, q, rfl⟩ : ∃ (p : Fin 5000) (q : Fin 64), y = ix2 p q := ⟨y 0, y 1, eq_ix2 y⟩
  refine (hpay _ _ _ p q).trans ?_
  unfold linG
  refine congrArg₂ (· + ·) (Finset.sum_congr rfl fun k _ => congrArg₂ (· * ·) (congrArg A0 ?_) (congrArg A1 ?_)) (congrArg A2 ?_)
  · exact Shape.idx_ext₂ ((h0 _ 0).trans (h3 (ix2 p q) 0).symm) ((h0 _ 1).trans (Nat.zero_add _))
  · exact Shape.idx_ext₂ ((h1 _ 0).trans (Nat.zero_add _)) ((h1 _ 1).trans (h3 (ix2 p q) 1).symm)
  · exact Shape.idx_ext₂ (h2 _ 0) ((h2 _ 1).trans (h3 (ix2 p q) 1).symm)

/-- Blocks of 5000 rows at block rows `t < N` hold every row of an array of `N * 5000` rows. -/
theorem rows_cover {n N : Nat} (hn : n = N * 5000) (idx : Fin N → Fin 2 → Nat) (hidx : ∀ t, idx t = ![t.val, 0])
    (i : (⟨2, ![n, 64]⟩ : Shape).Idx) :
    ∃ t : Fin N, ∀ a, idx t a * S5000x64.size a ≤ (i a).val ∧ (i a).val < idx t a * S5000x64.size a + S5000x64.size a := by
  have h0 : (i 0).val < n := (i 0).isLt
  have h1 : (i 1).val < 64 := (i 1).isLt
  refine ⟨⟨(i 0).val / 5000, by omega⟩, fun a => ?_⟩
  rw [hidx]
  match a with
  | ⟨0, _⟩ => show (i 0).val / 5000 * 5000 ≤ (i 0).val ∧ (i 0).val < (i 0).val / 5000 * 5000 + 5000; omega
  | ⟨1, _⟩ => show 0 * 64 ≤ (i 1).val ∧ (i 1).val < 0 * 64 + 64; omega

/-- An index within a rectangle's bounds on every axis is under the slice of a whole array at that rectangle. -/
theorem mem_whole_slice (b : Ref sig .tc) {off size : Fin b.ty.shape.rank → Nat} {inb} {i : b.ty.shape.Idx}
    (h : ∀ a, off a ≤ (i a).val ∧ (i a).val < off a + size a) : i ∈ ((View.whole b).slice (Rect.unit off size inb)).set := by
  rw [View.set_slice_whole]; exact Rect.mem_set_unit.mpr h

/-- Writing the whole tile with a function of whole reads leaves that function of what was read. -/
theorem tile_out (pay : Vec Ideal S5000x64 .f32 → Vec Ideal S64x64 .f32 → Vec Ideal S1x64 .f32 → FVec Ideal S5000x64 .f32)
    (x0 : Vec Ideal S5000x64 .f32) (x1 : Vec Ideal S64x64 .f32) (x2 : Vec Ideal S1x64 .f32) :
    (View.canon [⟨Rect.unit (s := S5000x64) ![0, 0] S5000x64.size inb_S5000x64_S5000x64_0_0,
      pay (View.ld x0 (Rect.unit (s := S5000x64) ![0, 0] S5000x64.size inb_S5000x64_S5000x64_0_0))
        (View.ld x1 (Rect.unit (s := S64x64) ![0, 0] S64x64.size inb_S64x64_S64x64_0_0))
        (View.ld x2 (Rect.unit (s := S1x64) ![0, 0] S1x64.size inb_S1x64_S1x64_0_0))⟩] : Vec Ideal S5000x64 .f32) = pay x0 x1 x2 := by
  rw [View.canon_unit_zero lin_hz, View.ld_unit_zero lin_hz, View.ld_unit_zero lin_hz, View.ld_unit_zero lin_hz]

variable (V : (c : Dev nD) → (b : Ref sig .tc) → Buf (Elt Ideal) ((c : Thread nD τ).loc b))

theorem pay0_apply (x0 : Vec Ideal S5000x64 .f32) (x1 : Vec Ideal S64x64 .f32) (x2 : Vec Ideal S1x64 .f32) (p : Fin 5000) (q : Fin 64) :
    k0_pay1 x0 x1 x2 (ix2 p q) = (∑ k : Fin 64, x0 (ix2 p k) * x1 (ix2 k q)) + x2 (ix2 (0 : Fin 1) q) := by
  unfold k0_pay1
  simp only [shapeCast_self]
  exact linTile_apply x0 x1 x2 p q

theorem flushed0_eq (c : Dev nD) (t : Fin cfg0.N) (hi : win0_0.index t = win0_3.index t ∧ (win0_1.index t = fun _ => 0)
      ∧ (win0_2.index t = fun _ => 0) ∧ win0_3.index t = ![t.val, 0]) :
    (dat0 (F := Ideal) V c).flushed 3 t = ((cfg0.win 3).blk t).view.read (Elt Ideal)
      (linG (n := 100000) (V c (Pipeline.arrRef spec0 0)) (V c (Pipeline.arrRef spec0 1)) (V c (Pipeline.arrRef spec0 2))) :=
  (congrArg ((cfg0.win 3).cut (grid0.coords t)) ((after0_3 V c t).trans (tile_out k0_pay1 _ _ _))).trans
    (funext fun y => lin_block pay0_apply _ _ _ (e0 := fun y => ((cfg0.win 0).blk t).view.emb y) (e1 := fun y => ((cfg0.win 1).blk t).view.emb y)
      (e2 := fun y => ((cfg0.win 2).blk t).view.emb y) (e3 := fun y => ((cfg0.win 3).blk t).view.emb y)
      (win0_0.rect_emb_val t) (win0_1.rect_emb_val t) (win0_2.rect_emb_val t) (win0_3.rect_emb_val t) hi
      (fun _ => rfl) (fun _ => rfl) (fun _ => rfl) y)

theorem final0 (c : Dev nD) :
    (dat0 (F := Ideal) V c).arrAt 3 cfg0.N
      = Cert.Spec.lin100000 (F := Ideal) (V c (Pipeline.arrRef spec0 0)) (V c (Pipeline.arrRef spec0 1)) (V c (Pipeline.arrRef spec0 2)) := by
  have hi : ∀ t : Fin cfg0.N, win0_0.index t = win0_3.index t ∧ (win0_1.index t = fun _ => 0) ∧ (win0_2.index t = fun _ => 0)
      ∧ win0_3.index t = ![t.val, 0] := (by decide +kernel : ∀ t : Fin grid0.N, _)
  refine ((dat0 V c).arrAt_eq_of_cover 3 _ (fun t _ => flushed0_eq V c t (hi t)) fun i => ?_).trans (lin_eq (n := 100000) _ _ _ _ _).symm
  obtain ⟨t, ht⟩ := rows_cover (congrArg (· * 5000) N_0).symm (fun t : Fin cfg0.N => win0_3.index t) (fun t => (hi t).2.2.2) i
  exact ⟨t, flush0_3 t, mem_whole_slice _ ht⟩

theorem pay1_apply (x0 : Vec Ideal S5000x64 .f32) (x1 : Vec Ideal S64x64 .f32) (x2 : Vec Ideal S1x64 .f32) (p : Fin 5000) (q : Fin 64) :
    k1_pay1 x0 x1 x2 (ix2 p q) = (∑ k : Fin 64, x0 (ix2 p k) * x1 (ix2 k q)) + x2 (ix2 (0 : Fin 1) q) := by
  unfold k1_pay1
  simp only [shapeCast_self]
  exact linTile_apply x0 x1 x2 p q

theorem flushed1_eq (c : Dev nD) (t : Fin cfg1.N) (hi : win1_0.index t = win1_3.index t ∧ (win1_1.index t = fun _ => 0)
      ∧ (win1_2.index t = fun _ => 0) ∧ win1_3.index t = ![t.val, 0]) :
    (dat1 (F := Ideal) V c).flushed 3 t = ((cfg1.win 3).blk t).view.read (Elt Ideal)
      (linG (n := 50000) (V c (Pipeline.arrRef spec1 0)) (V c (Pipeline.arrRef spec1 1)) (V c (Pipeline.arrRef spec1 2))) :=
  (congrArg ((cfg1.win 3).cut (grid1.coords t)) ((after1_3 V c t).trans (tile_out k1_pay1 _ _ _))).trans
    (funext fun y => lin_block pay1_apply _ _ _ (e0 := fun y => ((cfg1.win 0).blk t).view.emb y) (e1 := fun y => ((cfg1.win 1).blk t).view.emb y)
      (e2 := fun y => ((cfg1.win 2).blk t).view.emb y) (e3 := fun y => ((cfg1.win 3).blk t).view.emb y)
      (win1_0.rect_emb_val t) (win1_1.rect_emb_val t) (win1_2.rect_emb_val t) (win1_3.rect_emb_val t) hi
      (fun _ => rfl) (fun _ => rfl) (fun _ => rfl) y)

theorem final1 (c : Dev nD) :
    (dat1 (F := Ideal) V c).arrAt 3 cfg1.N
      = Cert.Spec.lin50000 (F := Ideal) (V c (Pipeline.arrRef spec1 0)) (V c (Pipeline.arrRef spec1 1)) (V c (Pipeline.arrRef spec1 2)) := by
  have hi : ∀ t : Fin cfg1.N, win1_0.index t = win1_3.index t ∧ (win1_1.index t = fun _ => 0) ∧ (win1_2.index t = fun _ => 0)
      ∧ win1_3.index t = ![t.val, 0] := (by decide +kernel : ∀ t : Fin grid1.N, _)
  refine ((dat1 V c).arrAt_eq_of_cover 3 _ (fun t _ => flushed1_eq V c t (hi t)) fun i => ?_).trans (lin_eq (n := 50000) _ _ _ _ _).symm
  obtain ⟨t, ht⟩ := rows_cover (congrArg (· * 5000) N_1).symm (fun t : Fin cfg1.N => win1_3.index t) (fun t => (hi t).2.2.2) i
  exact ⟨t, flush1_3 t, mem_whole_slice _ ht⟩

theorem pay5_apply (x0 : Vec Ideal S5000x64 .f32) (x1 : Vec Ideal S64x64 .f32) (x2 : Vec Ideal S1x64 .f32) (p : Fin 5000) (q : Fin 64) :
    k5_pay1 x0 x1 x2 (ix2 p q) = (∑ k : Fin 64, x0 (ix2 p k) * x1 (ix2 k q)) + x2 (ix2 (0 : Fin 1) q) := by
  unfold k5_pay1
  simp only [shapeCast_self]
  exact linTile_apply x0 x1 x2 p q

theorem flushed5_eq (c : Dev nD) (t : Fin cfg5.N) (hi : win5_0.index t = win5_3.index t ∧ (win5_1.index t = fun _ => 0)
      ∧ (win5_2.index t = fun _ => 0) ∧ win5_3.index t = ![t.val, 0]) :
    (dat5 (F := Ideal) V c).flushed 3 t = ((cfg5.win 3).blk t).view.read (Elt Ideal)
      (linG (n := 100000) (V c (Pipeline.arrRef spec5 0)) (V c (Pipeline.arrRef spec5 1)) (V c (Pipeline.arrRef spec5 2))) :=
  (congrArg ((cfg5.win 3).cut (grid5.coords t)) ((after5_3 V c t).trans (tile_out k5_pay1 _ _ _))).trans
    (funext fun y => lin_block pay5_apply _ _ _ (e0 := fun y => ((cfg5.win 0).blk t).view.emb y) (e1 := fun y => ((cfg5.win 1).blk t).view.emb y)
      (e2 := fun y => ((cfg5.win 2).blk t).view.emb y) (e3 := fun y => ((cfg5.win 3).blk t).view.emb y)
      (win5_0.rect_emb_val t) (win5_1.rect_emb_val t) (win5_2.rect_emb_val t) (win5_3.rect_emb_val t) hi
      (fun _ => rfl) (fun _ => rfl) (fun _ => rfl) y)

theorem final5 (c : Dev nD) :
    (dat5 (F := Ideal) V c).arrAt 3 cfg5.N
      = Cert.Spec.lin100000 (F := Ideal) (V c (Pipeline.arrRef spec5 0)) (V c (Pipeline.arrRef spec5 1)) (V c (Pipeline.arrRef spec5 2)) := by
  have hi : ∀ t : Fin cfg5.N, win5_0.index t = win5_3.index t ∧ (win5_1.index t = fun _ => 0) ∧ (win5_2.index t = fun _ => 0)
      ∧ win5_3.index t = ![t.val, 0] := (by decide +kernel : ∀ t : Fin grid5.N, _)
  refine ((dat5 V c).arrAt_eq_of_cover 3 _ (fun t _ => flushed5_eq V c t (hi t)) fun i => ?_).trans (lin_eq (n := 100000) _ _ _ _ _).symm
  obtain ⟨t, ht⟩ := rows_cover (congrArg (· * 5000) N_5).symm (fun t : Fin cfg5.N => win5_3.index t) (fun t => (hi t).2.2.2) i
  exact ⟨t, flush5_3 t, mem_whole_slice _ ht⟩

theorem pay6_apply (x0 : Vec Ideal S5000x64 .f32) (x1 : Vec Ideal S64x64 .f32) (x2 : Vec Ideal S1x64 .f32) (p : Fin 5000) (q : Fin 64) :
    k6_pay1 x0 x1 x2 (ix2 p q) = (∑ k : Fin 64, x0 (ix2 p k) * x1 (ix2 k q)) + x2 (ix2 (0 : Fin 1) q) := by
  unfold k6_pay1
  simp only [shapeCast_self]
  exact linTile_apply x0 x1 x2 p q

theorem flushed6_eq (c : Dev nD) (t : Fin cfg6.N) (hi : win6_0.index t = win6_3.index t ∧ (win6_1.index t = fun _ => 0)
      ∧ (win6_2.index t = fun _ => 0) ∧ win6_3.index t = ![t.val, 0]) :
    (dat6 (F := Ideal) V c).flushed 3 t = ((cfg6.win 3).blk t).view.read (Elt Ideal)
      (linG (n := 50000) (V c (Pipeline.arrRef spec6 0)) (V c (Pipeline.arrRef spec6 1)) (V c (Pipeline.arrRef spec6 2))) :=
  (congrArg ((cfg6.win 3).cut (grid6.coords t)) ((after6_3 V c t).trans (tile_out k6_pay1 _ _ _))).trans
    (funext fun y => lin_block pay6_apply _ _ _ (e0 := fun y => ((cfg6.win 0).blk t).view.emb y) (e1 := fun y => ((cfg6.win 1).blk t).view.emb y)
      (e2 := fun y => ((cfg6.win 2).blk t).view.emb y) (e3 := fun y => ((cfg6.win 3).blk t).view.emb y)
      (win6_0.rect_emb_val t) (win6_1.rect_emb_val t) (win6_2.rect_emb_val t) (win6_3.rect_emb_val t) hi
      (fun _ => rfl) (fun _ => rfl) (fun _ => rfl) y)

theorem final6 (c : Dev nD) :
    (dat6 (F := Ideal) V c).arrAt 3 cfg6.N
      = Cert.Spec.lin50000 (F := Ideal) (V c (Pipeline.arrRef spec6 0)) (V c (Pipeline.arrRef spec6 1)) (V c (Pipeline.arrRef spec6 2)) := by
  have hi : ∀ t : Fin cfg6.N, win6_0.index t = win6_3.index t ∧ (win6_1.index t = fun _ => 0) ∧ (win6_2.index t = fun _ => 0)
      ∧ win6_3.index t = ![t.val, 0] := (by decide +kernel : ∀ t : Fin grid6.N, _)
  refine ((dat6 V c).arrAt_eq_of_cover 3 _ (fun t _ => flushed6_eq V c t (hi t)) fun i => ?_).trans (lin_eq (n := 50000) _ _ _ _ _).symm
  obtain ⟨t, ht⟩ := rows_cover (congrArg (· * 5000) N_6).symm (fun t : Fin cfg6.N => win6_3.index t) (fun t => (hi t).2.2.2) i
  exact ⟨t, flush6_3 t, mem_whole_slice _ ht⟩

theorem pay10_apply (x0 : Vec Ideal S5000x64 .f32) (x1 : Vec Ideal S64x64 .f32) (x2 : Vec Ideal S1x64 .f32) (p : Fin 5000) (q : Fin 64) :
    k10_pay1 x0 x1 x2 (ix2 p q) = (∑ k : Fin 64, x0 (ix2 p k) * x1 (ix2 k q)) + x2 (ix2 (0 : Fin 1) q) := by
  unfold k10_pay1
  simp only [shapeCast_self]
  exact linTile_apply x0 x1 x2 p q

theorem flushed10_eq (c : Dev nD) (t : Fin cfg10.N) (hi : win10_0.index t = win10_3.index t ∧ (win10_1.index t = fun _ => 0)
      ∧ (win10_2.index t = fun _ => 0) ∧ win10_3.index t = ![t.val, 0]) :
    (dat10 (F := Ideal) V c).flushed 3 t = ((cfg10.win 3).blk t).view.read (Elt Ideal)
      (linG (n := 100000) (V c (Pipeline.arrRef spec10 0)) (V c (Pipeline.arrRef spec10 1)) (V c (Pipeline.arrRef spec10 2))) :=
  (congrArg ((cfg10.win 3).cut (grid10.coords t)) ((after10_3 V c t).trans (tile_out k10_pay1 _ _ _))).trans
    (funext fun y => lin_block pay10_apply _ _ _ (e0 := fun y => ((cfg10.win 0).blk t).view.emb y) (e1 := fun y => ((cfg10.win 1).blk t).view.emb y)
      (e2 := fun y => ((cfg10.win 2).blk t).view.emb y) (e3 := fun y => ((cfg10.win 3).blk t).view.emb y)
      (win10_0.rect_emb_val t) (win10_1.rect_emb_val t) (win10_2.rect_emb_val t) (win10_3.rect_emb_val t) hi
      (fun _ => rfl) (fun _ => rfl) (fun _ => rfl) y)

theorem final10 (c : Dev nD) :
    (dat10 (F := Ideal) V c).arrAt 3 cfg10.N
      = Cert.Spec.lin100000 (F := Ideal) (V c (Pipeline.arrRef spec10 0)) (V c (Pipeline.arrRef spec10 1)) (V c (Pipeline.arrRef spec10 2)) := by
  have hi : ∀ t : Fin cfg10.N, win10_0.index t = win10_3.index t ∧ (win10_1.index t = fun _ => 0) ∧ (win10_2.index t = fun _ => 0)
      ∧ win10_3.index t = ![t.val, 0] := (by decide +kernel : ∀ t : Fin grid10.N, _)
  refine ((dat10 V c).arrAt_eq_of_cover 3 _ (fun t _ => flushed10_eq V c t (hi t)) fun i => ?_).trans (lin_eq (n := 100000) _ _ _ _ _).symm
  obtain ⟨t, ht⟩ := rows_cover (congrArg (· * 5000) N_10).symm (fun t : Fin cfg10.N => win10_3.index t) (fun t => (hi t).2.2.2) i
  exact ⟨t, flush10_3 t, mem_whole_slice _ ht⟩

theorem pay11_apply (x0 : Vec Ideal S5000x64 .f32) (x1 : Vec Ideal S64x64 .f32) (x2 : Vec Ideal S1x64 .f32) (p : Fin 5000) (q : Fin 64) :
    k11_pay1 x0 x1 x2 (ix2 p q) = (∑ k : Fin 64, x0 (ix2 p k) * x1 (ix2 k q)) + x2 (ix2 (0 : Fin 1) q) := by
  unfold k11_pay1
  simp only [shapeCast_self]
  exact linTile_apply x0 x1 x2 p q

theorem flushed11_eq (c : Dev nD) (t : Fin cfg11.N) (hi : win11_0.index t = win11_3.index t ∧ (win11_1.index t = fun _ => 0)
      ∧ (win11_2.index t = fun _ => 0) ∧ win11_3.index t = ![t.val, 0]) :
    (dat11 (F := Ideal) V c).flushed 3 t = ((cfg11.win 3).blk t).view.read (Elt Ideal)
      (linG (n := 50000) (V c (Pipeline.arrRef spec11 0)) (V c (Pipeline.arrRef spec11 1)) (V c (Pipeline.arrRef spec11 2))) :=
  (congrArg ((cfg11.win 3).cut (grid11.coords t)) ((after11_3 V c t).trans (tile_out k11_pay1 _ _ _))).trans
    (funext fun y => lin_block pay11_apply _ _ _ (e0 := fun y => ((cfg11.win 0).blk t).view.emb y) (e1 := fun y => ((cfg11.win 1).blk t).view.emb y)
      (e2 := fun y => ((cfg11.win 2).blk t).view.emb y) (e3 := fun y => ((cfg11.win 3).blk t).view.emb y)
      (win11_0.rect_emb_val t) (win11_1.rect_emb_val t) (win11_2.rect_emb_val t) (win11_3.rect_emb_val t) hi
      (fun _ => rfl) (fun _ => rfl) (fun _ => rfl) y)

theorem final11 (c : Dev nD) :
    (dat11 (F := Ideal) V c).arrAt 3 cfg11.N
      = Cert.Spec.lin50000 (F := Ideal) (V c (Pipeline.arrRef spec11 0)) (V c (Pipeline.arrRef spec11 1)) (V c (Pipeline.arrRef spec11 2)) := by
  have hi : ∀ t : Fin cfg11.N, win11_0.index t = win11_3.index t ∧ (win11_1.index t = fun _ => 0) ∧ (win11_2.index t = fun _ => 0)
      ∧ win11_3.index t = ![t.val, 0] := (by decide +kernel : ∀ t : Fin grid11.N, _)
  refine ((dat11 V c).arrAt_eq_of_cover 3 _ (fun t _ => flushed11_eq V c t (hi t)) fun i => ?_).trans (lin_eq (n := 50000) _ _ _ _ _).symm
  obtain ⟨t, ht⟩ := rows_cover (congrArg (· * 5000) N_11).symm (fun t : Fin cfg11.N => win11_3.index t) (fun t => (hi t).2.2.2) i
  exact ⟨t, flush11_3 t, mem_whole_slice _ ht⟩

end Cert.KernelIdeal.Hand

end
-- ==== Proof.KI.ValMsg.lean ====
import proofs.«431207_j9844065042802_4_alg».proof.Proof.KI.R2
import proofs.«431207_j9844065042802_4_alg».proof.Proof.KI.R7
import proofs.«431207_j9844065042802_4_alg».proof.Proof.KI.R12
import proofs.«431207_j9844065042802_4_alg».proof.Proof.KI.ValLinAll

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

-- The payload at one entry: the row's weight times (the self term plus the linear map of the two end points' product).
theorem msg_pay_apply (x0 x1 : Vec Ideal S5000x64 .f32) (x5 : Vec Ideal S64x64 .f32) (x6 : Vec Ideal S1x64 .f32) (x4 : Vec Ideal S5000x1 .f32) (x2 : Vec Ideal S5000x64 .f32) (p : Fin 5000) (q : Fin 64) :
    k2_pay3 x0 x1 x5 x6 x4 x2 (ix2 p q) = x4 (ix2 p (0 : Fin 1)) * (x2 (ix2 p q) + ((∑ k : Fin 64, x0 (ix2 p k) * x1 (ix2 p k) * x5 (ix2 k q)) + x6 (ix2 (0 : Fin 1) q))) := by
  unfold k2_pay3 k2_pay2 k2_pay1
  simp only [shapeCast_self]
  refine (mulf_apply _ _ (ix2 p q)).trans (congrArg₂ (· * ·) ?_ ?_)
  · exact broadcastTo_apply x4 _ (ix2 p q) (ix2 p (0 : Fin 1)) fun a => match a with | ⟨0, _⟩ => rfl | ⟨1, _⟩ => rfl
  · rw [addf_apply, linTile_apply]; rfl

theorem msg_rlhs_0 (j : Cert.ReferenceIdeal.S500000x64.Idx) (k : Cert.ReferenceIdeal.dot_S500000x64_S64x64_S500000x64_1_0_0_1_n_n.contr.Idx) :
    (Cert.ReferenceIdeal.dot_S500000x64_S64x64_S500000x64_1_0_0_1_n_n.lhsIdx j k 0 : ℕ) = j 0 := by
  simp [DotDims.lhsIdx, Cert.ReferenceIdeal.dot_S500000x64_S64x64_S500000x64_1_0_0_1_n_n]; rfl
theorem msg_rlhs_1 (j : Cert.ReferenceIdeal.S500000x64.Idx) (k : Cert.ReferenceIdeal.dot_S500000x64_S64x64_S500000x64_1_0_0_1_n_n.contr.Idx) :
    (Cert.ReferenceIdeal.dot_S500000x64_S64x64_S500000x64_1_0_0_1_n_n.lhsIdx j k 1 : ℕ) = k ⟨0, by decide⟩ := by
  simp [DotDims.lhsIdx, Cert.ReferenceIdeal.dot_S500000x64_S64x64_S500000x64_1_0_0_1_n_n]; rfl
theorem msg_rrhs_0 (j : Cert.ReferenceIdeal.S500000x64.Idx) (k : Cert.ReferenceIdeal.dot_S500000x64_S64x64_S500000x64_1_0_0_1_n_n.contr.Idx) :
    (Cert.ReferenceIdeal.dot_S500000x64_S64x64_S500000x64_1_0_0_1_n_n.rhsIdx j k 0 : ℕ) = k ⟨0, by decide⟩ := by
  simp [DotDims.rhsIdx, Cert.ReferenceIdeal.dot_S500000x64_S64x64_S500000x64_1_0_0_1_n_n]; rfl
theorem msg_rrhs_1 (j : Cert.ReferenceIdeal.S500000x64.Idx) (k : Cert.ReferenceIdeal.dot_S500000x64_S64x64_S500000x64_1_0_0_1_n_n.contr.Idx) :
    (Cert.ReferenceIdeal.dot_S500000x64_S64x64_S500000x64_1_0_0_1_n_n.rhsIdx j k 1 : ℕ) = j 1 := by
  simp [DotDims.rhsIdx, Cert.ReferenceIdeal.dot_S500000x64_S64x64_S500000x64_1_0_0_1_n_n]; rfl

-- The reference's message at one entry: the same expression of the whole arrays' entries.
theorem msg_apply (eu ei g : Vec Ideal S500000x64 .f32) (nrm : Vec Ideal S500000x1 .f32) (w : Vec Ideal S64x64 .f32) (b : Vec Ideal S1x64 .f32) (P : Fin 500000) (q : Fin 64) :
    Cert.Spec.msg (F := Ideal) eu ei g nrm w b (ix2 P q)
      = nrm (ix2 P (0 : Fin 1)) * (g (ix2 P q) + ((∑ k : Fin 64, eu (ix2 P k) * ei (ix2 P k) * w (ix2 k q)) + b (ix2 (0 : Fin 1) q))) := by
  unfold Cert.Spec.msg
  rw [mulf_apply, addf_apply, addf_apply]
  refine congrArg₂ (· * ·) ?_ (congrArg (g (ix2 P q) + ·) (congrArg₂ (· + ·) ?_ ?_))
  · exact broadcastInDim_apply _ _ nrm (ix2 P q) (ix2 P (0 : Fin 1)) fun a => match a with | ⟨0, _⟩ => rfl | ⟨1, _⟩ => rfl
  · refine (Ideal.dotGeneral_apply Cert.ReferenceIdeal.dot_S500000x64_S64x64_S500000x64_1_0_0_1_n_n none .single (mulf eu ei) w (ix2 P q)).trans ?_
    refine (Equiv.sum_comp (contrEquiv1 Cert.ReferenceIdeal.dot_S500000x64_S64x64_S500000x64_1_0_0_1_n_n 64 rfl rfl).symm _).symm.trans ?_
    refine Finset.sum_congr rfl fun k _ => ?_
    refine congrArg₂ (· * ·) ?_ (congrArg w ?_)
    · exact congrArg (mulf (F := Ideal) eu ei) (Shape.idx_ext₂ (msg_rlhs_0 _ _) ((msg_rlhs_1 _ _).trans (contrEquiv1_symm_val _ 64 rfl rfl k)))
    · exact Shape.idx_ext₂ ((msg_rrhs_0 _ _).trans (contrEquiv1_symm_val _ 64 rfl rfl k)) (msg_rrhs_1 _ _)
  · exact broadcastInDim_apply _ _ b (ix2 P q) (ix2 (0 : Fin 1) q) fun a => match a with | ⟨0, _⟩ => rfl | ⟨1, _⟩ => rfl

-- The index map of a tiled window at point `t`: row block `t`, column block 0.
theorem msg_rowMap : ∀ t : Fin grid2.N, cc2_transform_0 (grid2.coords t) 0 = t.val ∧ cc2_transform_0 (grid2.coords t) 1 = 0 := by decide +kernel

-- Entry `(p, k)` of block `t` of an array tiled by rows of 5000 is the array's entry `(5000 t + p, k)`.
theorem msg_row_emb {m : ℕ} (t : Fin grid2.N) (inb) (p : Fin 5000) (k : Fin m) (P : Fin 500000) (hP : P.val = 5000 * t.val + p.val) :
    (Rect.unit (s := ⟨2, ![500000, m]⟩) (fun a => cc2_transform_0 (grid2.coords t) a * (![5000, m] : Fin 2 → ℕ) a) ![5000, m] inb).emb (ix2 p k) = ix2 P k :=
  Shape.idx_ext₂ (by show cc2_transform_0 (grid2.coords t) 0 * 5000 + 1 * p.val = P.val; rw [(msg_rowMap t).1, hP]; omega)
    (by show cc2_transform_0 (grid2.coords t) 1 * m + 1 * k.val = k.val; rw [(msg_rowMap t).2]; omega)

-- A block that is the whole array at every point embeds as the identity.
theorem msg_whole_emb {n m : ℕ} (i : grid2.Coords) (inb) (j : (⟨2, ![n, m]⟩ : Shape).Idx) :
    (Rect.unit (s := ⟨2, ![n, m]⟩) (fun a => cc2_transform_5 i a * (![n, m] : Fin 2 → ℕ) a) ![n, m] inb).emb j = j :=
  Shape.idx_ext₂ (by show 0 * n + 1 * (j 0).val = (j 0).val; omega) (by show 0 * m + 1 * (j 1).val = (j 1).val; omega)

-- Every row of the array lies in the block of the point `row / 5000`.
theorem msg_row_cover (i : S500000x64.Idx) : ∃ t : Fin grid2.N, i ∈ Finset.univ.map (win2_7.rect t).emb := by
  have hi0 : (i 0).val < 500000 := (i 0).isLt
  have hi1 : (i 1).val < 64 := (i 1).isLt
  have hlt : (i 0).val / 5000 < grid2.N := by rw [N_2]; omega
  obtain ⟨e0, e1⟩ : cc2_transform_0 (grid2.coords ⟨(i 0).val / 5000, hlt⟩) 0 = (i 0).val / 5000 ∧ cc2_transform_0 (grid2.coords ⟨(i 0).val / 5000, hlt⟩) 1 = 0 := msg_rowMap ⟨_, hlt⟩
  refine ⟨⟨(i 0).val / 5000, hlt⟩, (Rect.map_emb_univ _).symm ▸ Rect.mem_set_unit.mpr fun a => ?_⟩
  match a with
  | ⟨0, _⟩ => exact (by rw [e0]; omega : cc2_transform_0 (grid2.coords ⟨(i 0).val / 5000, hlt⟩) 0 * 5000 ≤ (i 0).val ∧ (i 0).val < cc2_transform_0 (grid2.coords ⟨(i 0).val / 5000, hlt⟩) 0 * 5000 + 5000)
  | ⟨1, _⟩ => exact (by rw [e1]; omega : cc2_transform_0 (grid2.coords ⟨(i 0).val / 5000, hlt⟩) 1 * 64 ≤ (i 1).val ∧ (i 1).val < cc2_transform_0 (grid2.coords ⟨(i 0).val / 5000, hlt⟩) 1 * 64 + 64)

-- A tile whose rows are rows `5000 t …` of the whole arrays (the weight matrix and the bias row taken whole) holds those rows of the reference's message.
theorem msg_tile (eu ei g : Vec Ideal S500000x64 .f32) (nrm : Vec Ideal S500000x1 .f32) (w : Vec Ideal S64x64 .f32) (b : Vec Ideal S1x64 .f32) (t : Fin grid2.N) (j : S5000x64.Idx) :
    k2_pay3 (fun y => eu ((win2_0.rect t).emb y)) (fun y => ei ((win2_0.rect t).emb y)) (fun y => w ((win2_5.rect t).emb y)) (fun y => b ((win2_6.rect t).emb y))
        (fun y => nrm ((win2_4.rect t).emb y)) (fun y => g ((win2_0.rect t).emb y)) j
      = Cert.Spec.msg (F := Ideal) eu ei g nrm w b ((win2_0.rect t).emb j) := by
  obtain ⟨p, q, rfl⟩ : ∃ (p : Fin 5000) (q : Fin 64), j = ix2 p q := ⟨j 0, j 1, eq_ix2 j⟩
  have hP : 5000 * t.val + p.val < 500000 := by have := lt_of_lt_of_eq t.isLt N_2; have := p.isLt; omega
  have e0 : ∀ k : Fin 64, (win2_0.rect t).emb (ix2 p k) = ix2 ⟨_, hP⟩ k := fun k => msg_row_emb t _ p k _ rfl
  have e4 : (win2_4.rect t).emb (ix2 p (0 : Fin 1)) = ix2 ⟨_, hP⟩ (0 : Fin 1) := msg_row_emb t _ p 0 _ rfl
  have e5 : ∀ y, (win2_5.rect t).emb y = y := msg_whole_emb (grid2.coords t) _
  have e6 : ∀ y, (win2_6.rect t).emb y = y := msg_whole_emb (grid2.coords t) _
  rw [msg_pay_apply, e0 q, msg_apply]
  simp only [e0, e4, e5, e6]

theorem msg_hz : (![0, 0] : Fin 2 → Nat) = fun _ => 0 := funext fun a => by fin_cases a <;> rfl

-- One piece over the whole tile, its payload read through whole rectangles, is the payload of the contents.
theorem msg_store (f : Vec Ideal S5000x64 .f32 → Vec Ideal S5000x64 .f32 → Vec Ideal S64x64 .f32 → Vec Ideal S1x64 .f32 → Vec Ideal S5000x1 .f32 → Vec Ideal S5000x64 .f32 → FVec Ideal S5000x64 .f32)
    (i0 i1 i2 i3) (x0 x1 : Vec Ideal S5000x64 .f32) (x5 : Vec Ideal S64x64 .f32) (x6 : Vec Ideal S1x64 .f32) (x4 : Vec Ideal S5000x1 .f32) (x2 : Vec Ideal S5000x64 .f32) :
    View.canon [(⟨Rect.unit ![0, 0] S5000x64.size i0, f (View.ld x0 (Rect.unit ![0, 0] S5000x64.size i0)) (View.ld x1 (Rect.unit ![0, 0] S5000x64.size i0))
        (View.ld x5 (Rect.unit ![0, 0] S64x64.size i1)) (View.ld x6 (Rect.unit ![0, 0] S1x64.size i2)) (View.ld x4 (Rect.unit ![0, 0] S5000x1.size i3))
        (View.ld x2 (Rect.unit ![0, 0] S5000x64.size i0))⟩ : View.Piece (Elt Ideal) S5000x64 .f32)] = f x0 x1 x5 x6 x4 x2 := by
  rw [View.canon_unit_zero msg_hz]
  simp only [View.ld_unit_zero (S := ⟨2, _⟩) msg_hz]

variable (V : (c : Dev nD) → (b : Ref sig .tc) → Buf (Elt Ideal) ((c : Thread nD τ).loc b))

theorem final2_7 (c : Dev nD) :
    (dat2 (F := Ideal) V c).arrAt 7 cfg2.N = Cert.Spec.msg (F := Ideal) (V c (Pipeline.arrRef spec2 0)) (V c (Pipeline.arrRef spec2 1)) (V c (Pipeline.arrRef spec2 2)) (V c (Pipeline.arrRef spec2 4)) (V c (Pipeline.arrRef spec2 5)) (V c (Pipeline.arrRef spec2 6)) := by
  refine (dat2 (F := Ideal) V c).arrAt_eq_of_cover 7 _ (fun t _ => funext fun (j : S5000x64.Idx) => ?_) fun i => (msg_row_cover i).imp fun t h => ⟨flush2_7 t, h⟩
  show ((cfg2.win 7).cut (grid2.coords t) ((dat2 V c).after 7 t) : Vec Ideal S5000x64 .f32) j = _
  rw [after2_7, View.read_apply]
  exact (congrFun (msg_store k2_pay3 _ _ _ _ _ _ _ _ _ _) j).trans (msg_tile (V c (Pipeline.arrRef spec2 0)) (V c (Pipeline.arrRef spec2 1)) (V c (Pipeline.arrRef spec2 2)) (V c (Pipeline.arrRef spec2 4)) (V c (Pipeline.arrRef spec2 5)) (V c (Pipeline.arrRef spec2 6)) t j)

theorem final2_8 (c : Dev nD) :
    (dat2 (F := Ideal) V c).arrAt 8 cfg2.N = Cert.Spec.msg (F := Ideal) (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) := by
  refine (dat2 (F := Ideal) V c).arrAt_eq_of_cover 8 _ (fun t _ => funext fun (j : S5000x64.Idx) => ?_) fun i => (msg_row_cover i).imp fun t h => ⟨flush2_8 t, h⟩
  show ((cfg2.win 8).cut (grid2.coords t) ((dat2 V c).after 8 t) : Vec Ideal S5000x64 .f32) j = _
  rw [after2_8, View.read_apply]
  exact (congrFun (msg_store k2_pay4 _ _ _ _ _ _ _ _ _ _) j).trans (msg_tile (V c (Pipeline.arrRef spec2 0)) (V c (Pipeline.arrRef spec2 1)) (V c (Pipeline.arrRef spec2 3)) (V c (Pipeline.arrRef spec2 4)) (V c (Pipeline.arrRef spec2 5)) (V c (Pipeline.arrRef spec2 6)) t j)

theorem final7_7 (c : Dev nD) :
    (dat7 (F := Ideal) V c).arrAt 7 cfg7.N = Cert.Spec.msg (F := Ideal) (V c (Pipeline.arrRef spec7 0)) (V c (Pipeline.arrRef spec7 1)) (V c (Pipeline.arrRef spec7 2)) (V c (Pipeline.arrRef spec7 4)) (V c (Pipeline.arrRef spec7 5)) (V c (Pipeline.arrRef spec7 6)) := by
  refine (dat7 (F := Ideal) V c).arrAt_eq_of_cover 7 _ (fun t _ => funext fun (j : S5000x64.Idx) => ?_) fun i => (msg_row_cover i).imp fun t h => ⟨flush7_7 t, h⟩
  show ((cfg7.win 7).cut (grid7.coords t) ((dat7 V c).after 7 t) : Vec Ideal S5000x64 .f32) j = _
  rw [after7_7, View.read_apply]
  exact (congrFun (msg_store k7_pay3 _ _ _ _ _ _ _ _ _ _) j).trans (msg_tile (V c (Pipeline.arrRef spec7 0)) (V c (Pipeline.arrRef spec7 1)) (V c (Pipeline.arrRef spec7 2)) (V c (Pipeline.arrRef spec7 4)) (V c (Pipeline.arrRef spec7 5)) (V c (Pipeline.arrRef spec7 6)) t j)

theorem final7_8 (c : Dev nD) :
    (dat7 (F := Ideal) V c).arrAt 8 cfg7.N = Cert.Spec.msg (F := Ideal) (V c (Pipeline.arrRef spec7 0)) (V c (Pipeline.arrRef spec7 1)) (V c (Pipeline.arrRef spec7 3)) (V c (Pipeline.arrRef spec7 4)) (V c (Pipeline.arrRef spec7 5)) (V c (Pipeline.arrRef spec7 6)) := by
  refine (dat7 (F := Ideal) V c).arrAt_eq_of_cover 8 _ (fun t _ => funext fun (j : S5000x64.Idx) => ?_) fun i => (msg_row_cover i).imp fun t h => ⟨flush7_8 t, h⟩
  show ((cfg7.win 8).cut (grid7.coords t) ((dat7 V c).after 8 t) : Vec Ideal S5000x64 .f32) j = _
  rw [after7_8, View.read_apply]
  exact (congrFun (msg_store k7_pay4 _ _ _ _ _ _ _ _ _ _) j).trans (msg_tile (V c (Pipeline.arrRef spec7 0)) (V c (Pipeline.arrRef spec7 1)) (V c (Pipeline.arrRef spec7 3)) (V c (Pipeline.arrRef spec7 4)) (V c (Pipeline.arrRef spec7 5)) (V c (Pipeline.arrRef spec7 6)) t j)

theorem final12_7 (c : Dev nD) :
    (dat12 (F := Ideal) V c).arrAt 7 cfg12.N = Cert.Spec.msg (F := Ideal) (V c (Pipeline.arrRef spec12 0)) (V c (Pipeline.arrRef spec12 1)) (V c (Pipeline.arrRef spec12 2)) (V c (Pipeline.arrRef spec12 4)) (V c (Pipeline.arrRef spec12 5)) (V c (Pipeline.arrRef spec12 6)) := by
  refine (dat12 (F := Ideal) V c).arrAt_eq_of_cover 7 _ (fun t _ => funext fun (j : S5000x64.Idx) => ?_) fun i => (msg_row_cover i).imp fun t h => ⟨flush12_7 t, h⟩
  show ((cfg12.win 7).cut (grid12.coords t) ((dat12 V c).after 7 t) : Vec Ideal S5000x64 .f32) j = _
  rw [after12_7, View.read_apply]
  exact (congrFun (msg_store k12_pay3 _ _ _ _ _ _ _ _ _ _) j).trans (msg_tile (V c (Pipeline.arrRef spec12 0)) (V c (Pipeline.arrRef spec12 1)) (V c (Pipeline.arrRef spec12 2)) (V c (Pipeline.arrRef spec12 4)) (V c (Pipeline.arrRef spec12 5)) (V c (Pipeline.arrRef spec12 6)) t j)

theorem final12_8 (c : Dev nD) :
    (dat12 (F := Ideal) V c).arrAt 8 cfg12.N = Cert.Spec.msg (F := Ideal) (V c (Pipeline.arrRef spec12 0)) (V c (Pipeline.arrRef spec12 1)) (V c (Pipeline.arrRef spec12 3)) (V c (Pipeline.arrRef spec12 4)) (V c (Pipeline.arrRef spec12 5)) (V c (Pipeline.arrRef spec12 6)) := by
  refine (dat12 (F := Ideal) V c).arrAt_eq_of_cover 8 _ (fun t _ => funext fun (j : S5000x64.Idx) => ?_) fun i => (msg_row_cover i).imp fun t h => ⟨flush12_8 t, h⟩
  show ((cfg12.win 8).cut (grid12.coords t) ((dat12 V c).after 8 t) : Vec Ideal S5000x64 .f32) j = _
  rw [after12_8, View.read_apply]
  exact (congrFun (msg_store k12_pay4 _ _ _ _ _ _ _ _ _ _) j).trans (msg_tile (V c (Pipeline.arrRef spec12 0)) (V c (Pipeline.arrRef spec12 1)) (V c (Pipeline.arrRef spec12 3)) (V c (Pipeline.arrRef spec12 4)) (V c (Pipeline.arrRef spec12 5)) (V c (Pipeline.arrRef spec12 6)) t j)

end Cert.KernelIdeal.Hand

end
-- ==== Proof.KI.ValFinAll.lean ====
import proofs.«431207_j9844065042802_4_alg».proof.Proof.KI.R3
import proofs.«431207_j9844065042802_4_alg».proof.Proof.KI.R4
import proofs.«431207_j9844065042802_4_alg».proof.Proof.KI.R8
import proofs.«431207_j9844065042802_4_alg».proof.Proof.KI.R9
import proofs.«431207_j9844065042802_4_alg».proof.Proof.KI.R13
import proofs.«431207_j9844065042802_4_alg».proof.Proof.KI.R14
import proofs.«431207_j9844065042802_4_alg».proof.Proof.Spec
import proofs.«431207_j9844065042802_4_alg».proof.Proof.Gen.ReferenceIdeal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.KernelIdeal.Hand.NodeUpd

open Idealize.ShloMosaic Idealize.ShloMosaic.TcCoe Idealize.ShloMosaic.ValueIdx
open Idealize.ShloMosaic.Pipeline (Dat)
open Cert.KernelIdeal Cert.KernelIdeal.Gen

/-- The rectifier tested above zero and the one tested at or above zero differ only at zero, where both branches are zero. -/
theorem lrelu_gt_eq_ge (c x : EReal) :
    Scalar.select (Ideal.cmp .ogt x 0) x (c * x) = Scalar.select (Ideal.cmp .oge x 0) x (c * x) := by
  unfold Ideal.cmp Scalar.select
  by_cases h : (0 : EReal) < x
  · simp [h, h.le]
  · by_cases h0 : (0 : EReal) ≤ x
    · have hx : x = 0 := le_antisymm (not_lt.mp h) h0
      subst hx; simp
    · simp [h, h0]

section Layout
variable {α : Type}

theorem lift_row {a b : ℕ} (h : (⟨2, ![a, b]⟩ : Shape).Reduces [1] ⟨1, ![a]⟩) (p : Fin a) (k : Fin b) :
    h.lift (ix1 p) k = ix2 p k :=
  funext fun c => Fin.ext <| match c with | ⟨0, _⟩ => rfl | ⟨1, _⟩ => rfl

theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- On an axis of extent `a`, a coordinate below `a` is the one a broadcast reads, whether or not `a = 1`. -/
theorem bcast_coord {a : ℕ} (p : Fin a) : p.val = if a = 1 then 0 else p.val := by
  split
  · have := p.isLt; omega
  · rfl

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => match ax with | ⟨0, _⟩ => bcast_coord p | ⟨1, _⟩ => rfl

theorem broadcastInDim_a1_ab_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) :=
  broadcastInDim_apply ![0, 1] h v (ix2 r c) (ix2 r (0 : Fin 1)) fun ax => match ax with | ⟨0, _⟩ => by exact bcast_coord r | ⟨1, _⟩ => rfl

theorem broadcastInDim_a_a1_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) fun ax => match ax with | ⟨0, _⟩ => by exact bcast_coord r

theorem hostRowsum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x init h' hu (ix1 r) = init (Shape.Idx.first hu) + ∑ k : Fin b, x (ix2 r k) :=
  (hostReduceAdd_apply x init h' hu (ix1 r)).trans <| (Ideal.hostReduceAdd_single h' h x _ (ix1 r)).trans <|
    congrArg (_ + ·) (Finset.sum_congr rfl fun k _ => congrArg x (lift_row h r k))

end Layout

/-- Slope 1/5 below zero, the test being `x > 0`. -/
def actK (x : EReal) : EReal :=
  Scalar.select (Ideal.cmp .ogt x (Ideal.ofBits .f32 0x00000000#32)) x (Ideal.ofBits .f32 0x3E4CCCCD#32 * x)

/-- Slope 1/5 below zero, the test being `x ≥ 0`. -/
def actR (x : EReal) : EReal :=
  Scalar.select (Ideal.cmp .oge x (Ideal.ofBits .f32 0x00000000#32)) x (Ideal.ofBits .f32 0x3E4CCCCD#32 * x)

theorem actK_eq_actR : actK = actR := funext fun x => by
  unfold actK actR
  rw [Ideal.ofBits_zero_f32]
  exact lrelu_gt_eq_ge _ x

/-- `y q` over the larger of `‖y‖` and the floor. -/
def normAt (y : Fin 64 → EReal) (q : Fin 64) : EReal :=
  Ideal.div (y q) (max (Ideal.sqrt (∑ k : Fin 64, y k * y k)) (Ideal.ofBits .f32 0x2B8CBCCC#32))

/-- Row `i 0` of `P + A` through `actR`, normalised, read at column `i 1`: a row's result depends on that row alone. -/
def upd {n : ℕ} (P A : FVec Ideal ⟨2, ![n, 64]⟩ .f32) : FVec Ideal ⟨2, ![n, 64]⟩ .f32 :=
  fun i => normAt (fun k => actR (P (ix2 (i 0 : Fin n) k) + A (ix2 (i 0 : Fin n) k))) (i 1 : Fin 64)

theorem hz : (![0, 0] : Fin 2 → Nat) = fun _ => 0 := funext fun a => by fin_cases a <;> rfl

/-- Every launch's stored value at row `p`, lane `q` of the tile. -/
theorem pay_apply (x0 x1 : Vec Ideal S5000x64 .f32) (p : Fin 5000) (q : Fin 64) :
    k3_pay1 x0 x1 (ix2 p q) = normAt (fun k => actK (x0 (ix2 p k) + x1 (ix2 p k))) q := by
  unfold k3_pay1
  simp only [shapeCast_self]
  refine (divf_apply _ _ _).trans (congrArg₂ Ideal.div rfl ?_)
  refine (broadcastTo_a1_ab_apply _ _ p q).trans ((maximumf_apply _ _ _).trans (congrArg₂ max ?_ rfl))
  show Ideal.sqrt _ = Ideal.sqrt _
  exact congrArg Ideal.sqrt ((shapeCast_a_a1_apply _ _ p 0).trans ((rowsum_apply _ _ _ _ p).trans rfl))

/-- The tile computed from the blocks at block row `T` of the two arrays is block row `T` of their update:
    each operand's element sits in its array at the block index times the block size plus its own coordinate. -/
theorem upd_block {n T : Nat} {pay : Vec Ideal S5000x64 .f32 → Vec Ideal S5000x64 .f32 → FVec Ideal S5000x64 .f32}
    (hpay : ∀ x0 x1 p q, pay x0 x1 (ix2 p q) = normAt (fun k => actK (x0 (ix2 p k) + x1 (ix2 p k))) q)
    (P A : FVec Ideal ⟨2, ![n, 64]⟩ .f32) {e0 e1 e2 : S5000x64.Idx → (⟨2, ![n, 64]⟩ : Shape).Idx}
    {i0 i1 i2 : Fin 2 → Nat} (h0 : ∀ y a, (e0 y a : ℕ) = i0 a * S5000x64.size a + y a)
    (h1 : ∀ y a, (e1 y a : ℕ) = i1 a * S5000x64.size a + y a) (h2 : ∀ y a, (e2 y a : ℕ) = i2 a * S5000x64.size a + y a)
    (hi : i0 = i2 ∧ i1 = i2 ∧ i2 = ![T, 0]) {x0 x1 : Vec Ideal S5000x64 .f32}
    (hx0 : ∀ y, x0 y = P (e0 y)) (hx1 : ∀ y, x1 y = A (e1 y)) (y : S5000x64.Idx) :
    pay x0 x1 y = upd P A (e2 y) := by
  obtain ⟨rfl, rfl, rfl⟩ := hi
  obtain rfl : x0 = fun y => P (e0 y) := funext hx0
  obtain rfl : x1 = fun y => A (e1 y) := funext hx1
  obtain ⟨p, q, rfl⟩ : ∃ (p : Fin 5000) (q : Fin 64), y = ix2 p q := ⟨y 0, y 1, eq_ix2 y⟩
  rw [hpay, actK_eq_actR]
  refine congrArg₂ normAt (funext fun k => congrArg actR (congrArg₂ (· + ·) (congrArg P ?_) (congrArg A ?_)))
    (Fin.ext ((h2 (ix2 p q) 1).trans (Nat.zero_add _))).symm
  · exact Shape.idx_ext₂ ((h0 _ 0).trans (h2 (ix2 p q) 0).symm) ((h0 _ 1).trans (Nat.zero_add _))
  · exact Shape.idx_ext₂ ((h1 _ 0).trans (h2 (ix2 p q) 0).symm) ((h1 _ 1).trans (Nat.zero_add _))

/-- Blocks of 5000 rows at block rows `t < N` hold every row of an array of `N * 5000` rows. -/
theorem rows_cover {n N : Nat} (hn : n = N * 5000) (idx : Fin N → Fin 2 → Nat) (hidx : ∀ t, idx t = ![t.val, 0])
    (i : (⟨2, ![n, 64]⟩ : Shape).Idx) :
    ∃ t : Fin N, ∀ a, idx t a * S5000x64.size a ≤ (i a).val ∧ (i a).val < idx t a * S5000x64.size a + S5000x64.size a := by
  have h0 : (i 0).val < n := (i 0).isLt
  have h1 : (i 1).val < 64 := (i 1).isLt
  refine ⟨⟨(i 0).val / 5000, by omega⟩, fun a => ?_⟩
  rw [hidx]
  match a with
  | ⟨0, _⟩ => show (i 0).val / 5000 * 5000 ≤ (i 0).val ∧ (i 0).val < (i 0).val / 5000 * 5000 + 5000; omega
  | ⟨1, _⟩ => show 0 * 64 ≤ (i 1).val ∧ (i 1).val < 0 * 64 + 64; omega

/-- An index within a rectangle's bounds on every axis is under the slice of a whole array at that rectangle. -/
theorem mem_whole_slice (b : Ref sig .tc) {off size : Fin b.ty.shape.rank → Nat} {inb} {i : b.ty.shape.Idx}
    (h : ∀ a, off a ≤ (i a).val ∧ (i a).val < off a + size a) : i ∈ ((View.whole b).slice (Rect.unit off size inb)).set := by
  rw [View.set_slice_whole]; exact Rect.mem_set_unit.mpr h

/-- Writing the whole tile with a function of whole reads leaves that function of what was read. -/
theorem tile_out (pay : Vec Ideal S5000x64 .f32 → Vec Ideal S5000x64 .f32 → FVec Ideal S5000x64 .f32) (x0 x1 : Vec Ideal S5000x64 .f32) :
    (View.canon [⟨Rect.unit (s := S5000x64) ![0, 0] S5000x64.size inb_S5000x64_S5000x64_0_0,
      pay (View.ld x0 (Rect.unit (s := S5000x64) ![0, 0] S5000x64.size inb_S5000x64_S5000x64_0_0))
        (View.ld x1 (Rect.unit (s := S5000x64) ![0, 0] S5000x64.size inb_S5000x64_S5000x64_0_0))⟩] : Vec Ideal S5000x64 .f32) = pay x0 x1 := by
  rw [View.canon_unit_zero hz, View.ld_unit_zero hz, View.ld_unit_zero hz]

theorem hostSqrt_apply {s : Shape} (x : FVec Ideal s .f32) (i : s.Idx) : Host.sqrt x i = Ideal.sqrt (x i) := rfl

theorem fin100000_eq_upd (P A : FVec Ideal ⟨2, ![100000, 64]⟩ .f32) : Cert.Spec.fin100000 (F := Ideal) P A = upd P A := by
  funext i
  obtain ⟨r, q, rfl⟩ : ∃ (r : Fin 100000) (q : Fin 64), i = ix2 r q := ⟨i 0, i 1, eq_ix2 i⟩
  unfold Cert.Spec.fin100000 Cert.Spec.rownorm100000
  refine (hostDivf_apply _ _ _).trans (congrArg₂ Ideal.div rfl ?_)
  refine (broadcastInDim_a1_ab_apply _ _ r q).trans ((maximumf_apply _ _ _).trans (congrArg₂ max ?_ rfl))
  refine (hostSqrt_apply _ _).trans (congrArg Ideal.sqrt ?_)
  refine (broadcastInDim_a_a1_apply _ _ r 0).trans ((hostRowsum_apply _ _ _ (by decide) _ r).trans ?_)
  show Ideal.ofBits .f32 0x00000000#32 + _ = _
  rw [Ideal.ofBits_zero_f32, zero_add]
  rfl

theorem fin50000_eq_upd (P A : FVec Ideal ⟨2, ![50000, 64]⟩ .f32) : Cert.Spec.fin50000 (F := Ideal) P A = upd P A := by
  funext i
  obtain ⟨r, q, rfl⟩ : ∃ (r : Fin 50000) (q : Fin 64), i = ix2 r q := ⟨i 0, i 1, eq_ix2 i⟩
  unfold Cert.Spec.fin50000 Cert.Spec.rownorm50000
  refine (hostDivf_apply _ _ _).trans (congrArg₂ Ideal.div rfl ?_)
  refine (broadcastInDim_a1_ab_apply _ _ r q).trans ((maximumf_apply _ _ _).trans (congrArg₂ max ?_ rfl))
  refine (hostSqrt_apply _ _).trans (congrArg Ideal.sqrt ?_)
  refine (broadcastInDim_a_a1_apply _ _ r 0).trans ((hostRowsum_apply _ _ _ (by decide) _ r).trans ?_)
  show Ideal.ofBits .f32 0x00000000#32 + _ = _
  rw [Ideal.ofBits_zero_f32, zero_add]
  rfl

end Cert.KernelIdeal.Hand.NodeUpd

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.KernelIdeal.Hand.NodeUpd

variable (V : (c : Dev nD) → (b : Ref sig .tc) → Buf (Elt Ideal) ((c : Thread nD τ).loc b))

theorem flushed3_eq (c : Dev nD) (t : Fin cfg3.N) (hi : win3_0.index t = win3_2.index t ∧ win3_1.index t = win3_2.index t
      ∧ win3_2.index t = ![t.val, 0]) :
    (dat3 (F := Ideal) V c).flushed 2 t = ((cfg3.win 2).blk t).view.read (Elt Ideal)
      (upd (n := 100000) (V c (Pipeline.arrRef spec3 0)) (V c (Pipeline.arrRef spec3 1))) :=
  (congrArg ((cfg3.win 2).cut (grid3.coords t)) ((after3_2 V c t).trans (tile_out k3_pay1 _ _))).trans
    (funext fun y => upd_block (pay := k3_pay1) (fun x0 x1 p q => pay_apply x0 x1 p q) _ _
      (e0 := fun y => ((cfg3.win 0).blk t).view.emb y) (e1 := fun y => ((cfg3.win 1).blk t).view.emb y)
      (e2 := fun y => ((cfg3.win 2).blk t).view.emb y)
      (win3_0.rect_emb_val t) (win3_1.rect_emb_val t) (win3_2.rect_emb_val t) hi (fun _ => rfl) (fun _ => rfl) y)

theorem final3 (c : Dev nD) :
    (dat3 (F := Ideal) V c).arrAt 2 cfg3.N
      = Cert.Spec.fin100000 (F := Ideal) (V c (Pipeline.arrRef spec3 0)) (V c (Pipeline.arrRef spec3 1)) := by
  have hi : ∀ t : Fin cfg3.N, win3_0.index t = win3_2.index t ∧ win3_1.index t = win3_2.index t ∧ win3_2.index t = ![t.val, 0] :=
    (by decide +kernel : ∀ t : Fin grid3.N, _)
  refine ((dat3 V c).arrAt_eq_of_cover 2 _ (fun t _ => flushed3_eq V c t (hi t)) fun i => ?_).trans (fin100000_eq_upd _ _).symm
  obtain ⟨t, ht⟩ := rows_cover (congrArg (· * 5000) N_3).symm (fun t : Fin cfg3.N => win3_2.index t) (fun t => (hi t).2.2) i
  exact ⟨t, flush3_2 t, mem_whole_slice _ ht⟩

theorem flushed4_eq (c : Dev nD) (t : Fin cfg4.N) (hi : win4_0.index t = win4_2.index t ∧ win4_1.index t = win4_2.index t
      ∧ win4_2.index t = ![t.val, 0]) :
    (dat4 (F := Ideal) V c).flushed 2 t = ((cfg4.win 2).blk t).view.read (Elt Ideal)
      (upd (n := 50000) (V c (Pipeline.arrRef spec4 0)) (V c (Pipeline.arrRef spec4 1))) :=
  (congrArg ((cfg4.win 2).cut (grid4.coords t)) ((after4_2 V c t).trans (tile_out k4_pay1 _ _))).trans
    (funext fun y => upd_block (pay := k4_pay1) (fun x0 x1 p q => pay_apply x0 x1 p q) _ _
      (e0 := fun y => ((cfg4.win 0).blk t).view.emb y) (e1 := fun y => ((cfg4.win 1).blk t).view.emb y)
      (e2 := fun y => ((cfg4.win 2).blk t).view.emb y)
      (win4_0.rect_emb_val t) (win4_1.rect_emb_val t) (win4_2.rect_emb_val t) hi (fun _ => rfl) (fun _ => rfl) y)

theorem final4 (c : Dev nD) :
    (dat4 (F := Ideal) V c).arrAt 2 cfg4.N
      = Cert.Spec.fin50000 (F := Ideal) (V c (Pipeline.arrRef spec4 0)) (V c (Pipeline.arrRef spec4 1)) := by
  have hi : ∀ t : Fin cfg4.N, win4_0.index t = win4_2.index t ∧ win4_1.index t = win4_2.index t ∧ win4_2.index t = ![t.val, 0] :=
    (by decide +kernel : ∀ t : Fin grid4.N, _)
  refine ((dat4 V c).arrAt_eq_of_cover 2 _ (fun t _ => flushed4_eq V c t (hi t)) fun i => ?_).trans (fin50000_eq_upd _ _).symm
  obtain ⟨t, ht⟩ := rows_cover (congrArg (· * 5000) N_4).symm (fun t : Fin cfg4.N => win4_2.index t) (fun t => (hi t).2.2) i
  exact ⟨t, flush4_2 t, mem_whole_slice _ ht⟩

theorem flushed8_eq (c : Dev nD) (t : Fin cfg8.N) (hi : win8_0.index t = win8_2.index t ∧ win8_1.index t = win8_2.index t
      ∧ win8_2.index t = ![t.val, 0]) :
    (dat8 (F := Ideal) V c).flushed 2 t = ((cfg8.win 2).blk t).view.read (Elt Ideal)
      (upd (n := 100000) (V c (Pipeline.arrRef spec8 0)) (V c (Pipeline.arrRef spec8 1))) :=
  (congrArg ((cfg8.win 2).cut (grid8.coords t)) ((after8_2 V c t).trans (tile_out k8_pay1 _ _))).trans
    (funext fun y => upd_block (pay := k8_pay1) (fun x0 x1 p q => pay_apply x0 x1 p q) _ _
      (e0 := fun y => ((cfg8.win 0).blk t).view.emb y) (e1 := fun y => ((cfg8.win 1).blk t).view.emb y)
      (e2 := fun y => ((cfg8.win 2).blk t).view.emb y)
      (win8_0.rect_emb_val t) (win8_1.rect_emb_val t) (win8_2.rect_emb_val t) hi (fun _ => rfl) (fun _ => rfl) y)

theorem final8 (c : Dev nD) :
    (dat8 (F := Ideal) V c).arrAt 2 cfg8.N
      = Cert.Spec.fin100000 (F := Ideal) (V c (Pipeline.arrRef spec8 0)) (V c (Pipeline.arrRef spec8 1)) := by
  have hi : ∀ t : Fin cfg8.N, win8_0.index t = win8_2.index t ∧ win8_1.index t = win8_2.index t ∧ win8_2.index t = ![t.val, 0] :=
    (by decide +kernel : ∀ t : Fin grid8.N, _)
  refine ((dat8 V c).arrAt_eq_of_cover 2 _ (fun t _ => flushed8_eq V c t (hi t)) fun i => ?_).trans (fin100000_eq_upd _ _).symm
  obtain ⟨t, ht⟩ := rows_cover (congrArg (· * 5000) N_8).symm (fun t : Fin cfg8.N => win8_2.index t) (fun t => (hi t).2.2) i
  exact ⟨t, flush8_2 t, mem_whole_slice _ ht⟩

theorem flushed9_eq (c : Dev nD) (t : Fin cfg9.N) (hi : win9_0.index t = win9_2.index t ∧ win9_1.index t = win9_2.index t
      ∧ win9_2.index t = ![t.val, 0]) :
    (dat9 (F := Ideal) V c).flushed 2 t = ((cfg9.win 2).blk t).view.read (Elt Ideal)
      (upd (n := 50000) (V c (Pipeline.arrRef spec9 0)) (V c (Pipeline.arrRef spec9 1))) :=
  (congrArg ((cfg9.win 2).cut (grid9.coords t)) ((after9_2 V c t).trans (tile_out k9_pay1 _ _))).trans
    (funext fun y => upd_block (pay := k9_pay1) (fun x0 x1 p q => pay_apply x0 x1 p q) _ _
      (e0 := fun y => ((cfg9.win 0).blk t).view.emb y) (e1 := fun y => ((cfg9.win 1).blk t).view.emb y)
      (e2 := fun y => ((cfg9.win 2).blk t).view.emb y)
      (win9_0.rect_emb_val t) (win9_1.rect_emb_val t) (win9_2.rect_emb_val t) hi (fun _ => rfl) (fun _ => rfl) y)

theorem final9 (c : Dev nD) :
    (dat9 (F := Ideal) V c).arrAt 2 cfg9.N
      = Cert.Spec.fin50000 (F := Ideal) (V c (Pipeline.arrRef spec9 0)) (V c (Pipeline.arrRef spec9 1)) := by
  have hi : ∀ t : Fin cfg9.N, win9_0.index t = win9_2.index t ∧ win9_1.index t = win9_2.index t ∧ win9_2.index t = ![t.val, 0] :=
    (by decide +kernel : ∀ t : Fin grid9.N, _)
  refine ((dat9 V c).arrAt_eq_of_cover 2 _ (fun t _ => flushed9_eq V c t (hi t)) fun i => ?_).trans (fin50000_eq_upd _ _).symm
  obtain ⟨t, ht⟩ := rows_cover (congrArg (· * 5000) N_9).symm (fun t : Fin cfg9.N => win9_2.index t) (fun t => (hi t).2.2) i
  exact ⟨t, flush9_2 t, mem_whole_slice _ ht⟩

theorem flushed13_eq (c : Dev nD) (t : Fin cfg13.N) (hi : win13_0.index t = win13_2.index t ∧ win13_1.index t = win13_2.index t
      ∧ win13_2.index t = ![t.val, 0]) :
    (dat13 (F := Ideal) V c).flushed 2 t = ((cfg13.win 2).blk t).view.read (Elt Ideal)
      (upd (n := 100000) (V c (Pipeline.arrRef spec13 0)) (V c (Pipeline.arrRef spec13 1))) :=
  (congrArg ((cfg13.win 2).cut (grid13.coords t)) ((after13_2 V c t).trans (tile_out k13_pay1 _ _))).trans
    (funext fun y => upd_block (pay := k13_pay1) (fun x0 x1 p q => pay_apply x0 x1 p q) _ _
      (e0 := fun y => ((cfg13.win 0).blk t).view.emb y) (e1 := fun y => ((cfg13.win 1).blk t).view.emb y)
      (e2 := fun y => ((cfg13.win 2).blk t).view.emb y)
      (win13_0.rect_emb_val t) (win13_1.rect_emb_val t) (win13_2.rect_emb_val t) hi (fun _ => rfl) (fun _ => rfl) y)

theorem final13 (c : Dev nD) :
    (dat13 (F := Ideal) V c).arrAt 2 cfg13.N
      = Cert.Spec.fin100000 (F := Ideal) (V c (Pipeline.arrRef spec13 0)) (V c (Pipeline.arrRef spec13 1)) := by
  have hi : ∀ t : Fin cfg13.N, win13_0.index t = win13_2.index t ∧ win13_1.index t = win13_2.index t ∧ win13_2.index t = ![t.val, 0] :=
    (by decide +kernel : ∀ t : Fin grid13.N, _)
  refine ((dat13 V c).arrAt_eq_of_cover 2 _ (fun t _ => flushed13_eq V c t (hi t)) fun i => ?_).trans (fin100000_eq_upd _ _).symm
  obtain ⟨t, ht⟩ := rows_cover (congrArg (· * 5000) N_13).symm (fun t : Fin cfg13.N => win13_2.index t) (fun t => (hi t).2.2) i
  exact ⟨t, flush13_2 t, mem_whole_slice _ ht⟩

theorem flushed14_eq (c : Dev nD) (t : Fin cfg14.N) (hi : win14_0.index t = win14_2.index t ∧ win14_1.index t = win14_2.index t
      ∧ win14_2.index t = ![t.val, 0]) :
    (dat14 (F := Ideal) V c).flushed 2 t = ((cfg14.win 2).blk t).view.read (Elt Ideal)
      (upd (n := 50000) (V c (Pipeline.arrRef spec14 0)) (V c (Pipeline.arrRef spec14 1))) :=
  (congrArg ((cfg14.win 2).cut (grid14.coords t)) ((after14_2 V c t).trans (tile_out k14_pay1 _ _))).trans
    (funext fun y => upd_block (pay := k14_pay1) (fun x0 x1 p q => pay_apply x0 x1 p q) _ _
      (e0 := fun y => ((cfg14.win 0).blk t).view.emb y) (e1 := fun y => ((cfg14.win 1).blk t).view.emb y)
      (e2 := fun y => ((cfg14.win 2).blk t).view.emb y)
      (win14_0.rect_emb_val t) (win14_1.rect_emb_val t) (win14_2.rect_emb_val t) hi (fun _ => rfl) (fun _ => rfl) y)

theorem final14 (c : Dev nD) :
    (dat14 (F := Ideal) V c).arrAt 2 cfg14.N
      = Cert.Spec.fin50000 (F := Ideal) (V c (Pipeline.arrRef spec14 0)) (V c (Pipeline.arrRef spec14 1)) := by
  have hi : ∀ t : Fin cfg14.N, win14_0.index t = win14_2.index t ∧ win14_1.index t = win14_2.index t ∧ win14_2.index t = ![t.val, 0] :=
    (by decide +kernel : ∀ t : Fin grid14.N, _)
  refine ((dat14 V c).arrAt_eq_of_cover 2 _ (fun t _ => flushed14_eq V c t (hi t)) fun i => ?_).trans (fin50000_eq_upd _ _).symm
  obtain ⟨t, ht⟩ := rows_cover (congrArg (· * 5000) N_14).symm (fun t : Fin cfg14.N => win14_2.index t) (fun t => (hi t).2.2) i
  exact ⟨t, flush14_2 t, mem_whole_slice _ ht⟩

end Cert.KernelIdeal.Hand

end
-- ==== Proof.KI.Exit.lean ====
import proofs.«431207_j9844065042802_4_alg».proof.Proof.KI.Chain
import proofs.«431207_j9844065042802_4_alg».proof.Proof.KI.ValLinAll
import proofs.«431207_j9844065042802_4_alg».proof.Proof.KI.ValMsg
import proofs.«431207_j9844065042802_4_alg».proof.Proof.KI.ValFinAll

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ)

theorem exit0 (c : Dev nD) : X2 m c main_v34 = Cert.Spec.lin100000 (F := Ideal) (X1 m c main_arg0) (X1 m c main_v26) (X1 m c main_v33) := by
  unfold X2; rw [Function.update_self]; exact final0 (atTc (X1 m)) c
theorem exit1 (c : Dev nD) : X4 m c main_v36 = Cert.Spec.lin50000 (F := Ideal) (X3 m c main_arg1) (X3 m c main_v26) (X3 m c main_v35) := by
  unfold X4; rw [Function.update_self]; exact final1 (atTc (X3 m)) c
theorem exit2_0 (c : Dev nD) : X6 m c main_v66_0 = Cert.Spec.msg (F := Ideal) (X5 m c main_v43) (X5 m c main_v50) (X5 m c main_v57) (X5 m c main_v24) (X5 m c main_v30) (X5 m c main_v65) := by
  unfold X6; rw [Function.update_of_ne (StableHlo.devRef_ne_of_ne (by decide) : (Proc.devRef .tc main_v66_0 : DevRef τ sig) ≠ Proc.devRef .tc main_v66_1), Function.update_self]; exact final2_7 (atTc (X5 m)) c
theorem exit2_1 (c : Dev nD) : X6 m c main_v66_1 = Cert.Spec.msg (F := Ideal) (X5 m c main_v43) (X5 m c main_v50) (X5 m c main_v64) (X5 m c main_v24) (X5 m c main_v30) (X5 m c main_v65) := by
  unfold X6; rw [Function.update_self]; exact final2_8 (atTc (X5 m)) c
theorem exit3 (c : Dev nD) : X8 m c main_v73 = Cert.Spec.fin100000 (F := Ideal) (X7 m c main_v34) (X7 m c main_v69) := by
  unfold X8; rw [Function.update_self]; exact final3 (atTc (X7 m)) c
theorem exit4 (c : Dev nD) : X9 m c main_v74 = Cert.Spec.fin50000 (F := Ideal) (X8 m c main_v36) (X8 m c main_v72) := by
  unfold X9; rw [Function.update_self]; exact final4 (atTc (X8 m)) c

theorem exit5 (c : Dev nD) : X11 m c main_v84 = Cert.Spec.lin100000 (F := Ideal) (X10 m c main_v73) (X10 m c main_v76) (X10 m c main_v83) := by
  unfold X11; rw [Function.update_self]; exact final5 (atTc (X10 m)) c
theorem exit6 (c : Dev nD) : X13 m c main_v86 = Cert.Spec.lin50000 (F := Ideal) (X12 m c main_v74) (X12 m c main_v76) (X12 m c main_v85) := by
  unfold X13; rw [Function.update_self]; exact final6 (atTc (X12 m)) c
theorem exit7_0 (c : Dev nD) : X15 m c main_v116_0 = Cert.Spec.msg (F := Ideal) (X14 m c main_v93) (X14 m c main_v100) (X14 m c main_v107) (X14 m c main_v24) (X14 m c main_v80) (X14 m c main_v115) := by
  unfold X15; rw [Function.update_of_ne (StableHlo.devRef_ne_of_ne (by decide) : (Proc.devRef .tc main_v116_0 : DevRef τ sig) ≠ Proc.devRef .tc main_v116_1), Function.update_self]; exact final7_7 (atTc (X14 m)) c
theorem exit7_1 (c : Dev nD) : X15 m c main_v116_1 = Cert.Spec.msg (F := Ideal) (X14 m c main_v93) (X14 m c main_v100) (X14 m c main_v114) (X14 m c main_v24) (X14 m c main_v80) (X14 m c main_v115) := by
  unfold X15; rw [Function.update_self]; exact final7_8 (atTc (X14 m)) c
theorem exit8 (c : Dev nD) : X17 m c main_v123 = Cert.Spec.fin100000 (F := Ideal) (X16 m c main_v84) (X16 m c main_v119) := by
  unfold X17; rw [Function.update_self]; exact final8 (atTc (X16 m)) c
theorem exit9 (c : Dev nD) : X18 m c main_v124 = Cert.Spec.fin50000 (F := Ideal) (X17 m c main_v86) (X17 m c main_v122) := by
  unfold X18; rw [Function.update_self]; exact final9 (atTc (X17 m)) c

theorem exit10 (c : Dev nD) : X20 m c main_v134 = Cert.Spec.lin100000 (F := Ideal) (X19 m c main_v123) (X19 m c main_v126) (X19 m c main_v133) := by
  unfold X20; rw [Function.update_self]; exact final10 (atTc (X19 m)) c
theorem exit11 (c : Dev nD) : X22 m c main_v136 = Cert.Spec.lin50000 (F := Ideal) (X21 m c main_v124) (X21 m c main_v126) (X21 m c main_v135) := by
  unfold X22; rw [Function.update_self]; exact final11 (atTc (X21 m)) c
theorem exit12_0 (c : Dev nD) : X24 m c main_v166_0 = Cert.Spec.msg (F := Ideal) (X23 m c main_v143) (X23 m c main_v150) (X23 m c main_v157) (X23 m c main_v24) (X23 m c main_v130) (X23 m c main_v165) := by
  unfold X24; rw [Function.update_of_ne (StableHlo.devRef_ne_of_ne (by decide) : (Proc.devRef .tc main_v166_0 : DevRef τ sig) ≠ Proc.devRef .tc main_v166_1), Function.update_self]; exact final12_7 (atTc (X23 m)) c
theorem exit12_1 (c : Dev nD) : X24 m c main_v166_1 = Cert.Spec.msg (F := Ideal) (X23 m c main_v143) (X23 m c main_v150) (X23 m c main_v164) (X23 m c main_v24) (X23 m c main_v130) (X23 m c main_v165) := by
  unfold X24; rw [Function.update_self]; exact final12_8 (atTc (X23 m)) c
theorem exit13 (c : Dev nD) : X26 m c main_v173 = Cert.Spec.fin100000 (F := Ideal) (X25 m c main_v134) (X25 m c main_v169) := by
  unfold X26; rw [Function.update_self]; exact final13 (atTc (X25 m)) c
theorem exit14 (c : Dev nD) : X27 m c main_v174 = Cert.Spec.fin50000 (F := Ideal) (X26 m c main_v136) (X26 m c main_v172) := by
  unfold X27; rw [Function.update_self]; exact final14 (atTc (X26 m)) c

end Cert.KernelIdeal.Hand

end
-- ==== Proof.Model.lean ====
import proofs.«431207_j9844065042802_4_alg».proof.Proof.Spec

noncomputable section

namespace Cert.Spec

open Idealize.ShloMosaic Cert.ReferenceIdeal

variable {F : FTy → Type} [FloatOps F] [Cert.ReferenceIdeal.Facts]
open Cert.ReferenceIdeal.Facts₀ Cert.ReferenceIdeal.Facts

abbrev F32 (s : Shape) : Type := (⟨s, .f32⟩ : BufTy).Contents (Elt F)
abbrev I32 (s : Shape) : Type := (⟨s, .i32⟩ : BufTy).Contents (Elt F)

def col500 (n : BitVec 32) (idx : I32 (F := F) S500000) : I32 (F := F) S500000x1 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 n))) idx)

def col8192 (n : BitVec 32) (idx : I32 (F := F) S8192) : I32 (F := F) S8192x1 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 n))) idx)

def rawCol (idx : I32 (F := F) S500000) : I32 (F := F) S500000x1 :=
  broadcastInDim S500000x1 ![0] bcast_S500000_S500000x1_0 idx

def gatherU (x : F32 (F := F) S100000x64) (u : I32 (F := F) S500000) : F32 (F := F) S500000x64 :=
  Host.gather gather_S100000x64_S500000x1_S500000x64_1_0_n_n_0_1_164 x (col500 100000#32 u)
def gatherI (x : F32 (F := F) S50000x64) (i : I32 (F := F) S500000) : F32 (F := F) S500000x64 :=
  Host.gather gather_S50000x64_S500000x1_S500000x64_1_0_n_n_0_1_164 x (col500 50000#32 i)

def scatterU (upd : F32 (F := F) S500000x64) (u : I32 (F := F) S500000) : F32 (F := F) S100000x64 :=
  Host.scatterAdd scatter_S100000x64_S500000x1_S500000x64_1_0_0_1
    (broadcastInDim S100000x64 ![] bcast_S_S100000x64 (constant S_ .f32 0x00000000#32)) (rawCol u) upd
def scatterI (upd : F32 (F := F) S500000x64) (i : I32 (F := F) S500000) : F32 (F := F) S50000x64 :=
  Host.scatterAdd scatter_S50000x64_S500000x1_S500000x64_1_0_0_1
    (broadcastInDim S50000x64 ![] bcast_S_S50000x64 (constant S_ .f32 0x00000000#32)) (rawCol i) upd

def row (b : F32 (F := F) S64) : F32 (F := F) S1x64 := broadcastInDim S1x64 ![1] bcast_S64_S1x64_1 b

def nrmVec (u i : I32 (F := F) S500000) : F32 (F := F) S500000 :=
  Host.powf
    (mulf
      (Host.gather gather_S100000_S500000x1_S500000_n_0_n_n_0_1_1
        (Host.scatterAdd scatter_S100000_S500000x1_S500000_n_0_0_1
          (broadcastInDim S100000 ![] bcast_S_S100000 (constant S_ .f32 0x00000000#32)) (rawCol u)
          (broadcastInDim S500000 ![] bcast_S_S500000 (constant S_ .f32 0x3F800000#32)))
        (col500 100000#32 u))
      (Host.gather gather_S50000_S500000x1_S500000_n_0_n_n_0_1_1
        (Host.scatterAdd scatter_S50000_S500000x1_S500000_n_0_0_1
          (broadcastInDim S50000 ![] bcast_S_S50000 (constant S_ .f32 0x00000000#32)) (rawCol i)
          (broadcastInDim S500000 ![] bcast_S_S500000 (constant S_ .f32 0x3F800000#32)))
        (col500 50000#32 i)))
    (broadcastInDim S500000 ![] bcast_S_S500000 (constant S_ .f32 0xBF000000#32))

def nrmCol (u i : I32 (F := F) S500000) : F32 (F := F) S500000x1 :=
  broadcastInDim S500000x1 ![0] bcast_S500000_S500000x1_0 (nrmVec u i)

def stepU (w1 : F32 (F := F) S64x64) (b1 : F32 (F := F) S64) (w2 : F32 (F := F) S64x64) (b2 : F32 (F := F) S64)
    (nrm : F32 (F := F) S500000x1) (u i : I32 (F := F) S500000) (hu : F32 (F := F) S100000x64) (hi : F32 (F := F) S50000x64) :
    F32 (F := F) S100000x64 :=
  fin100000 (lin100000 hu w1 (row b1))
    (scatterU (msg (gatherU hu u) (gatherI hi i) (gatherI (lin50000 hi w1 (row b1)) i) nrm w2 (row b2)) u)

def stepI (w1 : F32 (F := F) S64x64) (b1 : F32 (F := F) S64) (w2 : F32 (F := F) S64x64) (b2 : F32 (F := F) S64)
    (nrm : F32 (F := F) S500000x1) (u i : I32 (F := F) S500000) (hu : F32 (F := F) S100000x64) (hi : F32 (F := F) S50000x64) :
    F32 (F := F) S50000x64 :=
  fin50000 (lin50000 hi w1 (row b1))
    (scatterI (msg (gatherU hu u) (gatherI hi i) (gatherU (lin100000 hu w1 (row b1)) u) nrm w2 (row b2)) i)

def cat100 (a b c d : F32 (F := F) S100000x64) : F32 (F := F) S100000x256 :=
  concatenate S100000x256 1 [⟨S100000x64, a⟩, ⟨S100000x64, b⟩, ⟨S100000x64, c⟩, ⟨S100000x64, d⟩]
    concatenates_S100000x64_S100000x64_S100000x64_S100000x64_S100000x256_d1
def cat50 (a b c d : F32 (F := F) S50000x64) : F32 (F := F) S50000x256 :=
  concatenate S50000x256 1 [⟨S50000x64, a⟩, ⟨S50000x64, b⟩, ⟨S50000x64, c⟩, ⟨S50000x64, d⟩]
    concatenates_S50000x64_S50000x64_S50000x64_S50000x64_S50000x256_d1

def pickU (x : F32 (F := F) S100000x256) (idx : I32 (F := F) S8192) : F32 (F := F) S8192x256 :=
  Host.gather gather_S100000x256_S8192x1_S8192x256_1_0_n_n_0_1_1256 x (col8192 100000#32 idx)
def pickI (x : F32 (F := F) S50000x256) (idx : I32 (F := F) S8192) : F32 (F := F) S8192x256 :=
  Host.gather gather_S50000x256_S8192x1_S8192x256_1_0_n_n_0_1_1256 x (col8192 50000#32 idx)

end Cert.Spec

end
-- ==== Proof.KI.Layers.lean ====
import proofs.«431207_j9844065042802_4_alg».proof.Proof.KI.Keep
import proofs.«431207_j9844065042802_4_alg».proof.Proof.KI.Exit
import proofs.«431207_j9844065042802_4_alg».proof.Proof.Model
import proofs.«431207_j9844065042802_4_alg».proof.Proof.Gen.ReferenceIdeal
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

-- A vector reshaped to one row and the vector broadcast along axis 1 both hold entry `j` at `(0, j)`.
private theorem shapeCast_row {α : Type} {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    (fun i => shapeCast ⟨2, ![1, n]⟩ x h1 i) = broadcastInDim ⟨2, ![1, n]⟩ ![1] hd x := by
  funext i
  have h0 : (i 0).val = 0 := by have := idx2_lt0 i; omega
  have e2 := shapeCast_apply x h1 i (ix1 (i 1 : Fin n)) (by
    rw [Shape.rowMajor_val_two, Shape.rowMajor_val_one]
    show (i 1).val = (i 0).val * n + (i 1).val
    rw [h0]; omega)
  have e3 := broadcastInDim_apply ![1] hd x i (ix1 (i 1 : Fin n)) (by
    intro a
    match a with
    | ⟨0, _⟩ =>
      show (i 1).val = if n = 1 then 0 else (i 1).val
      split
      · have := idx2_lt1 i; omega
      · rfl)
  exact e2.trans e3.symm
-- A bias vector reshaped to one row is the model's one-row matrix of it.
private theorem row_cast (b : (⟨S64, .f32⟩ : BufTy).Contents (Elt Ideal)) :
    (fun i => shapeCast S1x64 b shapeCasts_S64_S1x64 i) = Cert.Spec.row (F := Ideal) b := by
  unfold Cert.Spec.row
  exact shapeCast_row b shapeCasts_S64_S1x64 _

-- One layer composed: when every buffer is the model's operation of the buffers before it, the two tables it leaves are the model's step.
theorem layer_step {w1 b1 w2 b2 nrm iu ii hu hi r1 r1' r2 pu pi eU eI ePU ePI mI mU aU aI oU oI}
    (hr1 : r1 = Cert.Spec.row (F := Ideal) b1) (hr1' : r1' = Cert.Spec.row (F := Ideal) b1) (hr2 : r2 = Cert.Spec.row (F := Ideal) b2)
    (hpu : pu = Cert.Spec.lin100000 (F := Ideal) hu w1 r1) (hpi : pi = Cert.Spec.lin50000 (F := Ideal) hi w1 r1')
    (heU : eU = Cert.Spec.gatherU (F := Ideal) hu iu) (heI : eI = Cert.Spec.gatherI (F := Ideal) hi ii)
    (hePU : ePU = Cert.Spec.gatherU (F := Ideal) pu iu) (hePI : ePI = Cert.Spec.gatherI (F := Ideal) pi ii)
    (hmI : mI = Cert.Spec.msg (F := Ideal) eU eI ePU nrm w2 r2) (hmU : mU = Cert.Spec.msg (F := Ideal) eU eI ePI nrm w2 r2)
    (haU : aU = Cert.Spec.scatterU (F := Ideal) mU iu) (haI : aI = Cert.Spec.scatterI (F := Ideal) mI ii)
    (hoU : oU = Cert.Spec.fin100000 (F := Ideal) pu aU) (hoI : oI = Cert.Spec.fin50000 (F := Ideal) pi aI) :
    oU = Cert.Spec.stepU (F := Ideal) w1 b1 w2 b2 nrm iu ii hu hi ∧ oI = Cert.Spec.stepI (F := Ideal) w1 b1 w2 b2 nrm iu ii hu hi := by
  subst hr1 hr1' hr2 hpu hpi heU heI hePU hePI hmI hmU haU haI hoU hoI
  exact ⟨rfl, rfl⟩

variable (m : (ℓ : Loc nD τ sig) → Buf (Elt Ideal) ℓ)

private theorem bias1_users0 (c : Dev nD) : X1 m c main_v33 = (Cert.Spec.row (F := Ideal) (X1 m c main_v28)) := by
  unfold X1
  have e : StableHlo.after hostOps0 (V0 m c) (main_v33 : DevRef τ sig)
      = (fun i => shapeCast S1x64 (StableHlo.after hostOps0 (V0 m c) (main_v28 : DevRef τ sig)) shapeCasts_S64_S1x64 i) := by
    after_results_simp <;> rfl
  exact e.trans (row_cast _)
private theorem bias1_items0 (c : Dev nD) : X3 m c main_v35 = (Cert.Spec.row (F := Ideal) (X2 m c main_v28)) := by
  unfold X3
  have e : StableHlo.after hostOps1 (X2 m c) (main_v35 : DevRef τ sig)
      = (fun i => shapeCast S1x64 ((X2 m c) (main_v28 : DevRef τ sig)) shapeCasts_S64_S1x64 i) := by
    after_results_simp <;> rfl
  exact e.trans (row_cast _)
private theorem gather_hu0 (c : Dev nD) : X5 m c main_v43 = Cert.Spec.gatherU (F := Ideal) (X4 m c main_arg0) (X4 m c main_arg6) := by
  unfold X5
  after_results_simp <;> rfl
private theorem gather_hi0 (c : Dev nD) : X5 m c main_v50 = Cert.Spec.gatherI (F := Ideal) (X4 m c main_arg1) (X4 m c main_arg7) := by
  unfold X5
  after_results_simp <;> rfl
private theorem gather_pu0 (c : Dev nD) : X5 m c main_v57 = Cert.Spec.gatherU (F := Ideal) (X4 m c main_v34) (X4 m c main_arg6) := by
  unfold X5
  after_results_simp <;> rfl
private theorem gather_pi0 (c : Dev nD) : X5 m c main_v64 = Cert.Spec.gatherI (F := Ideal) (X4 m c main_v36) (X4 m c main_arg7) := by
  unfold X5
  after_results_simp <;> rfl
private theorem bias20 (c : Dev nD) : X5 m c main_v65 = (Cert.Spec.row (F := Ideal) (X4 m c main_v32)) := by
  unfold X5
  have e : StableHlo.after hostOps2 (X4 m c) (main_v65 : DevRef τ sig)
      = (fun i => shapeCast S1x64 ((X4 m c) (main_v32 : DevRef τ sig)) shapeCasts_S64_S1x64 i) := by
    after_results_simp <;> rfl
  exact e.trans (row_cast _)
private theorem scatter_users0 (c : Dev nD) : X7 m c main_v69 = Cert.Spec.scatterU (F := Ideal) (X6 m c main_v66_1) (X6 m c main_arg6) := by
  unfold X7
  after_results_simp <;> rfl
private theorem scatter_items0 (c : Dev nD) : X7 m c main_v72 = Cert.Spec.scatterI (F := Ideal) (X6 m c main_v66_0) (X6 m c main_arg7) := by
  unfold X7
  after_results_simp <;> rfl

private theorem layer0 (c : Dev nD) : X8 m c main_v73 = Cert.Spec.stepU (F := Ideal) (X1 m c main_v26) (X1 m c main_v28) (X1 m c main_v30) (X1 m c main_v32) (X1 m c main_v24) (V0 m c main_arg6) (V0 m c main_arg7) (V0 m c main_arg0) (V0 m c main_arg1)
    ∧ X9 m c main_v74 = Cert.Spec.stepI (F := Ideal) (X1 m c main_v26) (X1 m c main_v28) (X1 m c main_v30) (X1 m c main_v32) (X1 m c main_v24) (V0 m c main_arg6) (V0 m c main_arg7) (V0 m c main_arg0) (V0 m c main_arg1) :=
  layer_step
    (bias1_users0 m c)
    ((bias1_items0 m c).trans (by rw [keep2_main_v28 m c]))
    ((bias20 m c).trans (by rw [keep4_main_v32 m c]))
    ((exit0 m c).trans (by rw [keep1_main_arg0 m c]))
    ((exit1 m c).trans (by rw [keep3_main_arg1 m c, keep3_main_v26 m c]))
    ((gather_hu0 m c).trans (by rw [keep4_main_arg0 m c, keep4_main_arg6 m c]))
    ((gather_hi0 m c).trans (by rw [keep4_main_arg1 m c, keep4_main_arg7 m c]))
    ((gather_pu0 m c).trans (by rw [keep4_main_v34 m c, keep4_main_arg6 m c]))
    ((gather_pi0 m c).trans (by rw [keep4_main_arg7 m c]))
    ((exit2_0 m c).trans (by rw [keep5_main_v24 m c, keep5_main_v30 m c]))
    ((exit2_1 m c).trans (by rw [keep5_main_v24 m c, keep5_main_v30 m c]))
    ((scatter_users0 m c).trans (by rw [keep6_main_arg6 m c]))
    ((scatter_items0 m c).trans (by rw [keep6_main_arg7 m c]))
    ((exit3 m c).trans (by rw [keep7_main_v34 m c]))
    ((exit4 m c).trans (by rw [keep8_main_v36 m c, keep8_main_v72 m c]))

theorem layer0_U (c : Dev nD) : X8 m c main_v73
    = Cert.Spec.stepU (F := Ideal) (X1 m c main_v26) (X1 m c main_v28) (X1 m c main_v30) (X1 m c main_v32) (X1 m c main_v24) (V0 m c main_arg6) (V0 m c main_arg7) (V0 m c main_arg0) (V0 m c main_arg1) := (layer0 m c).1
theorem layer0_I (c : Dev nD) : X9 m c main_v74
    = Cert.Spec.stepI (F := Ideal) (X1 m c main_v26) (X1 m c main_v28) (X1 m c main_v30) (X1 m c main_v32) (X1 m c main_v24) (V0 m c main_arg6) (V0 m c main_arg7) (V0 m c main_arg0) (V0 m c main_arg1) := (layer0 m c).2

private theorem bias1_users1 (c : Dev nD) : X10 m c main_v83 = (Cert.Spec.row (F := Ideal) (X10 m c main_v78)) := by
  unfold X10
  have e : StableHlo.after hostOps5 (X9 m c) (main_v83 : DevRef τ sig)
      = (fun i => shapeCast S1x64 (StableHlo.after hostOps5 (X9 m c) (main_v78 : DevRef τ sig)) shapeCasts_S64_S1x64 i) := by
    after_results_simp <;> rfl
  exact e.trans (row_cast _)
private theorem bias1_items1 (c : Dev nD) : X12 m c main_v85 = (Cert.Spec.row (F := Ideal) (X11 m c main_v78)) := by
  unfold X12
  have e : StableHlo.after hostOps6 (X11 m c) (main_v85 : DevRef τ sig)
      = (fun i => shapeCast S1x64 ((X11 m c) (main_v78 : DevRef τ sig)) shapeCasts_S64_S1x64 i) := by
    after_results_simp <;> rfl
  exact e.trans (row_cast _)
private theorem gather_hu1 (c : Dev nD) : X14 m c main_v93 = Cert.Spec.gatherU (F := Ideal) (X13 m c main_v73) (X13 m c main_arg6) := by
  unfold X14
  after_results_simp <;> rfl
private theorem gather_hi1 (c : Dev nD) : X14 m c main_v100 = Cert.Spec.gatherI (F := Ideal) (X13 m c main_v74) (X13 m c main_arg7) := by
  unfold X14
  after_results_simp <;> rfl
private theorem gather_pu1 (c : Dev nD) : X14 m c main_v107 = Cert.Spec.gatherU (F := Ideal) (X13 m c main_v84) (X13 m c main_arg6) := by
  unfold X14
  after_results_simp <;> rfl
private theorem gather_pi1 (c : Dev nD) : X14 m c main_v114 = Cert.Spec.gatherI (F := Ideal) (X13 m c main_v86) (X13 m c main_arg7) := by
  unfold X14
  after_results_simp <;> rfl
private theorem bias21 (c : Dev nD) : X14 m c main_v115 = (Cert.Spec.row (F := Ideal) (X13 m c main_v82)) := by
  unfold X14
  have e : StableHlo.after hostOps7 (X13 m c) (main_v115 : DevRef τ sig)
      = (fun i => shapeCast S1x64 ((X13 m c) (main_v82 : DevRef τ sig)) shapeCasts_S64_S1x64 i) := by
    after_results_simp <;> rfl
  exact e.trans (row_cast _)
private theorem scatter_users1 (c : Dev nD) : X16 m c main_v119 = Cert.Spec.scatterU (F := Ideal) (X15 m c main_v116_1) (X15 m c main_arg6) := by
  unfold X16
  after_results_simp <;> rfl
private theorem scatter_items1 (c : Dev nD) : X16 m c main_v122 = Cert.Spec.scatterI (F := Ideal) (X15 m c main_v116_0) (X15 m c main_arg7) := by
  unfold X16
  after_results_simp <;> rfl

private theorem layer1 (c : Dev nD) : X17 m c main_v123 = Cert.Spec.stepU (F := Ideal) (X10 m c main_v76) (X10 m c main_v78) (X10 m c main_v80) (X10 m c main_v82) (X1 m c main_v24) (V0 m c main_arg6) (V0 m c main_arg7) (X8 m c main_v73) (X9 m c main_v74)
    ∧ X18 m c main_v124 = Cert.Spec.stepI (F := Ideal) (X10 m c main_v76) (X10 m c main_v78) (X10 m c main_v80) (X10 m c main_v82) (X1 m c main_v24) (V0 m c main_arg6) (V0 m c main_arg7) (X8 m c main_v73) (X9 m c main_v74) :=
  layer_step
    (bias1_users1 m c)
    ((bias1_items1 m c).trans (by rw [keep11_main_v78 m c]))
    ((bias21 m c).trans (by rw [keep13_main_v82 m c]))
    ((exit5 m c).trans (by rw [keep10_main_v73 m c]))
    ((exit6 m c).trans (by rw [keep12_main_v74 m c, keep12_main_v76 m c]))
    ((gather_hu1 m c).trans (by rw [keep13_main_v73 m c, keep13_main_arg6 m c]))
    ((gather_hi1 m c).trans (by rw [keep13_main_v74 m c, keep13_main_arg7 m c]))
    ((gather_pu1 m c).trans (by rw [keep13_main_v84 m c, keep13_main_arg6 m c]))
    ((gather_pi1 m c).trans (by rw [keep13_main_arg7 m c]))
    ((exit7_0 m c).trans (by rw [keep14_main_v24 m c, keep14_main_v80 m c]))
    ((exit7_1 m c).trans (by rw [keep14_main_v24 m c, keep14_main_v80 m c]))
    ((scatter_users1 m c).trans (by rw [keep15_main_arg6 m c]))
    ((scatter_items1 m c).trans (by rw [keep15_main_arg7 m c]))
    ((exit8 m c).trans (by rw [keep16_main_v84 m c]))
    ((exit9 m c).trans (by rw [keep17_main_v86 m c, keep17_main_v122 m c]))

theorem layer1_U (c : Dev nD) : X17 m c main_v123
    = Cert.Spec.stepU (F := Ideal) (X10 m c main_v76) (X10 m c main_v78) (X10 m c main_v80) (X10 m c main_v82) (X1 m c main_v24) (V0 m c main_arg6) (V0 m c main_arg7) (X8 m c main_v73) (X9 m c main_v74) := (layer1 m c).1
theorem layer1_I (c : Dev nD) : X18 m c main_v124
    = Cert.Spec.stepI (F := Ideal) (X10 m c main_v76) (X10 m c main_v78) (X10 m c main_v80) (X10 m c main_v82) (X1 m c main_v24) (V0 m c main_arg6) (V0 m c main_arg7) (X8 m c main_v73) (X9 m c main_v74) := (layer1 m c).2

private theorem bias1_users2 (c : Dev nD) : X19 m c main_v133 = (Cert.Spec.row (F := Ideal) (X19 m c main_v128)) := by
  unfold X19
  have e : StableHlo.after hostOps10 (X18 m c) (main_v133 : DevRef τ sig)
      = (fun i => shapeCast S1x64 (StableHlo.after hostOps10 (X18 m c) (main_v128 : DevRef τ sig)) shapeCasts_S64_S1x64 i) := by
    after_results_simp <;> rfl
  exact e.trans (row_cast _)
private theorem bias1_items2 (c : Dev nD) : X21 m c main_v135 = (Cert.Spec.row (F := Ideal) (X20 m c main_v128)) := by
  unfold X21
  have e : StableHlo.after hostOps11 (X20 m c) (main_v135 : DevRef τ sig)
      = (fun i => shapeCast S1x64 ((X20 m c) (main_v128 : DevRef τ sig)) shapeCasts_S64_S1x64 i) := by
    after_results_simp <;> rfl
  exact e.trans (row_cast _)
private theorem gather_hu2 (c : Dev nD) : X23 m c main_v143 = Cert.Spec.gatherU (F := Ideal) (X22 m c main_v123) (X22 m c main_arg6) := by
  unfold X23
  after_results_simp <;> rfl
private theorem gather_hi2 (c : Dev nD) : X23 m c main_v150 = Cert.Spec.gatherI (F := Ideal) (X22 m c main_v124) (X22 m c main_arg7) := by
  unfold X23
  after_results_simp <;> rfl
private theorem gather_pu2 (c : Dev nD) : X23 m c main_v157 = Cert.Spec.gatherU (F := Ideal) (X22 m c main_v134) (X22 m c main_arg6) := by
  unfold X23
  after_results_simp <;> rfl
private theorem gather_pi2 (c : Dev nD) : X23 m c main_v164 = Cert.Spec.gatherI (F := Ideal) (X22 m c main_v136) (X22 m c main_arg7) := by
  unfold X23
  after_results_simp <;> rfl
private theorem bias22 (c : Dev nD) : X23 m c main_v165 = (Cert.Spec.row (F := Ideal) (X22 m c main_v132)) := by
  unfold X23
  have e : StableHlo.after hostOps12 (X22 m c) (main_v165 : DevRef τ sig)
      = (fun i => shapeCast S1x64 ((X22 m c) (main_v132 : DevRef τ sig)) shapeCasts_S64_S1x64 i) := by
    after_results_simp <;> rfl
  exact e.trans (row_cast _)
private theorem scatter_users2 (c : Dev nD) : X25 m c main_v169 = Cert.Spec.scatterU (F := Ideal) (X24 m c main_v166_1) (X24 m c main_arg6) := by
  unfold X25
  after_results_simp <;> rfl
private theorem scatter_items2 (c : Dev nD) : X25 m c main_v172 = Cert.Spec.scatterI (F := Ideal) (X24 m c main_v166_0) (X24 m c main_arg7) := by
  unfold X25
  after_results_simp <;> rfl

private theorem layer2 (c : Dev nD) : X26 m c main_v173 = Cert.Spec.stepU (F := Ideal) (X19 m c main_v126) (X19 m c main_v128) (X19 m c main_v130) (X19 m c main_v132) (X1 m c main_v24) (V0 m c main_arg6) (V0 m c main_arg7) (X17 m c main_v123) (X18 m c main_v124)
    ∧ X27 m c main_v174 = Cert.Spec.stepI (F := Ideal) (X19 m c main_v126) (X19 m c main_v128) (X19 m c main_v130) (X19 m c main_v132) (X1 m c main_v24) (V0 m c main_arg6) (V0 m c main_arg7) (X17 m c main_v123) (X18 m c main_v124) :=
  layer_step
    (bias1_users2 m c)
    ((bias1_items2 m c).trans (by rw [keep20_main_v128 m c]))
    ((bias22 m c).trans (by rw [keep22_main_v132 m c]))
    ((exit10 m c).trans (by rw [keep19_main_v123 m c]))
    ((exit11 m c).trans (by rw [keep21_main_v124 m c, keep21_main_v126 m c]))
    ((gather_hu2 m c).trans (by rw [keep22_main_v123 m c, keep22_main_arg6 m c]))
    ((gather_hi2 m c).trans (by rw [keep22_main_v124 m c, keep22_main_arg7 m c]))
    ((gather_pu2 m c).trans (by rw [keep22_main_v134 m c, keep22_main_arg6 m c]))
    ((gather_pi2 m c).trans (by rw [keep22_main_arg7 m c]))
    ((exit12_0 m c).trans (by rw [keep23_main_v24 m c, keep23_main_v130 m c]))
    ((exit12_1 m c).trans (by rw [keep23_main_v24 m c, keep23_main_v130 m c]))
    ((scatter_users2 m c).trans (by rw [keep24_main_arg6 m c]))
    ((scatter_items2 m c).trans (by rw [keep24_main_arg7 m c]))
    ((exit13 m c).trans (by rw [keep25_main_v134 m c]))
    ((exit14 m c).trans (by rw [keep26_main_v136 m c, keep26_main_v172 m c]))

theorem layer2_U (c : Dev nD) : X26 m c main_v173
    = Cert.Spec.stepU (F := Ideal) (X19 m c main_v126) (X19 m c main_v128) (X19 m c main_v130) (X19 m c main_v132) (X1 m c main_v24) (V0 m c main_arg6) (V0 m c main_arg7) (X17 m c main_v123) (X18 m c main_v124) := (layer2 m c).1
theorem layer2_I (c : Dev nD) : X27 m c main_v174
    = Cert.Spec.stepI (F := Ideal) (X19 m c main_v126) (X19 m c main_v128) (X19 m c main_v130) (X19 m c main_v132) (X1 m c main_v24) (V0 m c main_arg6) (V0 m c main_arg7) (X17 m c main_v123) (X18 m c main_v124) := (layer2 m c).2

end Cert.KernelIdeal.Hand

end
-- ==== Proof.KI.Ends.lean ====
import proofs.«431207_j9844065042802_4_alg».proof.Proof.KI.Keep
import proofs.«431207_j9844065042802_4_alg».proof.Proof.Model
import proofs.«431207_j9844065042802_4_alg».proof.Proof.Gen.ReferenceIdeal
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL.Sem
open Cert.KernelIdeal Cert.KernelIdeal.Gen
open Idealize.ShloMosaic.ValueIdx (ix1)

-- A vector cast to a one-column matrix and the vector repeated along a new unit axis both read, at row `r`, the vector at `r`.
private theorem shapeCast_col_eq_bcast {α : Type} (x : Cert.ReferenceIdeal.S500000.Idx → α)
    (h : Cert.ReferenceIdeal.S500000.ShapeCasts Cert.ReferenceIdeal.S500000x1)
    (hb : Cert.ReferenceIdeal.S500000.BroadcastsInDim Cert.ReferenceIdeal.S500000x1 ![0]) :
    (fun j => shapeCast Cert.ReferenceIdeal.S500000x1 x h j) = broadcastInDim Cert.ReferenceIdeal.S500000x1 ![0] hb x := by
  funext j
  rw [shapeCast_apply x h j (ix1 (j 0)) (by
    rw [Shape.rowMajor_val_two, Shape.rowMajor_val_one]
    show (j 0).val = (j 0).val * 1 + (j 1).val
    have h1 : (j 1).val < 1 := (j 1).isLt
    omega)]
  rw [broadcastInDim_apply ![0] hb x j (ix1 (j 0)) (by
    intro a
    have ha : a = 0 := Subsingleton.elim _ _
    subst ha
    rw [if_neg (by decide)]
    rfl)]

section Stretch
variable (W : Valuation τ sig (Elt Ideal))
set_option maxHeartbeats 2000000 in
private theorem hostOps15_main_v183 : StableHlo.after hostOps15 W main_v183
    = Cert.Spec.pickU (F := Ideal) (Cert.Spec.cat100 (W main_arg0) (W main_v73) (W main_v123) (W main_v173)) (W main_arg8) := by
  after_results; rfl
set_option maxHeartbeats 2000000 in
private theorem hostOps15_main_v190 : StableHlo.after hostOps15 W main_v190
    = Cert.Spec.pickI (F := Ideal) (Cert.Spec.cat50 (W main_arg1) (W main_v74) (W main_v124) (W main_v174)) (W main_arg9) := by
  after_results; rfl
set_option maxHeartbeats 2000000 in
private theorem hostOps15_main_v197 : StableHlo.after hostOps15 W main_v197
    = Cert.Spec.pickI (F := Ideal) (Cert.Spec.cat50 (W main_arg1) (W main_v74) (W main_v124) (W main_v174)) (W main_arg10) := by
  after_results; rfl
end Stretch

variable (m : (ℓ : Loc nD τ sig) → Buf (Elt Ideal) ℓ)

theorem knrm (c : Dev nD) : X1 m c main_v24 = Cert.Spec.nrmCol (F := Ideal) (V0 m c main_arg6) (V0 m c main_arg7) := by
  unfold X1
  have e : StableHlo.after hostOps0 (V0 m c) main_v24
      = fun j => shapeCast Cert.ReferenceIdeal.S500000x1 (Cert.Spec.nrmVec (F := Ideal) (V0 m c main_arg6) (V0 m c main_arg7)) shapeCasts_S500000_S500000x1 j := by
    after_results_simp; rfl
  rw [e]
  exact shapeCast_col_eq_bcast _ _ _
theorem kw1_0 (c : Dev nD) : X1 m c main_v26 = shapeCast Cert.ReferenceIdeal.S64x64 (extractStridedSlice Cert.ReferenceIdeal.S1x64x64 ![0, 0, 0] (V0 m c main_arg2) Cert.ReferenceIdeal.Facts₀.slices_S3x64x64_S1x64x64_0_0_0) Cert.ReferenceIdeal.Facts₀.shapeCasts_S1x64x64_S64x64 := by
  unfold X1
  after_results; rfl
theorem kb1_0 (c : Dev nD) : X1 m c main_v28 = shapeCast Cert.ReferenceIdeal.S64 (extractStridedSlice Cert.ReferenceIdeal.S1x64 ![0, 0] (V0 m c main_arg3) Cert.ReferenceIdeal.Facts₀.slices_S3x64_S1x64_0_0) Cert.ReferenceIdeal.Facts₀.shapeCasts_S1x64_S64 := by
  unfold X1
  after_results; rfl
theorem kw2_0 (c : Dev nD) : X1 m c main_v30 = shapeCast Cert.ReferenceIdeal.S64x64 (extractStridedSlice Cert.ReferenceIdeal.S1x64x64 ![0, 0, 0] (V0 m c main_arg4) Cert.ReferenceIdeal.Facts₀.slices_S3x64x64_S1x64x64_0_0_0) Cert.ReferenceIdeal.Facts₀.shapeCasts_S1x64x64_S64x64 := by
  unfold X1
  after_results; rfl
theorem kb2_0 (c : Dev nD) : X1 m c main_v32 = shapeCast Cert.ReferenceIdeal.S64 (extractStridedSlice Cert.ReferenceIdeal.S1x64 ![0, 0] (V0 m c main_arg5) Cert.ReferenceIdeal.Facts₀.slices_S3x64_S1x64_0_0) Cert.ReferenceIdeal.Facts₀.shapeCasts_S1x64_S64 := by
  unfold X1
  after_results; rfl
theorem kw1_1 (c : Dev nD) : X10 m c main_v76 = shapeCast Cert.ReferenceIdeal.S64x64 (extractStridedSlice Cert.ReferenceIdeal.S1x64x64 ![1, 0, 0] (V0 m c main_arg2) Cert.ReferenceIdeal.Facts₀.slices_S3x64x64_S1x64x64_1_0_0) Cert.ReferenceIdeal.Facts₀.shapeCasts_S1x64x64_S64x64 := by
  rw [← keep9_main_arg2 m c]
  unfold X10
  after_results; rfl
theorem kb1_1 (c : Dev nD) : X10 m c main_v78 = shapeCast Cert.ReferenceIdeal.S64 (extractStridedSlice Cert.ReferenceIdeal.S1x64 ![1, 0] (V0 m c main_arg3) Cert.ReferenceIdeal.Facts₀.slices_S3x64_S1x64_1_0) Cert.ReferenceIdeal.Facts₀.shapeCasts_S1x64_S64 := by
  rw [← keep9_main_arg3 m c]
  unfold X10
  after_results; rfl
theorem kw2_1 (c : Dev nD) : X10 m c main_v80 = shapeCast Cert.ReferenceIdeal.S64x64 (extractStridedSlice Cert.ReferenceIdeal.S1x64x64 ![1, 0, 0] (V0 m c main_arg4) Cert.ReferenceIdeal.Facts₀.slices_S3x64x64_S1x64x64_1_0_0) Cert.ReferenceIdeal.Facts₀.shapeCasts_S1x64x64_S64x64 := by
  rw [← keep9_main_arg4 m c]
  unfold X10
  after_results; rfl
theorem kb2_1 (c : Dev nD) : X10 m c main_v82 = shapeCast Cert.ReferenceIdeal.S64 (extractStridedSlice Cert.ReferenceIdeal.S1x64 ![1, 0] (V0 m c main_arg5) Cert.ReferenceIdeal.Facts₀.slices_S3x64_S1x64_1_0) Cert.ReferenceIdeal.Facts₀.shapeCasts_S1x64_S64 := by
  rw [← keep9_main_arg5 m c]
  unfold X10
  after_results; rfl
theorem kw1_2 (c : Dev nD) : X19 m c main_v126 = shapeCast Cert.ReferenceIdeal.S64x64 (extractStridedSlice Cert.ReferenceIdeal.S1x64x64 ![2, 0, 0] (V0 m c main_arg2) Cert.ReferenceIdeal.Facts₀.slices_S3x64x64_S1x64x64_2_0_0) Cert.ReferenceIdeal.Facts₀.shapeCasts_S1x64x64_S64x64 := by
  rw [← keep18_main_arg2 m c]
  unfold X19
  after_results; rfl
theorem kb1_2 (c : Dev nD) : X19 m c main_v128 = shapeCast Cert.ReferenceIdeal.S64 (extractStridedSlice Cert.ReferenceIdeal.S1x64 ![2, 0] (V0 m c main_arg3) Cert.ReferenceIdeal.Facts₀.slices_S3x64_S1x64_2_0) Cert.ReferenceIdeal.Facts₀.shapeCasts_S1x64_S64 := by
  rw [← keep18_main_arg3 m c]
  unfold X19
  after_results; rfl
theorem kw2_2 (c : Dev nD) : X19 m c main_v130 = shapeCast Cert.ReferenceIdeal.S64x64 (extractStridedSlice Cert.ReferenceIdeal.S1x64x64 ![2, 0, 0] (V0 m c main_arg4) Cert.ReferenceIdeal.Facts₀.slices_S3x64x64_S1x64x64_2_0_0) Cert.ReferenceIdeal.Facts₀.shapeCasts_S1x64x64_S64x64 := by
  rw [← keep18_main_arg4 m c]
  unfold X19
  after_results; rfl
theorem kb2_2 (c : Dev nD) : X19 m c main_v132 = shapeCast Cert.ReferenceIdeal.S64 (extractStridedSlice Cert.ReferenceIdeal.S1x64 ![2, 0] (V0 m c main_arg5) Cert.ReferenceIdeal.Facts₀.slices_S3x64_S1x64_2_0) Cert.ReferenceIdeal.Facts₀.shapeCasts_S1x64_S64 := by
  rw [← keep18_main_arg5 m c]
  unfold X19
  after_results; rfl
theorem kout0 (c : Dev nD) : X28 m c main_v183
    = Cert.Spec.pickU (F := Ideal) (Cert.Spec.cat100 (V0 m c main_arg0) (X8 m c main_v73) (X17 m c main_v123) (X26 m c main_v173)) (V0 m c main_arg8) := by
  have e := hostOps15_main_v183 (X27 m c)
  rw [keep27_main_arg0, keep27_main_v73, keep27_main_v123, keep27_main_v173, keep27_main_arg8] at e
  exact e
theorem kout1 (c : Dev nD) : X28 m c main_v190
    = Cert.Spec.pickI (F := Ideal) (Cert.Spec.cat50 (V0 m c main_arg1) (X9 m c main_v74) (X18 m c main_v124) (X27 m c main_v174)) (V0 m c main_arg9) := by
  have e := hostOps15_main_v190 (X27 m c)
  rw [keep27_main_arg1, keep27_main_v74, keep27_main_v124, keep27_main_arg9] at e
  exact e
theorem kout2 (c : Dev nD) : X28 m c main_v197
    = Cert.Spec.pickI (F := Ideal) (Cert.Spec.cat50 (V0 m c main_arg1) (X9 m c main_v74) (X18 m c main_v124) (X27 m c main_v174)) (V0 m c main_arg10) := by
  have e := hostOps15_main_v197 (X27 m c)
  rw [keep27_main_arg1, keep27_main_v74, keep27_main_v124, keep27_main_arg10] at e
  exact e

end Cert.KernelIdeal.Hand

end
-- ==== Proof.Ref.Value.lean ====
import proofs.«431207_j9844065042802_4_alg».proof.Proof.Ref.Run
import proofs.«431207_j9844065042802_4_alg».proof.Proof.Model
import proofs.«431207_j9844065042802_4_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the final contents of what operation `j` writes, as that operation's function of its operands' final contents
macro "op_n " j:term:max : tactic => `(tactic| rw [ssa_nullary ops_writesAre ops_W_nodup (j := $j) rfl])
macro "op_u " j:term:max : tactic => `(tactic| rw [ssa_unary ops_writesAre ops_W_nodup (j := $j) rfl (by decide)])
macro "op_b " j:term:max : tactic =>
  `(tactic| rw [ssa_binary ops_writesAre ops_W_nodup (j := $j) rfl (by decide) (by decide)])
macro "op_t " j:term:max : tactic =>
  `(tactic| rw [ssa_ternary ops_writesAre ops_W_nodup (j := $j) rfl (by decide) (by decide) (by decide)])
macro "op_r " j:term:max : tactic => `(tactic| rw [ssa_reshape ops_writesAre ops_W_nodup (j := $j) rfl (by decide)])
macro "op_c " j:term:max : tactic =>
  `(tactic| rw [ssa_nary4 ops_writesAre ops_W_nodup (j := $j) rfl (by decide) (by decide) (by decide) (by decide)])

-- the 33 operations that make the edge weights, last first
macro "flow_nrm" : tactic => `(tactic| (
  op_u 32; op_b 31; op_u 30; op_n 29; op_b 28; op_b 27; op_u 26; op_t 25; op_b 24; op_u 23; op_n 22;
  op_b 21; op_u 20; op_n 19; op_b 18; op_u 17; op_t 16; op_b 15; op_u 14; op_n 13; op_b 12; op_u 11;
  op_n 10; op_t 9; op_u 8; op_u 7; op_n 6; op_t 5; op_u 4; op_u 3; op_n 2; op_u 1; op_n 0))

-- one layer's 66 operations for one side, last first: the three layers and the two sides differ only in where their blocks start
macro "flow_h " k:num p:num q:num r:num : tactic => `(tactic| (
  op_b ($p + 17); op_u ($p + 16); op_b ($p + 15); op_u ($p + 14); op_n ($p + 13); op_u ($p + 12);
  op_u ($p + 11); op_b ($p + 10); op_n ($p + 9); op_b ($p + 8); op_t ($p + 7); op_b ($p + 6);
  op_u ($p + 5); op_u ($p + 4); op_b ($p + 3); op_u ($p + 2); op_n ($p + 1); op_n $p;
  op_b ($q + 4); op_t ($q + 3); op_u ($q + 2); op_u ($q + 1); op_n $q; op_b ($r + 11);
  op_u ($r + 10); op_b ($r + 9); op_b ($r + 8); op_u ($r + 7); op_t ($r + 6); op_b ($r + 5);
  op_u ($r + 4); op_n ($r + 3); op_b ($r + 2); op_u ($r + 1); op_n $r; op_b ($k + 71);
  op_u ($k + 70); op_u ($k + 69); op_b ($k + 68); op_b ($k + 67); op_b ($k + 66); op_u ($k + 65);
  op_t ($k + 64); op_b ($k + 63); op_u ($k + 62); op_n ($k + 61); op_b ($k + 60); op_u ($k + 59);
  op_n ($k + 58); op_b ($k + 57); op_u ($k + 56); op_t ($k + 55); op_b ($k + 54); op_u ($k + 53);
  op_n ($k + 52); op_b ($k + 51); op_u ($k + 50); op_n ($k + 49); op_b ($k + 48); op_u ($k + 47);
  op_u ($k + 46); op_b ($k + 45); op_b ($k + 44); op_u ($k + 43); op_u ($k + 42); op_b ($k + 41)))

-- a result's 10 operations, last first: the three results differ only in where their blocks start
macro "flow_out " k:num c:num : tactic => `(tactic| (
  op_b ($k + 370); op_u ($k + 369); op_t ($k + 368); op_b ($k + 367); op_u ($k + 366);
  op_n ($k + 365); op_b ($k + 364); op_u ($k + 363); op_n ($k + 362); op_c $c))

-- a weight slice's two operations: the slice at `j`, the reshape after it
macro "flow_w " j:num : tactic => `(tactic| (op_r ($j + 1); op_u $j))

variable (m : (ℓ : Loc nD τ sig) → Buf (Elt F) ℓ) (c : Dev nD)

theorem nrm_eq : Rv m c (Proc.devRef .tc main_v24) = Cert.Spec.nrmCol (m ((c.tc : Thread nD τ).loc main_arg6)) (m ((c.tc : Thread nD τ).loc main_arg7)) := by
  unfold Rv; flow_nrm
  rw [keep _ main_arg6 (by decide), keep _ main_arg7 (by decide)]; rfl

set_option maxHeartbeats 4000000 in
theorem hu1_eq : Rv m c (Proc.devRef .tc main_v96)
    = Cert.Spec.stepU (Rv m c (Proc.devRef .tc main_v26)) (Rv m c (Proc.devRef .tc main_v28)) (Rv m c (Proc.devRef .tc main_v30)) (Rv m c (Proc.devRef .tc main_v32)) (Rv m c (Proc.devRef .tc main_v24))
        (m ((c.tc : Thread nD τ).loc main_arg6)) (m ((c.tc : Thread nD τ).loc main_arg7)) (m ((c.tc : Thread nD τ).loc main_arg0)) (m ((c.tc : Thread nD τ).loc main_arg1)) := by
  unfold Rv; flow_h 0 106 96 84
  rw [keep _ main_arg0 (by decide), keep _ main_arg1 (by decide), keep _ main_arg6 (by decide), keep _ main_arg7 (by decide)]; rfl

set_option maxHeartbeats 4000000 in
theorem hi1_eq : Rv m c (Proc.devRef .tc main_v105)
    = Cert.Spec.stepI (Rv m c (Proc.devRef .tc main_v26)) (Rv m c (Proc.devRef .tc main_v28)) (Rv m c (Proc.devRef .tc main_v30)) (Rv m c (Proc.devRef .tc main_v32)) (Rv m c (Proc.devRef .tc main_v24))
        (m ((c.tc : Thread nD τ).loc main_arg6)) (m ((c.tc : Thread nD τ).loc main_arg7)) (m ((c.tc : Thread nD τ).loc main_arg0)) (m ((c.tc : Thread nD τ).loc main_arg1)) := by
  unfold Rv; flow_h 0 124 101 72
  rw [keep _ main_arg0 (by decide), keep _ main_arg1 (by decide), keep _ main_arg6 (by decide), keep _ main_arg7 (by decide)]; rfl

set_option maxHeartbeats 4000000 in
theorem hu2_eq : Rv m c (Proc.devRef .tc main_v177)
    = Cert.Spec.stepU (Rv m c (Proc.devRef .tc main_v107)) (Rv m c (Proc.devRef .tc main_v109)) (Rv m c (Proc.devRef .tc main_v111)) (Rv m c (Proc.devRef .tc main_v113)) (Rv m c (Proc.devRef .tc main_v24))
        (m ((c.tc : Thread nD τ).loc main_arg6)) (m ((c.tc : Thread nD τ).loc main_arg7)) (Rv m c (Proc.devRef .tc main_v96)) (Rv m c (Proc.devRef .tc main_v105)) := by
  unfold Rv; flow_h 109 215 205 193
  rw [keep _ main_arg6 (by decide), keep _ main_arg7 (by decide)]; rfl

set_option maxHeartbeats 4000000 in
theorem hi2_eq : Rv m c (Proc.devRef .tc main_v186)
    = Cert.Spec.stepI (Rv m c (Proc.devRef .tc main_v107)) (Rv m c (Proc.devRef .tc main_v109)) (Rv m c (Proc.devRef .tc main_v111)) (Rv m c (Proc.devRef .tc main_v113)) (Rv m c (Proc.devRef .tc main_v24))
        (m ((c.tc : Thread nD τ).loc main_arg6)) (m ((c.tc : Thread nD τ).loc main_arg7)) (Rv m c (Proc.devRef .tc main_v96)) (Rv m c (Proc.devRef .tc main_v105)) := by
  unfold Rv; flow_h 109 233 210 181
  rw [keep _ main_arg6 (by decide), keep _ main_arg7 (by decide)]; rfl

set_option maxHeartbeats 4000000 in
theorem hu3_eq : Rv m c (Proc.devRef .tc main_v258)
    = Cert.Spec.stepU (Rv m c (Proc.devRef .tc main_v188)) (Rv m c (Proc.devRef .tc main_v190)) (Rv m c (Proc.devRef .tc main_v192)) (Rv m c (Proc.devRef .tc main_v194)) (Rv m c (Proc.devRef .tc main_v24))
        (m ((c.tc : Thread nD τ).loc main_arg6)) (m ((c.tc : Thread nD τ).loc main_arg7)) (Rv m c (Proc.devRef .tc main_v177)) (Rv m c (Proc.devRef .tc main_v186)) := by
  unfold Rv; flow_h 218 324 314 302
  rw [keep _ main_arg6 (by decide), keep _ main_arg7 (by decide)]; rfl

set_option maxHeartbeats 4000000 in
theorem hi3_eq : Rv m c (Proc.devRef .tc main_v267)
    = Cert.Spec.stepI (Rv m c (Proc.devRef .tc main_v188)) (Rv m c (Proc.devRef .tc main_v190)) (Rv m c (Proc.devRef .tc main_v192)) (Rv m c (Proc.devRef .tc main_v194)) (Rv m c (Proc.devRef .tc main_v24))
        (m ((c.tc : Thread nD τ).loc main_arg6)) (m ((c.tc : Thread nD τ).loc main_arg7)) (Rv m c (Proc.devRef .tc main_v177)) (Rv m c (Proc.devRef .tc main_v186)) := by
  unfold Rv; flow_h 218 342 319 290
  rw [keep _ main_arg6 (by decide), keep _ main_arg7 (by decide)]; rfl

theorem out0_eq : Rv m c (Proc.devRef .tc main_v276)
    = Cert.Spec.pickU (Cert.Spec.cat100 (m ((c.tc : Thread nD τ).loc main_arg0)) (Rv m c (Proc.devRef .tc main_v96)) (Rv m c (Proc.devRef .tc main_v177)) (Rv m c (Proc.devRef .tc main_v258))) (m ((c.tc : Thread nD τ).loc main_arg8)) := by
  unfold Rv; flow_out 0 360
  rw [keep _ main_arg0 (by decide), keep _ main_arg8 (by decide)]; rfl

theorem out1_eq : Rv m c (Proc.devRef .tc main_v283)
    = Cert.Spec.pickI (Cert.Spec.cat50 (m ((c.tc : Thread nD τ).loc main_arg1)) (Rv m c (Proc.devRef .tc main_v105)) (Rv m c (Proc.devRef .tc main_v186)) (Rv m c (Proc.devRef .tc main_v267))) (m ((c.tc : Thread nD τ).loc main_arg9)) := by
  unfold Rv; flow_out 9 361
  rw [keep _ main_arg1 (by decide), keep _ main_arg9 (by decide)]; rfl

theorem out2_eq : Rv m c (Proc.devRef .tc main_v290)
    = Cert.Spec.pickI (Cert.Spec.cat50 (m ((c.tc : Thread nD τ).loc main_arg1)) (Rv m c (Proc.devRef .tc main_v105)) (Rv m c (Proc.devRef .tc main_v186)) (Rv m c (Proc.devRef .tc main_v267))) (m ((c.tc : Thread nD τ).loc main_arg10)) := by
  unfold Rv; flow_out 18 361
  rw [keep _ main_arg1 (by decide), keep _ main_arg10 (by decide)]; rfl

theorem w1_0 : Rv m c (Proc.devRef .tc main_v26)
    = shapeCast S64x64 (extractStridedSlice S1x64x64 ![0, 0, 0] (m ((c.tc : Thread nD τ).loc main_arg2)) slices_S3x64x64_S1x64x64_0_0_0) shapeCasts_S1x64x64_S64x64 := by
  unfold Rv; flow_w 33
  rw [keep _ main_arg2 (by decide)]; rfl

theorem b1_0 : Rv m c (Proc.devRef .tc main_v28)
    = shapeCast S64 (extractStridedSlice S1x64 ![0, 0] (m ((c.tc : Thread nD τ).loc main_arg3)) slices_S3x64_S1x64_0_0) shapeCasts_S1x64_S64 := by
  unfold Rv; flow_w 35
  rw [keep _ main_arg3 (by decide)]; rfl

theorem w2_0 : Rv m c (Proc.devRef .tc main_v30)
    = shapeCast S64x64 (extractStridedSlice S1x64x64 ![0, 0, 0] (m ((c.tc : Thread nD τ).loc main_arg4)) slices_S3x64x64_S1x64x64_0_0_0) shapeCasts_S1x64x64_S64x64 := by
  unfold Rv; flow_w 37
  rw [keep _ main_arg4 (by decide)]; rfl

theorem b2_0 : Rv m c (Proc.devRef .tc main_v32)
    = shapeCast S64 (extractStridedSlice S1x64 ![0, 0] (m ((c.tc : Thread nD τ).loc main_arg5)) slices_S3x64_S1x64_0_0) shapeCasts_S1x64_S64 := by
  unfold Rv; flow_w 39
  rw [keep _ main_arg5 (by decide)]; rfl

theorem w1_1 : Rv m c (Proc.devRef .tc main_v107)
    = shapeCast S64x64 (extractStridedSlice S1x64x64 ![1, 0, 0] (m ((c.tc : Thread nD τ).loc main_arg2)) slices_S3x64x64_S1x64x64_1_0_0) shapeCasts_S1x64x64_S64x64 := by
  unfold Rv; flow_w 142
  rw [keep _ main_arg2 (by decide)]; rfl

theorem b1_1 : Rv m c (Proc.devRef .tc main_v109)
    = shapeCast S64 (extractStridedSlice S1x64 ![1, 0] (m ((c.tc : Thread nD τ).loc main_arg3)) slices_S3x64_S1x64_1_0) shapeCasts_S1x64_S64 := by
  unfold Rv; flow_w 144
  rw [keep _ main_arg3 (by decide)]; rfl

theorem w2_1 : Rv m c (Proc.devRef .tc main_v111)
    = shapeCast S64x64 (extractStridedSlice S1x64x64 ![1, 0, 0] (m ((c.tc : Thread nD τ).loc main_arg4)) slices_S3x64x64_S1x64x64_1_0_0) shapeCasts_S1x64x64_S64x64 := by
  unfold Rv; flow_w 146
  rw [keep _ main_arg4 (by decide)]; rfl

theorem b2_1 : Rv m c (Proc.devRef .tc main_v113)
    = shapeCast S64 (extractStridedSlice S1x64 ![1, 0] (m ((c.tc : Thread nD τ).loc main_arg5)) slices_S3x64_S1x64_1_0) shapeCasts_S1x64_S64 := by
  unfold Rv; flow_w 148
  rw [keep _ main_arg5 (by decide)]; rfl

theorem w1_2 : Rv m c (Proc.devRef .tc main_v188)
    = shapeCast S64x64 (extractStridedSlice S1x64x64 ![2, 0, 0] (m ((c.tc : Thread nD τ).loc main_arg2)) slices_S3x64x64_S1x64x64_2_0_0) shapeCasts_S1x64x64_S64x64 := by
  unfold Rv; flow_w 251
  rw [keep _ main_arg2 (by decide)]; rfl

theorem b1_2 : Rv m c (Proc.devRef .tc main_v190)
    = shapeCast S64 (extractStridedSlice S1x64 ![2, 0] (m ((c.tc : Thread nD τ).loc main_arg3)) slices_S3x64_S1x64_2_0) shapeCasts_S1x64_S64 := by
  unfold Rv; flow_w 253
  rw [keep _ main_arg3 (by decide)]; rfl

theorem w2_2 : Rv m c (Proc.devRef .tc main_v192)
    = shapeCast S64x64 (extractStridedSlice S1x64x64 ![2, 0, 0] (m ((c.tc : Thread nD τ).loc main_arg4)) slices_S3x64x64_S1x64x64_2_0_0) shapeCasts_S1x64x64_S64x64 := by
  unfold Rv; flow_w 255
  rw [keep _ main_arg4 (by decide)]; rfl

theorem b2_2 : Rv m c (Proc.devRef .tc main_v194)
    = shapeCast S64 (extractStridedSlice S1x64 ![2, 0] (m ((c.tc : Thread nD τ).loc main_arg5)) slices_S3x64_S1x64_2_0) shapeCasts_S1x64_S64 := by
  unfold Rv; flow_w 257
  rw [keep _ main_arg5 (by decide)]; rfl

end Cert.ReferenceIdeal.Hand

end
-- ==== Proof.Bridge.lean ====
import proofs.«431207_j9844065042802_4_alg».proof.Proof.KI.Layers
import proofs.«431207_j9844065042802_4_alg».proof.Proof.KI.Ends
import proofs.«431207_j9844065042802_4_alg».proof.Proof.Ref.Value

noncomputable section

namespace Cert.Proof.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem arg_eq (b : Ref Cert.KernelIdeal.sig .tc) : Cert.KernelIdeal.Gen.V0 m c b = m ((c.tc : Thread Cert.KernelIdeal.nD Cert.KernelIdeal.τ).loc b) := rfl

theorem results_eq
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Hand.Rv m' c (Proc.devRef .tc Cert.ReferenceIdeal.main_v276) = Cert.KernelIdeal.Hand.X28 m c Cert.KernelIdeal.main_v183
    ∧ Cert.ReferenceIdeal.Hand.Rv m' c (Proc.devRef .tc Cert.ReferenceIdeal.main_v283) = Cert.KernelIdeal.Hand.X28 m c Cert.KernelIdeal.main_v190
    ∧ Cert.ReferenceIdeal.Hand.Rv m' c (Proc.devRef .tc Cert.ReferenceIdeal.main_v290) = Cert.KernelIdeal.Hand.X28 m c Cert.KernelIdeal.main_v197 := by
  obtain ⟨a0, a1, a2, a3, a4, a5, a6, a7, a8, a9, a10⟩ := hagree

  have e_nrm : Cert.ReferenceIdeal.Hand.Rv m' c (Proc.devRef .tc Cert.ReferenceIdeal.main_v24) = Cert.KernelIdeal.Hand.X1 m c Cert.KernelIdeal.main_v24 := by
    rw [Cert.ReferenceIdeal.Hand.nrm_eq, Cert.KernelIdeal.Hand.knrm, a6, a7]

  have e_w1_0 : Cert.ReferenceIdeal.Hand.Rv m' c (Proc.devRef .tc Cert.ReferenceIdeal.main_v26) = Cert.KernelIdeal.Hand.X1 m c Cert.KernelIdeal.main_v26 := by
    rw [Cert.ReferenceIdeal.Hand.w1_0, Cert.KernelIdeal.Hand.kw1_0, a2]
  have e_b1_0 : Cert.ReferenceIdeal.Hand.Rv m' c (Proc.devRef .tc Cert.ReferenceIdeal.main_v28) = Cert.KernelIdeal.Hand.X1 m c Cert.KernelIdeal.main_v28 := by
    rw [Cert.ReferenceIdeal.Hand.b1_0, Cert.KernelIdeal.Hand.kb1_0, a3]
  have e_w2_0 : Cert.ReferenceIdeal.Hand.Rv m' c (Proc.devRef .tc Cert.ReferenceIdeal.main_v30) = Cert.KernelIdeal.Hand.X1 m c Cert.KernelIdeal.main_v30 := by
    rw [Cert.ReferenceIdeal.Hand.w2_0, Cert.KernelIdeal.Hand.kw2_0, a4]
  have e_b2_0 : Cert.ReferenceIdeal.Hand.Rv m' c (Proc.devRef .tc Cert.ReferenceIdeal.main_v32) = Cert.KernelIdeal.Hand.X1 m c Cert.KernelIdeal.main_v32 := by
    rw [Cert.ReferenceIdeal.Hand.b2_0, Cert.KernelIdeal.Hand.kb2_0, a5]
  have e_w1_1 : Cert.ReferenceIdeal.Hand.Rv m' c (Proc.devRef .tc Cert.ReferenceIdeal.main_v107) = Cert.KernelIdeal.Hand.X10 m c Cert.KernelIdeal.main_v76 := by
    rw [Cert.ReferenceIdeal.Hand.w1_1, Cert.KernelIdeal.Hand.kw1_1, a2]
  have e_b1_1 : Cert.ReferenceIdeal.Hand.Rv m' c (Proc.devRef .tc Cert.ReferenceIdeal.main_v109) = Cert.KernelIdeal.Hand.X10 m c Cert.KernelIdeal.main_v78 := by
    rw [Cert.ReferenceIdeal.Hand.b1_1, Cert.KernelIdeal.Hand.kb1_1, a3]
  have e_w2_1 : Cert.ReferenceIdeal.Hand.Rv m' c (Proc.devRef .tc Cert.ReferenceIdeal.main_v111) = Cert.KernelIdeal.Hand.X10 m c Cert.KernelIdeal.main_v80 := by
    rw [Cert.ReferenceIdeal.Hand.w2_1, Cert.KernelIdeal.Hand.kw2_1, a4]
  have e_b2_1 : Cert.ReferenceIdeal.Hand.Rv m' c (Proc.devRef .tc Cert.ReferenceIdeal.main_v113) = Cert.KernelIdeal.Hand.X10 m c Cert.KernelIdeal.main_v82 := by
    rw [Cert.ReferenceIdeal.Hand.b2_1, Cert.KernelIdeal.Hand.kb2_1, a5]
  have e_w1_2 : Cert.ReferenceIdeal.Hand.Rv m' c (Proc.devRef .tc Cert.ReferenceIdeal.main_v188) = Cert.KernelIdeal.Hand.X19 m c Cert.KernelIdeal.main_v126 := by
    rw [Cert.ReferenceIdeal.Hand.w1_2, Cert.KernelIdeal.Hand.kw1_2, a2]
  have e_b1_2 : Cert.ReferenceIdeal.Hand.Rv m' c (Proc.devRef .tc Cert.ReferenceIdeal.main_v190) = Cert.KernelIdeal.Hand.X19 m c Cert.KernelIdeal.main_v128 := by
    rw [Cert.ReferenceIdeal.Hand.b1_2, Cert.KernelIdeal.Hand.kb1_2, a3]
  have e_w2_2 : Cert.ReferenceIdeal.Hand.Rv m' c (Proc.devRef .tc Cert.ReferenceIdeal.main_v192) = Cert.KernelIdeal.Hand.X19 m c Cert.KernelIdeal.main_v130 := by
    rw [Cert.ReferenceIdeal.Hand.w2_2, Cert.KernelIdeal.Hand.kw2_2, a4]
  have e_b2_2 : Cert.ReferenceIdeal.Hand.Rv m' c (Proc.devRef .tc Cert.ReferenceIdeal.main_v194) = Cert.KernelIdeal.Hand.X19 m c Cert.KernelIdeal.main_v132 := by
    rw [Cert.ReferenceIdeal.Hand.b2_2, Cert.KernelIdeal.Hand.kb2_2, a5]

  have e_hu1 : Cert.ReferenceIdeal.Hand.Rv m' c (Proc.devRef .tc Cert.ReferenceIdeal.main_v96) = Cert.KernelIdeal.Hand.X8 m c Cert.KernelIdeal.main_v73 := by
    rw [Cert.ReferenceIdeal.Hand.hu1_eq, Cert.KernelIdeal.Hand.layer0_U, e_w1_0, e_b1_0, e_w2_0, e_b2_0, e_nrm, a6, a7, a0, a1]
  have e_hi1 : Cert.ReferenceIdeal.Hand.Rv m' c (Proc.devRef .tc Cert.ReferenceIdeal.main_v105) = Cert.KernelIdeal.Hand.X9 m c Cert.KernelIdeal.main_v74 := by
    rw [Cert.ReferenceIdeal.Hand.hi1_eq, Cert.KernelIdeal.Hand.layer0_I, e_w1_0, e_b1_0, e_w2_0, e_b2_0, e_nrm, a6, a7, a0, a1]

  have e_hu2 : Cert.ReferenceIdeal.Hand.Rv m' c (Proc.devRef .tc Cert.ReferenceIdeal.main_v177) = Cert.KernelIdeal.Hand.X17 m c Cert.KernelIdeal.main_v123 := by
    rw [Cert.ReferenceIdeal.Hand.hu2_eq, Cert.KernelIdeal.Hand.layer1_U, e_w1_1, e_b1_1, e_w2_1, e_b2_1, e_nrm, a6, a7, e_hu1, e_hi1]
  have e_hi2 : Cert.ReferenceIdeal.Hand.Rv m' c (Proc.devRef .tc Cert.ReferenceIdeal.main_v186) = Cert.KernelIdeal.Hand.X18 m c Cert.KernelIdeal.main_v124 := by
    rw [Cert.ReferenceIdeal.Hand.hi2_eq, Cert.KernelIdeal.Hand.layer1_I, e_w1_1, e_b1_1, e_w2_1, e_b2_1, e_nrm, a6, a7, e_hu1, e_hi1]

  have e_hu3 : Cert.ReferenceIdeal.Hand.Rv m' c (Proc.devRef .tc Cert.ReferenceIdeal.main_v258) = Cert.KernelIdeal.Hand.X26 m c Cert.KernelIdeal.main_v173 := by
    rw [Cert.ReferenceIdeal.Hand.hu3_eq, Cert.KernelIdeal.Hand.layer2_U, e_w1_2, e_b1_2, e_w2_2, e_b2_2, e_nrm, a6, a7, e_hu2, e_hi2]
  have e_hi3 : Cert.ReferenceIdeal.Hand.Rv m' c (Proc.devRef .tc Cert.ReferenceIdeal.main_v267) = Cert.KernelIdeal.Hand.X27 m c Cert.KernelIdeal.main_v174 := by
    rw [Cert.ReferenceIdeal.Hand.hi3_eq, Cert.KernelIdeal.Hand.layer2_I, e_w1_2, e_b1_2, e_w2_2, e_b2_2, e_nrm, a6, a7, e_hu2, e_hi2]

  refine ⟨?_, ?_, ?_⟩
  · rw [Cert.ReferenceIdeal.Hand.out0_eq, Cert.KernelIdeal.Hand.kout0, a0, e_hu1, e_hu2, e_hu3, a8]
  · rw [Cert.ReferenceIdeal.Hand.out1_eq, Cert.KernelIdeal.Hand.kout1, a1, e_hi1, e_hi2, e_hi3, a9]
  · rw [Cert.ReferenceIdeal.Hand.out2_eq, Cert.KernelIdeal.Hand.kout2, a1, e_hi1, e_hi2, e_hi3, a10]

end Cert.Proof.Bridge

end
-- ==== Proof.lean ====
-- Each tiled launch of the kernel program leaves, tile by tile, the array the reference's host operation computes on the whole arrays;
-- everything else is the same host operation on both sides, so the two programs compute one function of the arguments.
import proofs.«431207_j9844065042802_4_alg».proof.Defs
import proofs.«431207_j9844065042802_4_alg».proof.Proof.K.Frame
import proofs.«431207_j9844065042802_4_alg».proof.Proof.KI.Frame
import proofs.«431207_j9844065042802_4_alg».proof.Proof.KI.Run
import proofs.«431207_j9844065042802_4_alg».proof.Proof.Ref.Run
import proofs.«431207_j9844065042802_4_alg».proof.Proof.Bridge
import proofs.«431207_j9844065042802_4_alg».proof.Proof.Gen.Pre_finite_inputs

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

theorem algebraic : Cert.algebraic_KernelIdeal_ReferenceIdeal := by
  intro m ρ m' ρ' _ hagree
  refine ⟨fun c => Cert.KernelIdeal.Hand.X28 m c Cert.KernelIdeal.main_v183,
    fun c => Cert.KernelIdeal.Hand.X28 m c Cert.KernelIdeal.main_v190,
    fun c => Cert.KernelIdeal.Hand.X28 m c Cert.KernelIdeal.main_v197,
    Cert.KernelIdeal.Hand.run_values (F := Ideal) m ρ, ?_⟩
  refine (θ_run Cert.ReferenceIdeal.defs _ _).mono (fun r h c => ?_) (Cert.ReferenceIdeal.Hand.run_values (F := Ideal) m' ρ')
  obtain ⟨e0, e1, e2⟩ := Cert.Proof.Bridge.results_eq m m' c (hagree c)
  exact ⟨(h c).1.trans e0, (h c).2.1.trans e1, (h c).2.2.1.trans e2, (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
